-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S3x128x128 .f32) (main_arg10 : FVec F S3x128 .f32) (main_arg11 : FVec F S3 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3 .f32 := Host.absf main_arg11
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg6 : FVec F S128 .f32) (main_arg7 : FVec F S3x128x128 .f32) (main_arg8 : FVec F S3x128 .f32) (main_arg9 : FVec F S3x128x128 .f32) (main_arg10 : FVec F S3x128 .f32) (main_arg11 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S3x128x128 .f32) (main_arg8 : FVec F S3x128 .f32) (main_arg9 : FVec F S3x128x128 .f32) (main_arg10 : FVec F S3x128 .f32) (main_arg11 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S3 : Shape := ⟨1, ![3]⟩
abbrev S1x1600000 : Shape := ⟨2, ![1, 1600000]⟩
abbrev S1600000 : Shape := ⟨1, ![1600000]⟩
abbrev S100000x1 : Shape := ⟨2, ![100000, 1]⟩
abbrev S1x128 : Shape := ⟨2, ![1, 128]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x1 : Shape := ⟨2, ![1, 1]⟩
abbrev S1x128x128 : Shape := ⟨3, ![1, 128, 128]⟩
abbrev S64x128 : Shape := ⟨2, ![64, 128]⟩
abbrev S5000x1 : Shape := ⟨2, ![5000, 1]⟩
abbrev S5000x64 : Shape := ⟨2, ![5000, 64]⟩
abbrev S64x384 : Shape := ⟨2, ![64, 384]⟩

abbrev nBuf : Space → Nat
  | .hbm => 108
  | .vmem => 50
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S3x128x128, .f32⟩
  | .hbm, ⟨8, _⟩ => ⟨S3x128, .f32⟩
  | .hbm, ⟨9, _⟩ => ⟨S3x128x128, .f32⟩
  | .hbm, ⟨10, _⟩ => ⟨S3x128, .f32⟩
  | .hbm, ⟨11, _⟩ => ⟨S3, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000x1, .i32⟩
  | .hbm, ⟨17, _⟩ => ⟨S1x128, .f32⟩
  | .hbm, ⟨18, _⟩ => ⟨S1x128, .f32⟩
  | .hbm, ⟨19, _⟩ => ⟨S100000x128, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .bf16⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S1, .f32⟩
  | .hbm, ⟨35, _⟩ => ⟨S_, .f32⟩
  | .hbm, ⟨36, _⟩ => ⟨S1x1, .f32⟩
  | .hbm, ⟨37, _⟩ => ⟨S1x128x128, .f32⟩
  | .hbm, ⟨38, _⟩ => ⟨S128x128, .f32⟩
  | .hbm, ⟨39, _⟩ => ⟨S1x128, .f32⟩
  | .hbm, ⟨40, _⟩ => ⟨S128, .f32⟩
  | .hbm, ⟨41, _⟩ => ⟨S1x128x128, .f32⟩
  | .hbm, ⟨42, _⟩ => ⟨S128x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S1x128, .f32⟩
  | .hbm, ⟨47, _⟩ => ⟨S100000x128, .bf16⟩
  | .hbm, ⟨48, _⟩ => ⟨S64x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .bf16⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1, .f32⟩
  | .hbm, ⟨64, _⟩ => ⟨S_, .f32⟩
  | .hbm, ⟨65, _⟩ => ⟨S1x1, .f32⟩
  | .hbm, ⟨66, _⟩ => ⟨S1x128x128, .f32⟩
  | .hbm, ⟨67, _⟩ => ⟨S128x128, .f32⟩
  | .hbm, ⟨68, _⟩ => ⟨S1x128, .f32⟩
  | .hbm, ⟨69, _⟩ => ⟨S128, .f32⟩
  | .hbm, ⟨70, _⟩ => ⟨S1x128x128, .f32⟩
  | .hbm, ⟨71, _⟩ => ⟨S128x128, .f32⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S1x128, .f32⟩
  | .hbm, ⟨76, _⟩ => ⟨S100000x128, .bf16⟩
  | .hbm, ⟨77, _⟩ => ⟨S64x128, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .bf16⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S1, .f32⟩
  | .hbm, ⟨93, _⟩ => ⟨S_, .f32⟩
  | .hbm, ⟨94, _⟩ => ⟨S1x1, .f32⟩
  | .hbm, ⟨95, _⟩ => ⟨S1x128x128, .f32⟩
  | .hbm, ⟨96, _⟩ => ⟨S128x128, .f32⟩
  | .hbm, ⟨97, _⟩ => ⟨S1x128, .f32⟩
  | .hbm, ⟨98, _⟩ => ⟨S128, .f32⟩
  | .hbm, ⟨99, _⟩ => ⟨S1x128x128, .f32⟩
  | .hbm, ⟨100, _⟩ => ⟨S128x128, .f32⟩
  | .hbm, ⟨101, _⟩ => ⟨S1x128, .f32⟩
  | .hbm, ⟨102, _⟩ => ⟨S128, .f32⟩
  | .hbm, ⟨103, _⟩ => ⟨S1x128, .f32⟩
  | .hbm, ⟨104, _⟩ => ⟨S1x128, .f32⟩
  | .hbm, ⟨105, _⟩ => ⟨S100000x128, .bf16⟩
  | .hbm, ⟨106, _⟩ => ⟨S64x128, .f32⟩
  | .hbm, ⟨107, _⟩ => ⟨S64x384, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .bf16⟩
  | .local _ .vmem, ⟨7, _⟩ => ⟨S5000x128, .bf16⟩
  | .local _ .vmem, ⟨8, _⟩ => ⟨S5000x128, .bf16⟩
  | .local _ .vmem, ⟨9, _⟩ => ⟨S5000x128, .bf16⟩
  | .local _ .vmem, ⟨10, _⟩ => ⟨S5000x128, .f32⟩
  | .local _ .vmem, ⟨11, _⟩ => ⟨S5000x128, .f32⟩
  | .local _ .vmem, ⟨12, _⟩ => ⟨S5000x1, .i32⟩
  | .local _ .vmem, ⟨13, _⟩ => ⟨S5000x1, .i32⟩
  | .local _ .vmem, ⟨14, _⟩ => ⟨S1x1, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S5000x128, .bf16⟩
  | .local _ .vmem, ⟨20, _⟩ => ⟨S5000x128, .bf16⟩
  | .local _ .vmem, ⟨21, _⟩ => ⟨S64x128, .f32⟩
  | .local _ .vmem, ⟨22, _⟩ => ⟨S5000x128, .bf16⟩
  | .local _ .vmem, ⟨23, _⟩ => ⟨S5000x128, .bf16⟩
  | .local _ .vmem, ⟨24, _⟩ => ⟨S5000x128, .f32⟩
  | .local _ .vmem, ⟨25, _⟩ => ⟨S5000x128, .f32⟩
  | .local _ .vmem, ⟨26, _⟩ => ⟨S5000x1, .i32⟩
  | .local _ .vmem, ⟨27, _⟩ => ⟨S5000x1, .i32⟩
  | .local _ .vmem, ⟨28, _⟩ => ⟨S1x1, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S5000x128, .bf16⟩
  | .local _ .vmem, ⟨34, _⟩ => ⟨S5000x128, .bf16⟩
  | .local _ .vmem, ⟨35, _⟩ => ⟨S64x128, .f32⟩
  | .local _ .vmem, ⟨36, _⟩ => ⟨S5000x128, .bf16⟩
  | .local _ .vmem, ⟨37, _⟩ => ⟨S5000x128, .bf16⟩
  | .local _ .vmem, ⟨38, _⟩ => ⟨S5000x128, .f32⟩
  | .local _ .vmem, ⟨39, _⟩ => ⟨S5000x128, .f32⟩
  | .local _ .vmem, ⟨40, _⟩ => ⟨S5000x1, .i32⟩
  | .local _ .vmem, ⟨41, _⟩ => ⟨S5000x1, .i32⟩
  | .local _ .vmem, ⟨42, _⟩ => ⟨S1x1, .f32⟩
  | .local _ .vmem, ⟨43, _⟩ => ⟨S128x128, .f32⟩
  | .local _ .vmem, ⟨44, _⟩ => ⟨S1x128, .f32⟩
  | .local _ .vmem, ⟨45, _⟩ => ⟨S128x128, .f32⟩
  | .local _ .vmem, ⟨46, _⟩ => ⟨S1x128, .f32⟩
  | .local _ .vmem, ⟨47, _⟩ => ⟨S5000x128, .bf16⟩
  | .local _ .vmem, ⟨48, _⟩ => ⟨S5000x128, .bf16⟩
  | .local _ .vmem, ⟨49, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_c_1 : Ref sig .tc := ⟨.hbm, 49, rfl⟩
abbrev main_v33 : Ref sig .tc := ⟨.hbm, 50, rfl⟩
abbrev main_v34 : Ref sig .tc := ⟨.hbm, 51, rfl⟩
abbrev main_c_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_c_4 : Ref sig .tc := ⟨.hbm, 78, rfl⟩
abbrev main_v58 : Ref sig .tc := ⟨.hbm, 79, rfl⟩
abbrev main_v59 : Ref sig .tc := ⟨.hbm, 80, rfl⟩
abbrev main_c_5 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_6 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82_0 : Ref sig .tc := ⟨.hbm, 105, rfl⟩
abbrev main_v82_1 : Ref sig .tc := ⟨.hbm, 106, rfl⟩
abbrev main_v83 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc2_stg9_0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg8_1 : Ref sig .tc := ⟨.vmem, 48, rfl⟩
abbrev cc3_stg9_0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20
abbrev cc1_sem9_0 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34
abbrev cc2_sem9_0 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem8_1 : DmaSem sig := 48
abbrev cc3_sem9_0 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S64x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S64x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S64x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3_S1_0 : S3.Slices ![0] S1
  shapeCasts_S1_S_ : S1.ShapeCasts S_
  shapeCasts_S_S1x1 : S_.ShapeCasts S1x1
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S64x128_S64x128_0_0 : ∀ a, (![0, 0] : Fin 2 → Nat) a + S64x128.size a ≤ S64x128.size a
  h_S64x128 : 0 < S64x128.numel
  shapeCasts_S5000x128_S5000x128 : S5000x128.ShapeCasts S5000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x128 : S1x1.Broadcasts S5000x128
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  shapeCasts_S64x128_S64x128 : S64x128.ShapeCasts S64x128
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  concatenates_S64x128_S64x128_S64x128_S64x384_d1 : Shape.Concatenates [S64x128, S64x128, S64x128] S64x384 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x64_S5000x128_S64x128_0_0_1_1_n_n_wf : DotDims.WF S5000x64 S5000x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .bf16 = 32 ∨ (Rect.block (s := S100000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .i32 = 32 ∨ (Rect.block (s := S100000x1) S5000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .bf16 = 32 ∨ (Rect.block (s := S100000x128) S5000x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x128.size a ≤ S64x128.size a
  hwx1_9 : ∀ i : grid1.Coords, EltTy.bits .f32 = 32 ∨ (Rect.block (s := S64x128) S64x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .bf16 = 32 ∨ (Rect.block (s := S100000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .i32 = 32 ∨ (Rect.block (s := S100000x1) S5000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .bf16 = 32 ∨ (Rect.block (s := S100000x128) S5000x128.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x128.size a ≤ S64x128.size a
  hwx2_9 : ∀ i : grid2.Coords, EltTy.bits .f32 = 32 ∨ (Rect.block (s := S64x128) S64x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .bf16 = 32 ∨ (Rect.block (s := S100000x128) S5000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .i32 = 32 ∨ (Rect.block (s := S100000x1) S5000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S100000x128.size a
  hwx3_8 : ∀ i : grid3.Coords, EltTy.bits .bf16 = 32 ∨ (Rect.block (s := S100000x128) S5000x128.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x128.size a ≤ S64x128.size a
  hwx3_9 : ∀ i : grid3.Coords, EltTy.bits .f32 = 32 ∨ (Rect.block (s := S64x128) S64x128.size (cc3_transform_9 i) (hinb3_9 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v32_0) S5000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v32_1) S64x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v32_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v56) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v57_0) S5000x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v57_1) S64x128.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v57_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v73) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v77) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v81) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v82_0) S5000x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v82_1) S64x128.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S3 : Shape := ⟨1, ![3]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x128x128 : Shape := ⟨3, ![1, 128, 128]⟩
abbrev S64x128 : Shape := ⟨2, ![64, 128]⟩
abbrev S100000x1 : Shape := ⟨2, ![100000, 1]⟩
abbrev S64x384 : Shape := ⟨2, ![64, 384]⟩

abbrev nBuf : Space → Nat
  | .hbm => 160
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S3x128x128, .f32⟩
  | 8 => ⟨S3x128, .f32⟩
  | 9 => ⟨S3x128x128, .f32⟩
  | 10 => ⟨S3x128, .f32⟩
  | 11 => ⟨S3, .f32⟩
  | 12 => ⟨S1x1600000, .i32⟩
  | 13 => ⟨S1600000, .i32⟩
  | 14 => ⟨S1x1600000, .i32⟩
  | 15 => ⟨S1600000, .i32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S1, .f32⟩
  | 44 => ⟨S_, .f32⟩
  | 45 => ⟨S_, .f32⟩
  | 46 => ⟨S_, .f32⟩
  | 47 => ⟨S100000x128, .f32⟩
  | 48 => ⟨S100000x128, .f32⟩
  | 49 => ⟨S100000x128, .f32⟩
  | 50 => ⟨S1x128x128, .f32⟩
  | 51 => ⟨S128x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S1x128x128, .f32⟩
  | 62 => ⟨S128x128, .f32⟩
  | 63 => ⟨S100000x128, .f32⟩
  | 64 => ⟨S1x128, .f32⟩
  | 65 => ⟨S128, .f32⟩
  | 66 => ⟨S1x128, .f32⟩
  | 67 => ⟨S100000x128, .f32⟩
  | 68 => ⟨S100000x128, .f32⟩
  | 69 => ⟨S_, .f32⟩
  | 70 => ⟨S64x128, .f32⟩
  | 71 => ⟨S100000x1, .i32⟩
  | 72 => ⟨S64x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S1, .f32⟩
  | 87 => ⟨S_, .f32⟩
  | 88 => ⟨S_, .f32⟩
  | 89 => ⟨S_, .f32⟩
  | 90 => ⟨S100000x128, .f32⟩
  | 91 => ⟨S100000x128, .f32⟩
  | 92 => ⟨S100000x128, .f32⟩
  | 93 => ⟨S1x128x128, .f32⟩
  | 94 => ⟨S128x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S1x128x128, .f32⟩
  | 105 => ⟨S128x128, .f32⟩
  | 106 => ⟨S100000x128, .f32⟩
  | 107 => ⟨S1x128, .f32⟩
  | 108 => ⟨S128, .f32⟩
  | 109 => ⟨S1x128, .f32⟩
  | 110 => ⟨S100000x128, .f32⟩
  | 111 => ⟨S100000x128, .f32⟩
  | 112 => ⟨S_, .f32⟩
  | 113 => ⟨S64x128, .f32⟩
  | 114 => ⟨S100000x1, .i32⟩
  | 115 => ⟨S64x128, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S1, .f32⟩
  | 2 => ⟨S_, .f32⟩
  | 3 => ⟨S_, .f32⟩
  | 4 => ⟨S_, .f32⟩
  | 5 => ⟨S100000x128, .f32⟩
  | 6 => ⟨S100000x128, .f32⟩
  | 7 => ⟨S100000x128, .f32⟩
  | 8 => ⟨S1x128x128, .f32⟩
  | 9 => ⟨S128x128, .f32⟩
  | 10 => ⟨S100000x128, .f32⟩
  | 11 => ⟨S1x128, .f32⟩
  | 12 => ⟨S128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S1x128x128, .f32⟩
  | 20 => ⟨S128x128, .f32⟩
  | 21 => ⟨S100000x128, .f32⟩
  | 22 => ⟨S1x128, .f32⟩
  | 23 => ⟨S128, .f32⟩
  | 24 => ⟨S1x128, .f32⟩
  | 25 => ⟨S100000x128, .f32⟩
  | 26 => ⟨S100000x128, .f32⟩
  | 27 => ⟨S_, .f32⟩
  | 28 => ⟨S64x128, .f32⟩
  | 29 => ⟨S100000x1, .i32⟩
  | 30 => ⟨S64x128, .f32⟩
  | 31 => ⟨S64x384, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_cst : Ref sig .tc := ⟨.hbm, 27, rfl⟩
abbrev main_call1_v0 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call2_cst : Ref sig .tc := ⟨.hbm, 58, rfl⟩
abbrev main_call2_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_2 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_3 : Ref sig .tc := ⟨.hbm, 73, rfl⟩
abbrev main_v50 : Ref sig .tc := ⟨.hbm, 74, rfl⟩
abbrev main_v51 : Ref sig .tc := ⟨.hbm, 75, rfl⟩
abbrev main_c_4 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_5 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_6 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call3_cst : Ref sig .tc := ⟨.hbm, 101, rfl⟩
abbrev main_call3_v0 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_7 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_8 : Ref sig .tc := ⟨.hbm, 116, rfl⟩
abbrev main_v86 : Ref sig .tc := ⟨.hbm, 117, rfl⟩
abbrev main_v87 : Ref sig .tc := ⟨.hbm, 118, rfl⟩
abbrev main_c_9 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_10 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_11 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_call4_cst : Ref sig .tc := ⟨.hbm, 144, rfl⟩
abbrev main_call4_v0 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_12 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S64x128 : S_.BroadcastsInDim S64x128 (![] : Fin 0 → Fin S64x128.rank)
  bcast_S100000_S100000x1_0 : S100000.BroadcastsInDim S100000x1 (![0] : Fin 1 → Fin S100000x1.rank)
  slices_S3_S1_1 : S3.Slices ![1] S1
  slices_S3x128x128_S1x128x128_1_0_0 : S3x128x128.Slices ![1, 0, 0] S1x128x128
  slices_S3x128_S1x128_1_0 : S3x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  concatenates_S64x128_S64x128_S64x128_S64x384_d1 : Shape.Concatenates [S64x128, S64x128, S64x128] S64x384 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf

class Facts : Prop extends Facts₀ where

variable [Facts]
-- ==== Proof.KReg0.lean ====
import proofs.«421016_j46033459478730_2_alg».proof.Proof.Gen.Kernel.Launch
import proofs.«421016_j46033459478730_2_alg».proof.Proof.Gen.Kernel.Skeleton
import proofs.«421016_j46033459478730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rTile0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

def out0_5 (x0 : Vec F S5000x128 .f32) (x1 : Vec F S128x128 .f32) (x2 : Vec F S1x128 .f32) (x3 : Vec F S128x128 .f32) (x4 : Vec F S1x128 .f32) :
    Vec F S5000x128 .bf16 :=
  View.canon [⟨rTile0, k0_pay1 (View.ld x0 rTile0) (View.ld x1 rW0) (View.ld x2 rB0) (View.ld x3 rW0) (View.ld x4 rB0)⟩]

theorem cover0_5 (p0 : Vec F S5000x128 .bf16) (y : S5000x128.Idx) :
    ∃ pc ∈ ([⟨rTile0, p0⟩] : List (View.Piece (Elt F) S5000x128 .bf16)), y ∈ pc.1.set :=
  View.cover_of_tiled [⟨rTile0, p0⟩] S5000x128.size (by rfl) y

set_option maxHeartbeats 1000000 in
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .bf16) (harg6 : arg6.IsWhole)
    (x0 : Vec F S5000x128 .f32) (x1 : Vec F S128x128 .f32) (x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__pre_linear_kernel i arg1 harg1 arg2 harg2 arg3 harg3 arg4 harg4 arg5 harg5 arg6 harg6) K := by
  simp only [cc0__pre_linear_kernel_eq_skeleton]; unfold cc0__pre_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = iblk0 V c 3 t := rfl
theorem after0_4 (c : Dev nD) (t : Fin cfg0.N) : (dat0 V c).after 4 t = iblk0 V c 4 t := rfl
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
import proofs.«421016_j46033459478730_2_alg».proof.Proof.Gen.Kernel.Launch
import proofs.«421016_j46033459478730_2_alg».proof.Proof.Gen.Kernel.Skeleton
import proofs.«421016_j46033459478730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R1

variable (V : (c : Dev nD) → (b : Ref sig .tc) → Buf (Elt F) ((c : Thread nD τ).loc b))

abbrev cond (i : grid1.Coords) : Prop := (Scalar.cmpi .ne (Scalar.extui (Scalar.cmpi .eq (BitVec.ofNat 32 (i 0).val) 0#32)) 0#32) = 1#1
theorem hcond : ∀ t : Fin cfg1.N, cond (grid1.coords t) ↔ t.val % 20 = 0 :=
  (by decide +kernel : ∀ t : Fin grid1.N, cond (grid1.coords t) ↔ t.val % 20 = 0)

abbrev VO8 : View sig .tc .vmem S5000x128 .bf16 := (Memref.whole cc1_stg8_0 : Memref sig .tc .vmem S5000x128 .bf16).view
abbrev VO9 : View sig .tc .vmem S64x128 .f32 := (Memref.whole cc1_stg9_0 : Memref sig .tc .vmem S64x128 .f32).view
abbrev ms0 (t : Fin cfg1.N) : Memref sig .tc .vmem S5000x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S5000x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S5000x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S128x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S128x128 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1x128 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S5000x128 .bf16 := win1_8.stage (cfg1.slots t 8)
abbrev hs8 (t : Fin cfg1.N) : (ms8 t).IsWhole := hstage1_8 ((cfg1.slots t 8).cast nbuf1_8)
abbrev ms9 (t : Fin cfg1.N) : Memref sig .tc .vmem S64x128 .f32 := win1_9.stage (cfg1.slots t 9)
abbrev hs9 (t : Fin cfg1.N) : (ms9 t).IsWhole := hstage1_9 ((cfg1.slots t 9).cast nbuf1_9)

section Body
variable (c : Dev nD) (i : grid1.Coords) (arg1 : Memref sig .tc .vmem S5000x128 .bf16) (harg1 : arg1.IsWhole) (arg2 : Memref sig .tc .vmem S5000x128 .f32) (harg2 : arg2.IsWhole) (arg3 : Memref sig .tc .vmem S5000x1 .i32) (harg3 : arg3.IsWhole) (arg4 : Memref sig .tc .vmem S1x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S5000x128 .bf16) (harg9 : arg9.IsWhole) (arg10 : Memref sig .tc .vmem S64x128 .f32) (harg10 : arg10.IsWhole)

/- The body's run, once per branch, at any ten whole buffers: what it stores into the two outputs' buffers, that the
   stores tile them, and the two buffers read back. -/
section A
variable (hc0 : cond i) (x0 : Vec F S5000x128 .bf16) (x1 : Vec F S5000x128 .f32) (x2 : Vec F S5000x1 .i32) (x3 : Vec F S1x1 .f32) (x4 : Vec F S128x128 .f32) (x5 : Vec F S1x128 .f32) (x6 : Vec F S128x128 .f32) (x7 : Vec F S1x128 .f32)

set_option maxHeartbeats 2000000 in
noncomputable def kernelRun_A :
    Σ' (L8 : List (View.Piece (Elt F) S5000x128 .bf16)), { L9 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc1__mlp_pool_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__mlp_pool_kernel_eq_skeleton]; unfold cc1__mlp_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

theorem cover_A_8 (y : S5000x128.Idx) :
    ∃ pc ∈ (kernelRun_A c i arg1 harg1 arg2 harg2 arg3 harg3 arg4 harg4 arg5 harg5 arg6 harg6 arg7 harg7 arg8 harg8 arg9 harg9 arg10 harg10 hc0 x0 x1 x2 x3 x4 x5 x6 x7).1, y ∈ pc.1.set :=
  View.cover_of_tiledL (kernelRun_A c i arg1 harg1 arg2 harg2 arg3 harg3 arg4 harg4 arg5 harg5 arg6 harg6 arg7 harg7 arg8 harg8 arg9 harg9 arg10 harg10 hc0 x0 x1 x2 x3 x4 x5 x6 x7).1 S5000x128.size (by sl_kernel_rfl) y
theorem cover_A_9 (y : S64x128.Idx) :
    ∃ pc ∈ (kernelRun_A c i arg1 harg1 arg2 harg2 arg3 harg3 arg4 harg4 arg5 harg5 arg6 harg6 arg7 harg7 arg8 harg8 arg9 harg9 arg10 harg10 hc0 x0 x1 x2 x3 x4 x5 x6 x7).2.1, y ∈ pc.1.set :=
  View.cover_of_tiledL (kernelRun_A c i arg1 harg1 arg2 harg2 arg3 harg3 arg4 harg4 arg5 harg5 arg6 harg6 arg7 harg7 arg8 harg8 arg9 harg9 arg10 harg10 hc0 x0 x1 x2 x3 x4 x5 x6 x7).2.1 S64x128.size (by sl_kernel_rfl) y

def out_A_8 : Vec F S5000x128 .bf16 :=
  VO8.read (Elt F) (VO8.writes (Elt F) VO8.junk (kernelRun_A c i arg1 harg1 arg2 harg2 arg3 harg3 arg4 harg4 arg5 harg5 arg6 harg6 arg7 harg7 arg8 harg8 arg9 harg9 arg10 harg10 hc0 x0 x1 x2 x3 x4 x5 x6 x7).1)
def out_A_9 : Vec F S64x128 .f32 :=
  VO9.read (Elt F) (VO9.writes (Elt F) VO9.junk (kernelRun_A c i arg1 harg1 arg2 harg2 arg3 harg3 arg4 harg4 arg5 harg5 arg6 harg6 arg7 harg7 arg8 harg8 arg9 harg9 arg10 harg10 hc0 x0 x1 x2 x3 x4 x5 x6 x7).2.1)
end A

section B
variable (hc0 : ¬cond i) (x0 : Vec F S5000x128 .bf16) (x1 : Vec F S5000x128 .f32) (x2 : Vec F S5000x1 .i32) (x3 : Vec F S1x1 .f32) (x4 : Vec F S128x128 .f32) (x5 : Vec F S1x128 .f32) (x6 : Vec F S128x128 .f32) (x7 : Vec F S1x128 .f32) (xo9 : Vec F S64x128 .f32)

set_option maxHeartbeats 2000000 in
noncomputable def kernelRun_B :
    Σ' (L8 : List (View.Piece (Elt F) S5000x128 .bf16)), { L9 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc1__mlp_pool_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__mlp_pool_kernel_eq_skeleton]; unfold cc1__mlp_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

theorem cover_B_8 (y : S5000x128.Idx) :
    ∃ pc ∈ (kernelRun_B c i arg1 harg1 arg2 harg2 arg3 harg3 arg4 harg4 arg5 harg5 arg6 harg6 arg7 harg7 arg8 harg8 arg9 harg9 arg10 harg10 hc0 x0 x1 x2 x3 x4 x5 x6 x7 xo9).1, y ∈ pc.1.set :=
  View.cover_of_tiledL (kernelRun_B c i arg1 harg1 arg2 harg2 arg3 harg3 arg4 harg4 arg5 harg5 arg6 harg6 arg7 harg7 arg8 harg8 arg9 harg9 arg10 harg10 hc0 x0 x1 x2 x3 x4 x5 x6 x7 xo9).1 S5000x128.size (by sl_kernel_rfl) y
theorem cover_B_9 (y : S64x128.Idx) :
    ∃ pc ∈ (kernelRun_B c i arg1 harg1 arg2 harg2 arg3 harg3 arg4 harg4 arg5 harg5 arg6 harg6 arg7 harg7 arg8 harg8 arg9 harg9 arg10 harg10 hc0 x0 x1 x2 x3 x4 x5 x6 x7 xo9).2.1, y ∈ pc.1.set :=
  View.cover_of_tiledL (kernelRun_B c i arg1 harg1 arg2 harg2 arg3 harg3 arg4 harg4 arg5 harg5 arg6 harg6 arg7 harg7 arg8 harg8 arg9 harg9 arg10 harg10 hc0 x0 x1 x2 x3 x4 x5 x6 x7 xo9).2.1 S64x128.size (by sl_kernel_rfl) y

def out_B_8 : Vec F S5000x128 .bf16 :=
  VO8.read (Elt F) (VO8.writes (Elt F) VO8.junk (kernelRun_B c i arg1 harg1 arg2 harg2 arg3 harg3 arg4 harg4 arg5 harg5 arg6 harg6 arg7 harg7 arg8 harg8 arg9 harg9 arg10 harg10 hc0 x0 x1 x2 x3 x4 x5 x6 x7 xo9).1)
def out_B_9 : Vec F S64x128 .f32 :=
  VO9.read (Elt F) (VO9.writes (Elt F) VO9.junk (kernelRun_B c i arg1 harg1 arg2 harg2 arg3 harg3 arg4 harg4 arg5 harg5 arg6 harg6 arg7 harg7 arg8 harg8 arg9 harg9 arg10 harg10 hc0 x0 x1 x2 x3 x4 x5 x6 x7 xo9).2.1)
end B
end Body

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def stepA (c : Dev nD) (t : Fin cfg1.N) (h0 : t.val % 20 = 0) : Vec F S5000x128 .bf16 × Vec F S64x128 .f32 :=
  (out_A_8 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t),
   out_A_9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t))

def stepB (c : Dev nD) (t : Fin cfg1.N) (h0 : ¬t.val % 20 = 0) (p : Vec F S64x128 .f32) : Vec F S5000x128 .bf16 × Vec F S64x128 .f32 :=
  (out_B_8 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) p,
   out_B_9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) p)

/- The two outputs' buffers after the body at position n; the sums' buffer is read at what position n - 1 left. -/
def outsAt (c : Dev nD) : (n : ℕ) → n < cfg1.N → Vec F S5000x128 .bf16 × Vec F S64x128 .f32
  | 0, hn => stepA V c ⟨0, hn⟩ (Nat.zero_mod _)
  | n + 1, hn =>
    if h0 : (n + 1) % 20 = 0 then stepA V c ⟨n + 1, hn⟩ h0
    else stepB V c ⟨n + 1, hn⟩ h0 (outsAt c n (Nat.lt_of_succ_lt hn)).2

theorem outsAt_A (c : Dev nD) (t : Fin cfg1.N) (h0 : t.val % 20 = 0) : outsAt V c t.val t.isLt = stepA V c t h0 := by
  obtain ⟨n, hn⟩ := t
  cases n with
  | zero => exact rfl
  | succ n => exact (dif_pos h0).trans rfl

theorem outsAt_B (c : Dev nD) (t : Fin cfg1.N) (h0 : ¬t.val % 20 = 0) :
    outsAt V c t.val t.isLt = stepB V c t h0 (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt V c t.val t.isLt).1
    | ⟨9, _⟩ => (outsAt V c t.val t.isLt).2
  Φ _ := Pipeline.ΦA spec1 c
  q _ := fullShare
  owed _ := 0

theorem A_eq (c : Dev nD) (w : Fin cfg1.W) : (dat V c).A w = V c (Pipeline.arrRef spec1 w) := rfl

theorem after_0 (c : Dev nD) (t : Fin cfg1.N) : (dat V c).after 0 t = iblk V c 0 t := rfl
theorem after_1 (c : Dev nD) (t : Fin cfg1.N) : (dat V c).after 1 t = iblk V c 1 t := rfl
theorem after_2 (c : Dev nD) (t : Fin cfg1.N) : (dat V c).after 2 t = iblk V c 2 t := rfl
theorem after_3 (c : Dev nD) (t : Fin cfg1.N) : (dat V c).after 3 t = iblk V c 3 t := rfl
theorem after_4 (c : Dev nD) (t : Fin cfg1.N) : (dat V c).after 4 t = iblk V c 4 t := rfl
theorem after_5 (c : Dev nD) (t : Fin cfg1.N) : (dat V c).after 5 t = iblk V c 5 t := rfl
theorem after_6 (c : Dev nD) (t : Fin cfg1.N) : (dat V c).after 6 t = iblk V c 6 t := rfl
theorem after_7 (c : Dev nD) (t : Fin cfg1.N) : (dat V c).after 7 t = iblk V c 7 t := rfl
theorem after_8 (c : Dev nD) (t : Fin cfg1.N) : (dat V c).after 8 t = (outsAt V c t.val t.isLt).1 := rfl
theorem after_9 (c : Dev nD) (t : Fin cfg1.N) : (dat V c).after 9 t = (outsAt V c t.val t.isLt).2 := rfl

/- An input window holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before_1 (c : Dev nD) (t : Fin cfg1.N) (d) : (dat V c).before 1 t d = iblk V c 1 t :=
  ((dat V c).before_in_eq_fetched 1 rfl (fun _ => rfl) (fun _ _ _ => rfl) (fun _ => rfl) t d).trans rfl
theorem before_2 (c : Dev nD) (t : Fin cfg1.N) (d) : (dat V c).before 2 t d = iblk V c 2 t :=
  ((dat V c).before_in_eq_fetched 2 rfl (fun _ => rfl) (fun _ _ _ => rfl) (fun _ => rfl) t d).trans rfl
theorem before_3 (c : Dev nD) (t : Fin cfg1.N) (d) : (dat V c).before 3 t d = iblk V c 3 t :=
  ((dat V c).before_in_eq_fetched 3 rfl (fun _ => rfl) (fun _ _ _ => rfl) (fun _ => rfl) t d).trans rfl
theorem before_4 (c : Dev nD) (t : Fin cfg1.N) (d) : (dat V c).before 4 t d = iblk V c 4 t :=
  ((dat V c).before_in_eq_fetched 4 rfl (fun _ => rfl) (fun _ _ _ => rfl) (fun _ => rfl) t d).trans rfl
theorem before_5 (c : Dev nD) (t : Fin cfg1.N) (d) : (dat V c).before 5 t d = iblk V c 5 t :=
  ((dat V c).before_in_eq_fetched 5 rfl (fun _ => rfl) (fun _ _ _ => rfl) (fun _ => rfl) t d).trans rfl
theorem before_6 (c : Dev nD) (t : Fin cfg1.N) (d) : (dat V c).before 6 t d = iblk V c 6 t :=
  ((dat V c).before_in_eq_fetched 6 rfl (fun _ => rfl) (fun _ _ _ => rfl) (fun _ => rfl) t d).trans rfl
theorem before_7 (c : Dev nD) (t : Fin cfg1.N) (d) : (dat V c).before 7 t d = iblk V c 7 t :=
  ((dat V c).before_in_eq_fetched 7 rfl (fun _ => rfl) (fun _ _ _ => rfl) (fun _ => rfl) t d).trans rfl

theorem before_9_B (c : Dev nD) (t : Fin cfg1.N) (h0 : ¬t.val % 20 = 0) (d) :
    (dat V c).before 9 t d = (outsAt V c (t.val - 1) (Nat.lt_of_le_of_lt (Nat.sub_le _ _) t.isLt)).2 := by
  have hN : t.val < 20 := lt_of_lt_of_eq t.isLt (show cfg1.N = 20 from N_1)
  rw [Dat.before_out_kept _ 9 rfl t (by omega) (Bool.eq_false_iff.mpr fun h => by have := (flush1_9 _).mp h; dsimp only at this; omega)
    (fun _ => rfl) (fun _ _ => rfl)]
  dsimp only [dat]

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t))

set_option maxHeartbeats 1600000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  have hN : t.val < 20 := lt_of_lt_of_eq t.isLt (show cfg1.N = 20 from N_1)
  by_cases h0 : t.val % 20 = 0
  · rw [outsAt_A V c t h0]
    dsimp only [stepA]
    unfold out_A_8 out_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_A c (grid1.coords t) _ _ _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t) (iblk V c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_A_8 c _ _ _ _ _ _ _ _ _ _ _ _ _ _ _ _ _ _ _ _ _ _ _ _ _ _ _ _ _ _)
    unfold owns; iexists _; isplitr
    swap; · iexact H9
    ipureintro; exact View.read_writes_of_cover _ _ _ _ _ (cover_A_9 c _ _ _ _ _ _ _ _ _ _ _ _ _ _ _ _ _ _ _ _ _ _ _ _ _ _ _ _ _ _)
  · rw [outsAt_B V c t h0]
    dsimp only [stepB]
    simp only [before_9_B V c t h0]
    unfold out_B_8 out_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_B c (grid1.coords t) _ _ _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) (iblk V c 7 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover_B_9 c _ _ _ _ _ _ _ _ _ _ _ _ _ _ _ _ _ _ _ _ _ _ _ _ _ _ _ _ _ _ _)

theorem body_obligation (c : Dev nD) : BodyObligation (dat (F := F) V c) (defs₀ (F := F)) Variants.none () Set.univ := fun t => by
  rw [bigSep_W1, bigSep_W1]
  exact sound_body V c t

end R1

end Cert.Kernel.Hand

end
-- ==== Proof.KReg2.lean ====
import proofs.«421016_j46033459478730_2_alg».proof.Proof.KReg1
import proofs.«421016_j46033459478730_2_alg».proof.Proof.Gen.Kernel.Launch
import proofs.«421016_j46033459478730_2_alg».proof.Proof.Gen.Kernel.Skeleton
import proofs.«421016_j46033459478730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R2

variable (V : (c : Dev nD) → (b : Ref sig .tc) → Buf (Elt F) ((c : Thread nD τ).loc b))

open R1 (cond kernelRun_A kernelRun_B cover_A_8 cover_A_9 cover_B_8 cover_B_9 out_A_8 out_A_9 out_B_8 out_B_9)

theorem hcond : ∀ t : Fin cfg2.N, cond (grid2.coords t) ↔ t.val % 20 = 0 :=
  (by decide +kernel : ∀ t : Fin grid2.N, cond (grid2.coords t) ↔ t.val % 20 = 0)

abbrev ms0 (t : Fin cfg2.N) : Memref sig .tc .vmem S5000x128 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S5000x128 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S5000x1 .i32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S128x128 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x128 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S128x128 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S1x128 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S5000x128 .bf16 := win2_8.stage (cfg2.slots t 8)
abbrev hs8 (t : Fin cfg2.N) : (ms8 t).IsWhole := hstage2_8 ((cfg2.slots t 8).cast nbuf2_8)
abbrev ms9 (t : Fin cfg2.N) : Memref sig .tc .vmem S64x128 .f32 := win2_9.stage (cfg2.slots t 9)
abbrev hs9 (t : Fin cfg2.N) : (ms9 t).IsWhole := hstage2_9 ((cfg2.slots t 9).cast nbuf2_9)

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def stepA (c : Dev nD) (t : Fin cfg2.N) (h0 : t.val % 20 = 0) : Vec F S5000x128 .bf16 × Vec F S64x128 .f32 :=
  (out_A_8 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t),
   out_A_9 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t))

def stepB (c : Dev nD) (t : Fin cfg2.N) (h0 : ¬t.val % 20 = 0) (p : Vec F S64x128 .f32) : Vec F S5000x128 .bf16 × Vec F S64x128 .f32 :=
  (out_B_8 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) p,
   out_B_9 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) p)

/- The two outputs' buffers after the body at position n; the sums' buffer is read at what position n - 1 left. -/
def outsAt (c : Dev nD) : (n : ℕ) → n < cfg2.N → Vec F S5000x128 .bf16 × Vec F S64x128 .f32
  | 0, hn => stepA V c ⟨0, hn⟩ (Nat.zero_mod _)
  | n + 1, hn =>
    if h0 : (n + 1) % 20 = 0 then stepA V c ⟨n + 1, hn⟩ h0
    else stepB V c ⟨n + 1, hn⟩ h0 (outsAt c n (Nat.lt_of_succ_lt hn)).2

theorem outsAt_A (c : Dev nD) (t : Fin cfg2.N) (h0 : t.val % 20 = 0) : outsAt V c t.val t.isLt = stepA V c t h0 := by
  obtain ⟨n, hn⟩ := t
  cases n with
  | zero => exact rfl
  | succ n => exact (dif_pos h0).trans rfl

theorem outsAt_B (c : Dev nD) (t : Fin cfg2.N) (h0 : ¬t.val % 20 = 0) :
    outsAt V c t.val t.isLt = stepB V c t h0 (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt V c t.val t.isLt).1
    | ⟨9, _⟩ => (outsAt V c t.val t.isLt).2
  Φ _ := Pipeline.ΦA spec2 c
  q _ := fullShare
  owed _ := 0

theorem A_eq (c : Dev nD) (w : Fin cfg2.W) : (dat V c).A w = V c (Pipeline.arrRef spec2 w) := rfl

theorem after_0 (c : Dev nD) (t : Fin cfg2.N) : (dat V c).after 0 t = iblk V c 0 t := rfl
theorem after_1 (c : Dev nD) (t : Fin cfg2.N) : (dat V c).after 1 t = iblk V c 1 t := rfl
theorem after_2 (c : Dev nD) (t : Fin cfg2.N) : (dat V c).after 2 t = iblk V c 2 t := rfl
theorem after_3 (c : Dev nD) (t : Fin cfg2.N) : (dat V c).after 3 t = iblk V c 3 t := rfl
theorem after_4 (c : Dev nD) (t : Fin cfg2.N) : (dat V c).after 4 t = iblk V c 4 t := rfl
theorem after_5 (c : Dev nD) (t : Fin cfg2.N) : (dat V c).after 5 t = iblk V c 5 t := rfl
theorem after_6 (c : Dev nD) (t : Fin cfg2.N) : (dat V c).after 6 t = iblk V c 6 t := rfl
theorem after_7 (c : Dev nD) (t : Fin cfg2.N) : (dat V c).after 7 t = iblk V c 7 t := rfl
theorem after_8 (c : Dev nD) (t : Fin cfg2.N) : (dat V c).after 8 t = (outsAt V c t.val t.isLt).1 := rfl
theorem after_9 (c : Dev nD) (t : Fin cfg2.N) : (dat V c).after 9 t = (outsAt V c t.val t.isLt).2 := rfl

/- An input window holds its block at every point, fetched there or not. -/
theorem before_0 (c : Dev nD) (t : Fin cfg2.N) (d) : (dat V c).before 0 t d = iblk V c 0 t :=
  ((dat V c).before_in_eq_fetched 0 rfl (fun _ => rfl) (fun _ _ _ => rfl) (fun _ => rfl) t d).trans rfl
theorem before_1 (c : Dev nD) (t : Fin cfg2.N) (d) : (dat V c).before 1 t d = iblk V c 1 t :=
  ((dat V c).before_in_eq_fetched 1 rfl (fun _ => rfl) (fun _ _ _ => rfl) (fun _ => rfl) t d).trans rfl
theorem before_2 (c : Dev nD) (t : Fin cfg2.N) (d) : (dat V c).before 2 t d = iblk V c 2 t :=
  ((dat V c).before_in_eq_fetched 2 rfl (fun _ => rfl) (fun _ _ _ => rfl) (fun _ => rfl) t d).trans rfl
theorem before_3 (c : Dev nD) (t : Fin cfg2.N) (d) : (dat V c).before 3 t d = iblk V c 3 t :=
  ((dat V c).before_in_eq_fetched 3 rfl (fun _ => rfl) (fun _ _ _ => rfl) (fun _ => rfl) t d).trans rfl
theorem before_4 (c : Dev nD) (t : Fin cfg2.N) (d) : (dat V c).before 4 t d = iblk V c 4 t :=
  ((dat V c).before_in_eq_fetched 4 rfl (fun _ => rfl) (fun _ _ _ => rfl) (fun _ => rfl) t d).trans rfl
theorem before_5 (c : Dev nD) (t : Fin cfg2.N) (d) : (dat V c).before 5 t d = iblk V c 5 t :=
  ((dat V c).before_in_eq_fetched 5 rfl (fun _ => rfl) (fun _ _ _ => rfl) (fun _ => rfl) t d).trans rfl
theorem before_6 (c : Dev nD) (t : Fin cfg2.N) (d) : (dat V c).before 6 t d = iblk V c 6 t :=
  ((dat V c).before_in_eq_fetched 6 rfl (fun _ => rfl) (fun _ _ _ => rfl) (fun _ => rfl) t d).trans rfl
theorem before_7 (c : Dev nD) (t : Fin cfg2.N) (d) : (dat V c).before 7 t d = iblk V c 7 t :=
  ((dat V c).before_in_eq_fetched 7 rfl (fun _ => rfl) (fun _ _ _ => rfl) (fun _ => rfl) t d).trans rfl

theorem before_9_B (c : Dev nD) (t : Fin cfg2.N) (h0 : ¬t.val % 20 = 0) (d) :
    (dat V c).before 9 t d = (outsAt V c (t.val - 1) (Nat.lt_of_le_of_lt (Nat.sub_le _ _) t.isLt)).2 := by
  have hN : t.val < 20 := lt_of_lt_of_eq t.isLt (show cfg2.N = 20 from N_2)
  rw [Dat.before_out_kept _ 9 rfl t (by omega) (Bool.eq_false_iff.mpr fun h => by have := (flush2_9 _).mp h; dsimp only at this; omega)
    (fun _ => rfl) (fun _ _ => rfl)]
  dsimp only [dat]

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t))

set_option maxHeartbeats 1600000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  rw [show @cc2__mlp_pool_kernel F _ = @cc1__mlp_pool_kernel F _ from rfl]
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  have hN : t.val < 20 := lt_of_lt_of_eq t.isLt (show cfg2.N = 20 from N_2)
  by_cases h0 : t.val % 20 = 0
  · rw [outsAt_A V c t h0]
    dsimp only [stepA]
    unfold out_A_8 out_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_A c (grid2.coords t) _ _ _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t) (iblk V c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_A_8 c _ _ _ _ _ _ _ _ _ _ _ _ _ _ _ _ _ _ _ _ _ _ _ _ _ _ _ _ _ _)
    unfold owns; iexists _; isplitr
    swap; · iexact H9
    ipureintro; exact View.read_writes_of_cover _ _ _ _ _ (cover_A_9 c _ _ _ _ _ _ _ _ _ _ _ _ _ _ _ _ _ _ _ _ _ _ _ _ _ _ _ _ _ _)
  · rw [outsAt_B V c t h0]
    dsimp only [stepB]
    simp only [before_9_B V c t h0]
    unfold out_B_8 out_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_B c (grid2.coords t) _ _ _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) (iblk V c 7 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover_B_9 c _ _ _ _ _ _ _ _ _ _ _ _ _ _ _ _ _ _ _ _ _ _ _ _ _ _ _ _ _ _ _)

theorem body_obligation (c : Dev nD) : BodyObligation (dat (F := F) V c) (defs₀ (F := F)) Variants.none () Set.univ := fun t => by
  rw [bigSep_W2, bigSep_W2]
  exact sound_body V c t

end R2

end Cert.Kernel.Hand

end
-- ==== Proof.KReg3.lean ====
import proofs.«421016_j46033459478730_2_alg».proof.Proof.KReg1
import proofs.«421016_j46033459478730_2_alg».proof.Proof.Gen.Kernel.Launch
import proofs.«421016_j46033459478730_2_alg».proof.Proof.Gen.Kernel.Skeleton
import proofs.«421016_j46033459478730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R3

variable (V : (c : Dev nD) → (b : Ref sig .tc) → Buf (Elt F) ((c : Thread nD τ).loc b))

open R1 (cond kernelRun_A kernelRun_B cover_A_8 cover_A_9 cover_B_8 cover_B_9 out_A_8 out_A_9 out_B_8 out_B_9)

theorem hcond : ∀ t : Fin cfg3.N, cond (grid3.coords t) ↔ t.val % 20 = 0 :=
  (by decide +kernel : ∀ t : Fin grid3.N, cond (grid3.coords t) ↔ t.val % 20 = 0)

abbrev ms0 (t : Fin cfg3.N) : Memref sig .tc .vmem S5000x128 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S5000x128 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S5000x1 .i32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1x1 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S128x128 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S1x128 .f32 := win3_5.stage (cfg3.slots t 5)
abbrev hs5 (t : Fin cfg3.N) : (ms5 t).IsWhole := hstage3_5 ((cfg3.slots t 5).cast nbuf3_5)
abbrev ms6 (t : Fin cfg3.N) : Memref sig .tc .vmem S128x128 .f32 := win3_6.stage (cfg3.slots t 6)
abbrev hs6 (t : Fin cfg3.N) : (ms6 t).IsWhole := hstage3_6 ((cfg3.slots t 6).cast nbuf3_6)
abbrev ms7 (t : Fin cfg3.N) : Memref sig .tc .vmem S1x128 .f32 := win3_7.stage (cfg3.slots t 7)
abbrev hs7 (t : Fin cfg3.N) : (ms7 t).IsWhole := hstage3_7 ((cfg3.slots t 7).cast nbuf3_7)
abbrev ms8 (t : Fin cfg3.N) : Memref sig .tc .vmem S5000x128 .bf16 := win3_8.stage (cfg3.slots t 8)
abbrev hs8 (t : Fin cfg3.N) : (ms8 t).IsWhole := hstage3_8 ((cfg3.slots t 8).cast nbuf3_8)
abbrev ms9 (t : Fin cfg3.N) : Memref sig .tc .vmem S64x128 .f32 := win3_9.stage (cfg3.slots t 9)
abbrev hs9 (t : Fin cfg3.N) : (ms9 t).IsWhole := hstage3_9 ((cfg3.slots t 9).cast nbuf3_9)

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def stepA (c : Dev nD) (t : Fin cfg3.N) (h0 : t.val % 20 = 0) : Vec F S5000x128 .bf16 × Vec F S64x128 .f32 :=
  (out_A_8 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t),
   out_A_9 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t))

def stepB (c : Dev nD) (t : Fin cfg3.N) (h0 : ¬t.val % 20 = 0) (p : Vec F S64x128 .f32) : Vec F S5000x128 .bf16 × Vec F S64x128 .f32 :=
  (out_B_8 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) p,
   out_B_9 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) p)

/- The two outputs' buffers after the body at position n; the sums' buffer is read at what position n - 1 left. -/
def outsAt (c : Dev nD) : (n : ℕ) → n < cfg3.N → Vec F S5000x128 .bf16 × Vec F S64x128 .f32
  | 0, hn => stepA V c ⟨0, hn⟩ (Nat.zero_mod _)
  | n + 1, hn =>
    if h0 : (n + 1) % 20 = 0 then stepA V c ⟨n + 1, hn⟩ h0
    else stepB V c ⟨n + 1, hn⟩ h0 (outsAt c n (Nat.lt_of_succ_lt hn)).2

theorem outsAt_A (c : Dev nD) (t : Fin cfg3.N) (h0 : t.val % 20 = 0) : outsAt V c t.val t.isLt = stepA V c t h0 := by
  obtain ⟨n, hn⟩ := t
  cases n with
  | zero => exact rfl
  | succ n => exact (dif_pos h0).trans rfl

theorem outsAt_B (c : Dev nD) (t : Fin cfg3.N) (h0 : ¬t.val % 20 = 0) :
    outsAt V c t.val t.isLt = stepB V c t h0 (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans rfl

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt V c t.val t.isLt).1
    | ⟨9, _⟩ => (outsAt V c t.val t.isLt).2
  Φ _ := Pipeline.ΦA spec3 c
  q _ := fullShare
  owed _ := 0

theorem A_eq (c : Dev nD) (w : Fin cfg3.W) : (dat V c).A w = V c (Pipeline.arrRef spec3 w) := rfl

theorem after_0 (c : Dev nD) (t : Fin cfg3.N) : (dat V c).after 0 t = iblk V c 0 t := rfl
theorem after_1 (c : Dev nD) (t : Fin cfg3.N) : (dat V c).after 1 t = iblk V c 1 t := rfl
theorem after_2 (c : Dev nD) (t : Fin cfg3.N) : (dat V c).after 2 t = iblk V c 2 t := rfl
theorem after_3 (c : Dev nD) (t : Fin cfg3.N) : (dat V c).after 3 t = iblk V c 3 t := rfl
theorem after_4 (c : Dev nD) (t : Fin cfg3.N) : (dat V c).after 4 t = iblk V c 4 t := rfl
theorem after_5 (c : Dev nD) (t : Fin cfg3.N) : (dat V c).after 5 t = iblk V c 5 t := rfl
theorem after_6 (c : Dev nD) (t : Fin cfg3.N) : (dat V c).after 6 t = iblk V c 6 t := rfl
theorem after_7 (c : Dev nD) (t : Fin cfg3.N) : (dat V c).after 7 t = iblk V c 7 t := rfl
theorem after_8 (c : Dev nD) (t : Fin cfg3.N) : (dat V c).after 8 t = (outsAt V c t.val t.isLt).1 := rfl
theorem after_9 (c : Dev nD) (t : Fin cfg3.N) : (dat V c).after 9 t = (outsAt V c t.val t.isLt).2 := rfl

/- An input window holds its block at every point, fetched there or not. -/
theorem before_0 (c : Dev nD) (t : Fin cfg3.N) (d) : (dat V c).before 0 t d = iblk V c 0 t :=
  ((dat V c).before_in_eq_fetched 0 rfl (fun _ => rfl) (fun _ _ _ => rfl) (fun _ => rfl) t d).trans rfl
theorem before_1 (c : Dev nD) (t : Fin cfg3.N) (d) : (dat V c).before 1 t d = iblk V c 1 t :=
  ((dat V c).before_in_eq_fetched 1 rfl (fun _ => rfl) (fun _ _ _ => rfl) (fun _ => rfl) t d).trans rfl
theorem before_2 (c : Dev nD) (t : Fin cfg3.N) (d) : (dat V c).before 2 t d = iblk V c 2 t :=
  ((dat V c).before_in_eq_fetched 2 rfl (fun _ => rfl) (fun _ _ _ => rfl) (fun _ => rfl) t d).trans rfl
theorem before_3 (c : Dev nD) (t : Fin cfg3.N) (d) : (dat V c).before 3 t d = iblk V c 3 t :=
  ((dat V c).before_in_eq_fetched 3 rfl (fun _ => rfl) (fun _ _ _ => rfl) (fun _ => rfl) t d).trans rfl
theorem before_4 (c : Dev nD) (t : Fin cfg3.N) (d) : (dat V c).before 4 t d = iblk V c 4 t :=
  ((dat V c).before_in_eq_fetched 4 rfl (fun _ => rfl) (fun _ _ _ => rfl) (fun _ => rfl) t d).trans rfl
theorem before_5 (c : Dev nD) (t : Fin cfg3.N) (d) : (dat V c).before 5 t d = iblk V c 5 t :=
  ((dat V c).before_in_eq_fetched 5 rfl (fun _ => rfl) (fun _ _ _ => rfl) (fun _ => rfl) t d).trans rfl
theorem before_6 (c : Dev nD) (t : Fin cfg3.N) (d) : (dat V c).before 6 t d = iblk V c 6 t :=
  ((dat V c).before_in_eq_fetched 6 rfl (fun _ => rfl) (fun _ _ _ => rfl) (fun _ => rfl) t d).trans rfl
theorem before_7 (c : Dev nD) (t : Fin cfg3.N) (d) : (dat V c).before 7 t d = iblk V c 7 t :=
  ((dat V c).before_in_eq_fetched 7 rfl (fun _ => rfl) (fun _ _ _ => rfl) (fun _ => rfl) t d).trans rfl

theorem before_9_B (c : Dev nD) (t : Fin cfg3.N) (h0 : ¬t.val % 20 = 0) (d) :
    (dat V c).before 9 t d = (outsAt V c (t.val - 1) (Nat.lt_of_le_of_lt (Nat.sub_le _ _) t.isLt)).2 := by
  have hN : t.val < 20 := lt_of_lt_of_eq t.isLt (show cfg3.N = 20 from N_3)
  rw [Dat.before_out_kept _ 9 rfl t (by omega) (Bool.eq_false_iff.mpr fun h => by have := (flush3_9 _).mp h; dsimp only at this; omega)
    (fun _ => rfl) (fun _ _ => rfl)]
  dsimp only [dat]

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg3.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t))

set_option maxHeartbeats 1600000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  rw [show @cc3__mlp_pool_kernel F _ = @cc1__mlp_pool_kernel F _ from rfl]
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  have hN : t.val < 20 := lt_of_lt_of_eq t.isLt (show cfg3.N = 20 from N_3)
  by_cases h0 : t.val % 20 = 0
  · rw [outsAt_A V c t h0]
    dsimp only [stepA]
    unfold out_A_8 out_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_A c (grid3.coords t) _ _ _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t) (iblk V c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_A_8 c _ _ _ _ _ _ _ _ _ _ _ _ _ _ _ _ _ _ _ _ _ _ _ _ _ _ _ _ _ _)
    unfold owns; iexists _; isplitr
    swap; · iexact H9
    ipureintro; exact View.read_writes_of_cover _ _ _ _ _ (cover_A_9 c _ _ _ _ _ _ _ _ _ _ _ _ _ _ _ _ _ _ _ _ _ _ _ _ _ _ _ _ _ _)
  · rw [outsAt_B V c t h0]
    dsimp only [stepB]
    simp only [before_9_B V c t h0]
    unfold out_B_8 out_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_B c (grid3.coords t) _ _ _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) (iblk V c 7 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover_B_9 c _ _ _ _ _ _ _ _ _ _ _ _ _ _ _ _ _ _ _ _ _ _ _ _ _ _ _ _ _ _ _)

theorem body_obligation (c : Dev nD) : BodyObligation (dat (F := F) V c) (defs₀ (F := F)) Variants.none () Set.univ := fun t => by
  rw [bigSep_W3, bigSep_W3]
  exact sound_body V c t

end R3

end Cert.Kernel.Hand

end
-- ==== Proof.KRun.lean ====
import proofs.«421016_j46033459478730_2_alg».proof.Proof.Gen.Kernel.Regions
import proofs.«421016_j46033459478730_2_alg».proof.Proof.KReg0
import proofs.«421016_j46033459478730_2_alg».proof.Proof.KReg1
import proofs.«421016_j46033459478730_2_alg».proof.Proof.KReg2
import proofs.«421016_j46033459478730_2_alg».proof.Proof.KReg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev VV1 : (c : Dev nD) → (b : Ref sig .tc) → Buf (Elt F) ((c : Thread nD τ).loc b) := fun c b => Gen.V1 m c b
def X2 (c : Dev nD) : Valuation τ sig (Elt F) :=
  Pipeline.withArrays spec0 c (Gen.V1 m c) fun w => (dat0 (VV1 m) c).arrAt w cfg0.N
abbrev U2 (c : Dev nD) : Valuation τ sig (Elt F) := Function.update (Gen.V1 m c) main_v7 (X2 m c main_v7)
abbrev U3 (c : Dev nD) : Valuation τ sig (Elt F) := StableHlo.after hostOps1 (U2 m c)
abbrev VV3 : (c : Dev nD) → (b : Ref sig .tc) → Buf (Elt F) ((c : Thread nD τ).loc b) := fun c b => U3 m c b
def X4 (c : Dev nD) : Valuation τ sig (Elt F) :=
  Pipeline.withArrays spec1 c (U3 m c) fun w => (R1.dat (VV3 m) c).arrAt w cfg1.N
abbrev U4 (c : Dev nD) : Valuation τ sig (Elt F) := Function.update (Function.update (U3 m c) main_v32_0 (X4 m c main_v32_0)) main_v32_1 (X4 m c main_v32_1)
abbrev U5 (c : Dev nD) : Valuation τ sig (Elt F) := StableHlo.after hostOps2 (U4 m c)
abbrev VV5 : (c : Dev nD) → (b : Ref sig .tc) → Buf (Elt F) ((c : Thread nD τ).loc b) := fun c b => U5 m c b
def X6 (c : Dev nD) : Valuation τ sig (Elt F) :=
  Pipeline.withArrays spec2 c (U5 m c) fun w => (R2.dat (VV5 m) c).arrAt w cfg2.N
abbrev U6 (c : Dev nD) : Valuation τ sig (Elt F) := Function.update (Function.update (U5 m c) main_v57_0 (X6 m c main_v57_0)) main_v57_1 (X6 m c main_v57_1)
abbrev U7 (c : Dev nD) : Valuation τ sig (Elt F) := StableHlo.after hostOps3 (U6 m c)
abbrev VV7 : (c : Dev nD) → (b : Ref sig .tc) → Buf (Elt F) ((c : Thread nD τ).loc b) := fun c b => U7 m c b
def X8 (c : Dev nD) : Valuation τ sig (Elt F) :=
  Pipeline.withArrays spec3 c (U7 m c) fun w => (R3.dat (VV7 m) c).arrAt w cfg3.N

def outs : Gen.Outs (F := F) := fun J r c =>
  match J with
  | 2 => X2 m c r
  | 4 => X4 m c r
  | 6 => X6 m c r
  | _ => X8 m c r

theorem V2_eq (c : Dev nD) : Gen.V2 m (outs m) c = U2 m c := rfl
theorem V3_eq (c : Dev nD) : Gen.V3 m (outs m) c = U3 m c := rfl
theorem V4_eq (c : Dev nD) : Gen.V4 m (outs m) c = U4 m c := rfl
theorem V5_eq (c : Dev nD) : Gen.V5 m (outs m) c = U5 m c := rfl
theorem V6_eq (c : Dev nD) : Gen.V6 m (outs m) c = U6 m c := rfl
theorem V7_eq (c : Dev nD) : Gen.V7 m (outs m) c = U7 m c := rfl

def pdats : (p : Fin 4) → (c : Dev nD) → Dat τ (Elt F) Unit ℕ (UR sig nD τ) ℕ (Pipeline.pin (pcfgs (F := F)) Gen.adm p) c
  | ⟨0, _⟩ => fun c => dat0 (VV1 m) c
  | ⟨1, _⟩ => fun c => R1.dat (VV3 m) c
  | ⟨2, _⟩ => fun c => R2.dat (VV5 m) c
  | ⟨3, _⟩ => fun c => R3.dat (VV7 m) c

set_option maxHeartbeats 800000 in
theorem in0 (c : Dev nD) (w : Fin cfg0.W) (hw : (cfg0.win w).isOut = false) (h : Pipeline.arrRef spec0 w ∉ ([main_v7] : List (Ref sig .tc))) :
    (dat0 (fun c b => Gen.V1 m c b) c).arrAt w cfg0.N = Gen.V2 m (outs m) c (Proc.devRef .tc (Pipeline.arrRef spec0 w)) := by
  rw [Gen.V2_of m (outs m) c _ h]
  generalize Gen.V1 m = W
  exact ((dat0 (fun c b => W c b) c).arrAt_in w hw _).trans (A_eq0 (fun c b => W c b) c w)
set_option maxHeartbeats 800000 in
theorem hF0_5 (c : Dev nD) : (dat0 (VV1 m) c).arrAt 5 cfg0.N = Gen.V2 m (outs m) c (Proc.devRef .tc main_v7) := by
  rw [show Gen.V2 m (outs m) c (Proc.devRef .tc main_v7) = X2 m c (Proc.devRef .tc main_v7) from Function.update_self _ _ _]
  exact (Pipeline.withArrays_arr spec0 launch0.win.arr_inj c (Gen.V1 m c) (fun w => (dat0 (VV1 m) c).arrAt w cfg0.N) 5).symm
set_option maxHeartbeats 3200000 in
theorem hF0 (c : Dev nD) : ∀ w : Fin cfg0.W, (pdats m 0 c).arrAt w cfg0.N = (fun b : Ref sig .tc => Gen.V2 m (outs m) c b) (Pipeline.arrRef spec0 w)
  | ⟨0, _⟩ => in0 m c 0 rfl (by decide)
  | ⟨1, _⟩ => in0 m c 1 rfl (by decide)
  | ⟨2, _⟩ => in0 m c 2 rfl (by decide)
  | ⟨3, _⟩ => in0 m c 3 rfl (by decide)
  | ⟨4, _⟩ => in0 m c 4 rfl (by decide)
  | ⟨5, _⟩ => hF0_5 m c
theorem hrest0 (c : Dev nD) : ∀ b : Ref sig .tc, b ∉ Finset.univ.image (Pipeline.arrRef spec0) → (fun b : Ref sig .tc => Gen.V2 m (outs m) c b) b = VV1 m c b :=
  fun b hb => Gen.V2_of m (outs m) c b fun h => hb (by
    rw [List.mem_singleton] at h; subst h; exact Finset.mem_image.mpr ⟨5, Finset.mem_univ _, rfl⟩)

set_option maxHeartbeats 800000 in
theorem in1 (c : Dev nD) (w : Fin cfg1.W) (hw : (cfg1.win w).isOut = false) (h : Pipeline.arrRef spec1 w ∉ ([main_v32_0, main_v32_1] : List (Ref sig .tc))) :
    (R1.dat (fun c b => U3 m c b) c).arrAt w cfg1.N = Gen.V4 m (outs m) c (Proc.devRef .tc (Pipeline.arrRef spec1 w)) := by
  rw [Gen.V4_of m (outs m) c _ h, V3_eq m c]
  generalize U3 m = W
  exact ((R1.dat (fun c b => W c b) c).arrAt_in w hw _).trans (R1.A_eq (fun c b => W c b) c w)
set_option maxHeartbeats 800000 in
theorem hF1_8 (c : Dev nD) : (R1.dat (VV3 m) c).arrAt 8 cfg1.N = Gen.V4 m (outs m) c (Proc.devRef .tc main_v32_0) := by
  rw [show Gen.V4 m (outs m) c (Proc.devRef .tc main_v32_0) = X4 m c (Proc.devRef .tc main_v32_0) from (Function.update_of_ne (StableHlo.devRef_ne_of_ne (by decide) : (Proc.devRef .tc main_v32_0 : DevRef τ sig) ≠ Proc.devRef .tc main_v32_1) _ _).trans (Function.update_self _ _ _)]
  exact (Pipeline.withArrays_arr spec1 launch1.win.arr_inj c (U3 m c) (fun w => (R1.dat (VV3 m) c).arrAt w cfg1.N) 8).symm
set_option maxHeartbeats 800000 in
theorem hF1_9 (c : Dev nD) : (R1.dat (VV3 m) c).arrAt 9 cfg1.N = Gen.V4 m (outs m) c (Proc.devRef .tc main_v32_1) := by
  rw [show Gen.V4 m (outs m) c (Proc.devRef .tc main_v32_1) = X4 m c (Proc.devRef .tc main_v32_1) from Function.update_self _ _ _]
  exact (Pipeline.withArrays_arr spec1 launch1.win.arr_inj c (U3 m c) (fun w => (R1.dat (VV3 m) c).arrAt w cfg1.N) 9).symm
set_option maxHeartbeats 3200000 in
theorem hF1 (c : Dev nD) : ∀ w : Fin cfg1.W, (pdats m 1 c).arrAt w cfg1.N = (fun b : Ref sig .tc => Gen.V4 m (outs m) c b) (Pipeline.arrRef spec1 w)
  | ⟨0, _⟩ => in1 m c 0 rfl (by decide)
  | ⟨1, _⟩ => in1 m c 1 rfl (by decide)
  | ⟨2, _⟩ => in1 m c 2 rfl (by decide)
  | ⟨3, _⟩ => in1 m c 3 rfl (by decide)
  | ⟨4, _⟩ => in1 m c 4 rfl (by decide)
  | ⟨5, _⟩ => in1 m c 5 rfl (by decide)
  | ⟨6, _⟩ => in1 m c 6 rfl (by decide)
  | ⟨7, _⟩ => in1 m c 7 rfl (by decide)
  | ⟨8, _⟩ => hF1_8 m c
  | ⟨9, _⟩ => hF1_9 m c
theorem hrest1 (c : Dev nD) : ∀ b : Ref sig .tc, b ∉ Finset.univ.image (Pipeline.arrRef spec1) → (fun b : Ref sig .tc => Gen.V4 m (outs m) c b) b = VV3 m c b :=
  fun b hb => Gen.V4_of m (outs m) c b fun h => hb (by
    rcases List.mem_cons.mp h with h | h
    · subst h; exact Finset.mem_image.mpr ⟨8, Finset.mem_univ _, rfl⟩
    · rw [List.mem_singleton] at h; subst h; exact Finset.mem_image.mpr ⟨9, Finset.mem_univ _, rfl⟩)

set_option maxHeartbeats 800000 in
theorem in2 (c : Dev nD) (w : Fin cfg2.W) (hw : (cfg2.win w).isOut = false) (h : Pipeline.arrRef spec2 w ∉ ([main_v57_0, main_v57_1] : List (Ref sig .tc))) :
    (R2.dat (fun c b => U5 m c b) c).arrAt w cfg2.N = Gen.V6 m (outs m) c (Proc.devRef .tc (Pipeline.arrRef spec2 w)) := by
  rw [Gen.V6_of m (outs m) c _ h, V5_eq m c]
  generalize U5 m = W
  exact ((R2.dat (fun c b => W c b) c).arrAt_in w hw _).trans (R2.A_eq (fun c b => W c b) c w)
set_option maxHeartbeats 800000 in
theorem hF2_8 (c : Dev nD) : (R2.dat (VV5 m) c).arrAt 8 cfg2.N = Gen.V6 m (outs m) c (Proc.devRef .tc main_v57_0) := by
  rw [show Gen.V6 m (outs m) c (Proc.devRef .tc main_v57_0) = X6 m c (Proc.devRef .tc main_v57_0) from (Function.update_of_ne (StableHlo.devRef_ne_of_ne (by decide) : (Proc.devRef .tc main_v57_0 : DevRef τ sig) ≠ Proc.devRef .tc main_v57_1) _ _).trans (Function.update_self _ _ _)]
  exact (Pipeline.withArrays_arr spec2 launch2.win.arr_inj c (U5 m c) (fun w => (R2.dat (VV5 m) c).arrAt w cfg2.N) 8).symm
set_option maxHeartbeats 800000 in
theorem hF2_9 (c : Dev nD) : (R2.dat (VV5 m) c).arrAt 9 cfg2.N = Gen.V6 m (outs m) c (Proc.devRef .tc main_v57_1) := by
  rw [show Gen.V6 m (outs m) c (Proc.devRef .tc main_v57_1) = X6 m c (Proc.devRef .tc main_v57_1) from Function.update_self _ _ _]
  exact (Pipeline.withArrays_arr spec2 launch2.win.arr_inj c (U5 m c) (fun w => (R2.dat (VV5 m) c).arrAt w cfg2.N) 9).symm
set_option maxHeartbeats 3200000 in
theorem hF2 (c : Dev nD) : ∀ w : Fin cfg2.W, (pdats m 2 c).arrAt w cfg2.N = (fun b : Ref sig .tc => Gen.V6 m (outs m) c b) (Pipeline.arrRef spec2 w)
  | ⟨0, _⟩ => in2 m c 0 rfl (by decide)
  | ⟨1, _⟩ => in2 m c 1 rfl (by decide)
  | ⟨2, _⟩ => in2 m c 2 rfl (by decide)
  | ⟨3, _⟩ => in2 m c 3 rfl (by decide)
  | ⟨4, _⟩ => in2 m c 4 rfl (by decide)
  | ⟨5, _⟩ => in2 m c 5 rfl (by decide)
  | ⟨6, _⟩ => in2 m c 6 rfl (by decide)
  | ⟨7, _⟩ => in2 m c 7 rfl (by decide)
  | ⟨8, _⟩ => hF2_8 m c
  | ⟨9, _⟩ => hF2_9 m c
theorem hrest2 (c : Dev nD) : ∀ b : Ref sig .tc, b ∉ Finset.univ.image (Pipeline.arrRef spec2) → (fun b : Ref sig .tc => Gen.V6 m (outs m) c b) b = VV5 m c b :=
  fun b hb => Gen.V6_of m (outs m) c b fun h => hb (by
    rcases List.mem_cons.mp h with h | h
    · subst h; exact Finset.mem_image.mpr ⟨8, Finset.mem_univ _, rfl⟩
    · rw [List.mem_singleton] at h; subst h; exact Finset.mem_image.mpr ⟨9, Finset.mem_univ _, rfl⟩)

set_option maxHeartbeats 800000 in
theorem in3 (c : Dev nD) (w : Fin cfg3.W) (hw : (cfg3.win w).isOut = false) (h : Pipeline.arrRef spec3 w ∉ ([main_v82_0, main_v82_1] : List (Ref sig .tc))) :
    (R3.dat (fun c b => U7 m c b) c).arrAt w cfg3.N = Gen.V8 m (outs m) c (Proc.devRef .tc (Pipeline.arrRef spec3 w)) := by
  rw [Gen.V8_of m (outs m) c _ h, V7_eq m c]
  generalize U7 m = W
  exact ((R3.dat (fun c b => W c b) c).arrAt_in w hw _).trans (R3.A_eq (fun c b => W c b) c w)
set_option maxHeartbeats 800000 in
theorem hF3_8 (c : Dev nD) : (R3.dat (VV7 m) c).arrAt 8 cfg3.N = Gen.V8 m (outs m) c (Proc.devRef .tc main_v82_0) := by
  rw [show Gen.V8 m (outs m) c (Proc.devRef .tc main_v82_0) = X8 m c (Proc.devRef .tc main_v82_0) from (Function.update_of_ne (StableHlo.devRef_ne_of_ne (by decide) : (Proc.devRef .tc main_v82_0 : DevRef τ sig) ≠ Proc.devRef .tc main_v82_1) _ _).trans (Function.update_self _ _ _)]
  exact (Pipeline.withArrays_arr spec3 launch3.win.arr_inj c (U7 m c) (fun w => (R3.dat (VV7 m) c).arrAt w cfg3.N) 8).symm
set_option maxHeartbeats 800000 in
theorem hF3_9 (c : Dev nD) : (R3.dat (VV7 m) c).arrAt 9 cfg3.N = Gen.V8 m (outs m) c (Proc.devRef .tc main_v82_1) := by
  rw [show Gen.V8 m (outs m) c (Proc.devRef .tc main_v82_1) = X8 m c (Proc.devRef .tc main_v82_1) from Function.update_self _ _ _]
  exact (Pipeline.withArrays_arr spec3 launch3.win.arr_inj c (U7 m c) (fun w => (R3.dat (VV7 m) c).arrAt w cfg3.N) 9).symm
set_option maxHeartbeats 3200000 in
theorem hF3 (c : Dev nD) : ∀ w : Fin cfg3.W, (pdats m 3 c).arrAt w cfg3.N = (fun b : Ref sig .tc => Gen.V8 m (outs m) c b) (Pipeline.arrRef spec3 w)
  | ⟨0, _⟩ => in3 m c 0 rfl (by decide)
  | ⟨1, _⟩ => in3 m c 1 rfl (by decide)
  | ⟨2, _⟩ => in3 m c 2 rfl (by decide)
  | ⟨3, _⟩ => in3 m c 3 rfl (by decide)
  | ⟨4, _⟩ => in3 m c 4 rfl (by decide)
  | ⟨5, _⟩ => in3 m c 5 rfl (by decide)
  | ⟨6, _⟩ => in3 m c 6 rfl (by decide)
  | ⟨7, _⟩ => in3 m c 7 rfl (by decide)
  | ⟨8, _⟩ => hF3_8 m c
  | ⟨9, _⟩ => hF3_9 m c
theorem hrest3 (c : Dev nD) : ∀ b : Ref sig .tc, b ∉ Finset.univ.image (Pipeline.arrRef spec3) → (fun b : Ref sig .tc => Gen.V8 m (outs m) c b) b = VV7 m c b :=
  fun b hb => Gen.V8_of m (outs m) c b fun h => hb (by
    rcases List.mem_cons.mp h with h | h
    · subst h; exact Finset.mem_image.mpr ⟨8, Finset.mem_univ _, rfl⟩
    · rw [List.mem_singleton] at h; subst h; exact Finset.mem_image.mpr ⟨9, Finset.mem_univ _, rfl⟩)

set_option backward.isDefEq.respectTransparency.types false in
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VV1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (VV3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VV3 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (VV5 m) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (VV5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (VV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (VV5 m c) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (R3.body_obligation (VV7 m) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (VV7 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (VV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (VV7 m c) (fun b => Gen.V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, H⟩; iexact H)
    (reg0 m) (fun c => .rfl) (fun c => .rfl)
    (reg1 m) (fun c => by rw [V3_eq]; exact .rfl) (fun c => .rfl)
    (reg2 m) (fun c => by rw [V5_eq]; exact .rfl) (fun c => .rfl)
    (reg3 m) (fun c => by rw [V7_eq]; exact .rfl) (fun c => .rfl)

end Cert.Kernel.Hand

end
-- ==== Proof.KIReg0.lean ====
import proofs.«421016_j46033459478730_2_alg».proof.Proof.Gen.KernelIdeal.Launch
import proofs.«421016_j46033459478730_2_alg».proof.Proof.Gen.KernelIdeal.Skeleton
import proofs.«421016_j46033459478730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rTile0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

def out0_5 (x0 : Vec F S5000x128 .f32) (x1 : Vec F S128x128 .f32) (x2 : Vec F S1x128 .f32) (x3 : Vec F S128x128 .f32) (x4 : Vec F S1x128 .f32) :
    Vec F S5000x128 .bf16 :=
  View.canon [⟨rTile0, k0_pay1 (View.ld x0 rTile0) (View.ld x1 rW0) (View.ld x2 rB0) (View.ld x3 rW0) (View.ld x4 rB0)⟩]

theorem cover0_5 (p0 : Vec F S5000x128 .bf16) (y : S5000x128.Idx) :
    ∃ pc ∈ ([⟨rTile0, p0⟩] : List (View.Piece (Elt F) S5000x128 .bf16)), y ∈ pc.1.set :=
  View.cover_of_tiled [⟨rTile0, p0⟩] S5000x128.size (by rfl) y

set_option maxHeartbeats 1000000 in
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .bf16) (harg6 : arg6.IsWhole)
    (x0 : Vec F S5000x128 .f32) (x1 : Vec F S128x128 .f32) (x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__pre_linear_kernel i arg1 harg1 arg2 harg2 arg3 harg3 arg4 harg4 arg5 harg5 arg6 harg6) K := by
  simp only [cc0__pre_linear_kernel_eq_skeleton]; unfold cc0__pre_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = iblk0 V c 3 t := rfl
theorem after0_4 (c : Dev nD) (t : Fin cfg0.N) : (dat0 V c).after 4 t = iblk0 V c 4 t := rfl
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
import proofs.«421016_j46033459478730_2_alg».proof.Proof.Gen.KernelIdeal.Launch
import proofs.«421016_j46033459478730_2_alg».proof.Proof.Gen.KernelIdeal.Skeleton
import proofs.«421016_j46033459478730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R1

variable (V : (c : Dev nD) → (b : Ref sig .tc) → Buf (Elt F) ((c : Thread nD τ).loc b))

abbrev cond (i : grid1.Coords) : Prop := (Scalar.cmpi .ne (Scalar.extui (Scalar.cmpi .eq (BitVec.ofNat 32 (i 0).val) 0#32)) 0#32) = 1#1
theorem hcond : ∀ t : Fin cfg1.N, cond (grid1.coords t) ↔ t.val % 20 = 0 :=
  (by decide +kernel : ∀ t : Fin grid1.N, cond (grid1.coords t) ↔ t.val % 20 = 0)

abbrev VO8 : View sig .tc .vmem S5000x128 .bf16 := (Memref.whole cc1_stg8_0 : Memref sig .tc .vmem S5000x128 .bf16).view
abbrev VO9 : View sig .tc .vmem S64x128 .f32 := (Memref.whole cc1_stg9_0 : Memref sig .tc .vmem S64x128 .f32).view
abbrev ms0 (t : Fin cfg1.N) : Memref sig .tc .vmem S5000x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S5000x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S5000x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S128x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S128x128 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1x128 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S5000x128 .bf16 := win1_8.stage (cfg1.slots t 8)
abbrev hs8 (t : Fin cfg1.N) : (ms8 t).IsWhole := hstage1_8 ((cfg1.slots t 8).cast nbuf1_8)
abbrev ms9 (t : Fin cfg1.N) : Memref sig .tc .vmem S64x128 .f32 := win1_9.stage (cfg1.slots t 9)
abbrev hs9 (t : Fin cfg1.N) : (ms9 t).IsWhole := hstage1_9 ((cfg1.slots t 9).cast nbuf1_9)

section Body
variable (c : Dev nD) (i : grid1.Coords) (arg1 : Memref sig .tc .vmem S5000x128 .bf16) (harg1 : arg1.IsWhole) (arg2 : Memref sig .tc .vmem S5000x128 .f32) (harg2 : arg2.IsWhole) (arg3 : Memref sig .tc .vmem S5000x1 .i32) (harg3 : arg3.IsWhole) (arg4 : Memref sig .tc .vmem S1x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S5000x128 .bf16) (harg9 : arg9.IsWhole) (arg10 : Memref sig .tc .vmem S64x128 .f32) (harg10 : arg10.IsWhole)

/- The body's run, once per branch, at any ten whole buffers: what it stores into the two outputs' buffers, that the
   stores tile them, and the two buffers read back. -/
section A
variable (hc0 : cond i) (x0 : Vec F S5000x128 .bf16) (x1 : Vec F S5000x128 .f32) (x2 : Vec F S5000x1 .i32) (x3 : Vec F S1x1 .f32) (x4 : Vec F S128x128 .f32) (x5 : Vec F S1x128 .f32) (x6 : Vec F S128x128 .f32) (x7 : Vec F S1x128 .f32)

set_option maxHeartbeats 2000000 in
noncomputable def kernelRun_A :
    Σ' (L8 : List (View.Piece (Elt F) S5000x128 .bf16)), { L9 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc1__mlp_pool_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__mlp_pool_kernel_eq_skeleton]; unfold cc1__mlp_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

theorem cover_A_8 (y : S5000x128.Idx) :
    ∃ pc ∈ (kernelRun_A c i arg1 harg1 arg2 harg2 arg3 harg3 arg4 harg4 arg5 harg5 arg6 harg6 arg7 harg7 arg8 harg8 arg9 harg9 arg10 harg10 hc0 x0 x1 x2 x3 x4 x5 x6 x7).1, y ∈ pc.1.set :=
  View.cover_of_tiledL (kernelRun_A c i arg1 harg1 arg2 harg2 arg3 harg3 arg4 harg4 arg5 harg5 arg6 harg6 arg7 harg7 arg8 harg8 arg9 harg9 arg10 harg10 hc0 x0 x1 x2 x3 x4 x5 x6 x7).1 S5000x128.size (by sl_kernel_rfl) y
theorem cover_A_9 (y : S64x128.Idx) :
    ∃ pc ∈ (kernelRun_A c i arg1 harg1 arg2 harg2 arg3 harg3 arg4 harg4 arg5 harg5 arg6 harg6 arg7 harg7 arg8 harg8 arg9 harg9 arg10 harg10 hc0 x0 x1 x2 x3 x4 x5 x6 x7).2.1, y ∈ pc.1.set :=
  View.cover_of_tiledL (kernelRun_A c i arg1 harg1 arg2 harg2 arg3 harg3 arg4 harg4 arg5 harg5 arg6 harg6 arg7 harg7 arg8 harg8 arg9 harg9 arg10 harg10 hc0 x0 x1 x2 x3 x4 x5 x6 x7).2.1 S64x128.size (by sl_kernel_rfl) y

def out_A_8 : Vec F S5000x128 .bf16 :=
  VO8.read (Elt F) (VO8.writes (Elt F) VO8.junk (kernelRun_A c i arg1 harg1 arg2 harg2 arg3 harg3 arg4 harg4 arg5 harg5 arg6 harg6 arg7 harg7 arg8 harg8 arg9 harg9 arg10 harg10 hc0 x0 x1 x2 x3 x4 x5 x6 x7).1)
def out_A_9 : Vec F S64x128 .f32 :=
  VO9.read (Elt F) (VO9.writes (Elt F) VO9.junk (kernelRun_A c i arg1 harg1 arg2 harg2 arg3 harg3 arg4 harg4 arg5 harg5 arg6 harg6 arg7 harg7 arg8 harg8 arg9 harg9 arg10 harg10 hc0 x0 x1 x2 x3 x4 x5 x6 x7).2.1)
end A

section B
variable (hc0 : ¬cond i) (x0 : Vec F S5000x128 .bf16) (x1 : Vec F S5000x128 .f32) (x2 : Vec F S5000x1 .i32) (x3 : Vec F S1x1 .f32) (x4 : Vec F S128x128 .f32) (x5 : Vec F S1x128 .f32) (x6 : Vec F S128x128 .f32) (x7 : Vec F S1x128 .f32) (xo9 : Vec F S64x128 .f32)

set_option maxHeartbeats 2000000 in
noncomputable def kernelRun_B :
    Σ' (L8 : List (View.Piece (Elt F) S5000x128 .bf16)), { L9 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)) -∗ K ⟨⟩))
          ⊢ wp frame (wpE (defs₀ (F := F)) Variants.none c none) E (cc1__mlp_pool_kernel i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc1__mlp_pool_kernel_eq_skeleton]; unfold cc1__mlp_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

theorem cover_B_8 (y : S5000x128.Idx) :
    ∃ pc ∈ (kernelRun_B c i arg1 harg1 arg2 harg2 arg3 harg3 arg4 harg4 arg5 harg5 arg6 harg6 arg7 harg7 arg8 harg8 arg9 harg9 arg10 harg10 hc0 x0 x1 x2 x3 x4 x5 x6 x7 xo9).1, y ∈ pc.1.set :=
  View.cover_of_tiledL (kernelRun_B c i arg1 harg1 arg2 harg2 arg3 harg3 arg4 harg4 arg5 harg5 arg6 harg6 arg7 harg7 arg8 harg8 arg9 harg9 arg10 harg10 hc0 x0 x1 x2 x3 x4 x5 x6 x7 xo9).1 S5000x128.size (by sl_kernel_rfl) y
theorem cover_B_9 (y : S64x128.Idx) :
    ∃ pc ∈ (kernelRun_B c i arg1 harg1 arg2 harg2 arg3 harg3 arg4 harg4 arg5 harg5 arg6 harg6 arg7 harg7 arg8 harg8 arg9 harg9 arg10 harg10 hc0 x0 x1 x2 x3 x4 x5 x6 x7 xo9).2.1, y ∈ pc.1.set :=
  View.cover_of_tiledL (kernelRun_B c i arg1 harg1 arg2 harg2 arg3 harg3 arg4 harg4 arg5 harg5 arg6 harg6 arg7 harg7 arg8 harg8 arg9 harg9 arg10 harg10 hc0 x0 x1 x2 x3 x4 x5 x6 x7 xo9).2.1 S64x128.size (by sl_kernel_rfl) y

def out_B_8 : Vec F S5000x128 .bf16 :=
  VO8.read (Elt F) (VO8.writes (Elt F) VO8.junk (kernelRun_B c i arg1 harg1 arg2 harg2 arg3 harg3 arg4 harg4 arg5 harg5 arg6 harg6 arg7 harg7 arg8 harg8 arg9 harg9 arg10 harg10 hc0 x0 x1 x2 x3 x4 x5 x6 x7 xo9).1)
def out_B_9 : Vec F S64x128 .f32 :=
  VO9.read (Elt F) (VO9.writes (Elt F) VO9.junk (kernelRun_B c i arg1 harg1 arg2 harg2 arg3 harg3 arg4 harg4 arg5 harg5 arg6 harg6 arg7 harg7 arg8 harg8 arg9 harg9 arg10 harg10 hc0 x0 x1 x2 x3 x4 x5 x6 x7 xo9).2.1)
end B
end Body

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def stepA (c : Dev nD) (t : Fin cfg1.N) (h0 : t.val % 20 = 0) : Vec F S5000x128 .bf16 × Vec F S64x128 .f32 :=
  (out_A_8 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t),
   out_A_9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t))

def stepB (c : Dev nD) (t : Fin cfg1.N) (h0 : ¬t.val % 20 = 0) (p : Vec F S64x128 .f32) : Vec F S5000x128 .bf16 × Vec F S64x128 .f32 :=
  (out_B_8 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) p,
   out_B_9 c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) p)

/- The two outputs' buffers after the body at position n; the sums' buffer is read at what position n - 1 left. -/
def outsAt (c : Dev nD) : (n : ℕ) → n < cfg1.N → Vec F S5000x128 .bf16 × Vec F S64x128 .f32
  | 0, hn => stepA V c ⟨0, hn⟩ (Nat.zero_mod _)
  | n + 1, hn =>
    if h0 : (n + 1) % 20 = 0 then stepA V c ⟨n + 1, hn⟩ h0
    else stepB V c ⟨n + 1, hn⟩ h0 (outsAt c n (Nat.lt_of_succ_lt hn)).2

theorem outsAt_A (c : Dev nD) (t : Fin cfg1.N) (h0 : t.val % 20 = 0) : outsAt V c t.val t.isLt = stepA V c t h0 := by
  obtain ⟨n, hn⟩ := t
  cases n with
  | zero => exact rfl
  | succ n => exact (dif_pos h0).trans rfl

theorem outsAt_B (c : Dev nD) (t : Fin cfg1.N) (h0 : ¬t.val % 20 = 0) :
    outsAt V c t.val t.isLt = stepB V c t h0 (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt V c t.val t.isLt).1
    | ⟨9, _⟩ => (outsAt V c t.val t.isLt).2
  Φ _ := Pipeline.ΦA spec1 c
  q _ := fullShare
  owed _ := 0

theorem A_eq (c : Dev nD) (w : Fin cfg1.W) : (dat V c).A w = V c (Pipeline.arrRef spec1 w) := rfl

theorem after_0 (c : Dev nD) (t : Fin cfg1.N) : (dat V c).after 0 t = iblk V c 0 t := rfl
theorem after_1 (c : Dev nD) (t : Fin cfg1.N) : (dat V c).after 1 t = iblk V c 1 t := rfl
theorem after_2 (c : Dev nD) (t : Fin cfg1.N) : (dat V c).after 2 t = iblk V c 2 t := rfl
theorem after_3 (c : Dev nD) (t : Fin cfg1.N) : (dat V c).after 3 t = iblk V c 3 t := rfl
theorem after_4 (c : Dev nD) (t : Fin cfg1.N) : (dat V c).after 4 t = iblk V c 4 t := rfl
theorem after_5 (c : Dev nD) (t : Fin cfg1.N) : (dat V c).after 5 t = iblk V c 5 t := rfl
theorem after_6 (c : Dev nD) (t : Fin cfg1.N) : (dat V c).after 6 t = iblk V c 6 t := rfl
theorem after_7 (c : Dev nD) (t : Fin cfg1.N) : (dat V c).after 7 t = iblk V c 7 t := rfl
theorem after_8 (c : Dev nD) (t : Fin cfg1.N) : (dat V c).after 8 t = (outsAt V c t.val t.isLt).1 := rfl
theorem after_9 (c : Dev nD) (t : Fin cfg1.N) : (dat V c).after 9 t = (outsAt V c t.val t.isLt).2 := rfl

/- An input window holds its block at every point, fetched there or not. -/
theorem before_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before_1 (c : Dev nD) (t : Fin cfg1.N) (d) : (dat V c).before 1 t d = iblk V c 1 t :=
  ((dat V c).before_in_eq_fetched 1 rfl (fun _ => rfl) (fun _ _ _ => rfl) (fun _ => rfl) t d).trans rfl
theorem before_2 (c : Dev nD) (t : Fin cfg1.N) (d) : (dat V c).before 2 t d = iblk V c 2 t :=
  ((dat V c).before_in_eq_fetched 2 rfl (fun _ => rfl) (fun _ _ _ => rfl) (fun _ => rfl) t d).trans rfl
theorem before_3 (c : Dev nD) (t : Fin cfg1.N) (d) : (dat V c).before 3 t d = iblk V c 3 t :=
  ((dat V c).before_in_eq_fetched 3 rfl (fun _ => rfl) (fun _ _ _ => rfl) (fun _ => rfl) t d).trans rfl
theorem before_4 (c : Dev nD) (t : Fin cfg1.N) (d) : (dat V c).before 4 t d = iblk V c 4 t :=
  ((dat V c).before_in_eq_fetched 4 rfl (fun _ => rfl) (fun _ _ _ => rfl) (fun _ => rfl) t d).trans rfl
theorem before_5 (c : Dev nD) (t : Fin cfg1.N) (d) : (dat V c).before 5 t d = iblk V c 5 t :=
  ((dat V c).before_in_eq_fetched 5 rfl (fun _ => rfl) (fun _ _ _ => rfl) (fun _ => rfl) t d).trans rfl
theorem before_6 (c : Dev nD) (t : Fin cfg1.N) (d) : (dat V c).before 6 t d = iblk V c 6 t :=
  ((dat V c).before_in_eq_fetched 6 rfl (fun _ => rfl) (fun _ _ _ => rfl) (fun _ => rfl) t d).trans rfl
theorem before_7 (c : Dev nD) (t : Fin cfg1.N) (d) : (dat V c).before 7 t d = iblk V c 7 t :=
  ((dat V c).before_in_eq_fetched 7 rfl (fun _ => rfl) (fun _ _ _ => rfl) (fun _ => rfl) t d).trans rfl

theorem before_9_B (c : Dev nD) (t : Fin cfg1.N) (h0 : ¬t.val % 20 = 0) (d) :
    (dat V c).before 9 t d = (outsAt V c (t.val - 1) (Nat.lt_of_le_of_lt (Nat.sub_le _ _) t.isLt)).2 := by
  have hN : t.val < 20 := lt_of_lt_of_eq t.isLt (show cfg1.N = 20 from N_1)
  rw [Dat.before_out_kept _ 9 rfl t (by omega) (Bool.eq_false_iff.mpr fun h => by have := (flush1_9 _).mp h; dsimp only at this; omega)
    (fun _ => rfl) (fun _ _ => rfl)]
  dsimp only [dat]

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t))

set_option maxHeartbeats 1600000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  have hN : t.val < 20 := lt_of_lt_of_eq t.isLt (show cfg1.N = 20 from N_1)
  by_cases h0 : t.val % 20 = 0
  · rw [outsAt_A V c t h0]
    dsimp only [stepA]
    unfold out_A_8 out_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_A c (grid1.coords t) _ _ _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t) (iblk V c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_A_8 c _ _ _ _ _ _ _ _ _ _ _ _ _ _ _ _ _ _ _ _ _ _ _ _ _ _ _ _ _ _)
    unfold owns; iexists _; isplitr
    swap; · iexact H9
    ipureintro; exact View.read_writes_of_cover _ _ _ _ _ (cover_A_9 c _ _ _ _ _ _ _ _ _ _ _ _ _ _ _ _ _ _ _ _ _ _ _ _ _ _ _ _ _ _)
  · rw [outsAt_B V c t h0]
    dsimp only [stepB]
    simp only [before_9_B V c t h0]
    unfold out_B_8 out_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_B c (grid1.coords t) _ _ _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) (iblk V c 7 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover_B_9 c _ _ _ _ _ _ _ _ _ _ _ _ _ _ _ _ _ _ _ _ _ _ _ _ _ _ _ _ _ _ _)

theorem body_obligation (c : Dev nD) : BodyObligation (dat (F := F) V c) (defs₀ (F := F)) Variants.none () Set.univ := fun t => by
  rw [bigSep_W1, bigSep_W1]
  exact sound_body V c t

end R1

end Cert.KernelIdeal.Hand

end
-- ==== Proof.KIReg2.lean ====
import proofs.«421016_j46033459478730_2_alg».proof.Proof.KIReg1
import proofs.«421016_j46033459478730_2_alg».proof.Proof.Gen.KernelIdeal.Launch
import proofs.«421016_j46033459478730_2_alg».proof.Proof.Gen.KernelIdeal.Skeleton
import proofs.«421016_j46033459478730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R2

variable (V : (c : Dev nD) → (b : Ref sig .tc) → Buf (Elt F) ((c : Thread nD τ).loc b))

open R1 (cond kernelRun_A kernelRun_B cover_A_8 cover_A_9 cover_B_8 cover_B_9 out_A_8 out_A_9 out_B_8 out_B_9)

theorem hcond : ∀ t : Fin cfg2.N, cond (grid2.coords t) ↔ t.val % 20 = 0 :=
  (by decide +kernel : ∀ t : Fin grid2.N, cond (grid2.coords t) ↔ t.val % 20 = 0)

abbrev ms0 (t : Fin cfg2.N) : Memref sig .tc .vmem S5000x128 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S5000x128 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S5000x1 .i32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x1 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S128x128 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S1x128 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S128x128 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S1x128 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S5000x128 .bf16 := win2_8.stage (cfg2.slots t 8)
abbrev hs8 (t : Fin cfg2.N) : (ms8 t).IsWhole := hstage2_8 ((cfg2.slots t 8).cast nbuf2_8)
abbrev ms9 (t : Fin cfg2.N) : Memref sig .tc .vmem S64x128 .f32 := win2_9.stage (cfg2.slots t 9)
abbrev hs9 (t : Fin cfg2.N) : (ms9 t).IsWhole := hstage2_9 ((cfg2.slots t 9).cast nbuf2_9)

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def stepA (c : Dev nD) (t : Fin cfg2.N) (h0 : t.val % 20 = 0) : Vec F S5000x128 .bf16 × Vec F S64x128 .f32 :=
  (out_A_8 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t),
   out_A_9 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t))

def stepB (c : Dev nD) (t : Fin cfg2.N) (h0 : ¬t.val % 20 = 0) (p : Vec F S64x128 .f32) : Vec F S5000x128 .bf16 × Vec F S64x128 .f32 :=
  (out_B_8 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) p,
   out_B_9 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) p)

/- The two outputs' buffers after the body at position n; the sums' buffer is read at what position n - 1 left. -/
def outsAt (c : Dev nD) : (n : ℕ) → n < cfg2.N → Vec F S5000x128 .bf16 × Vec F S64x128 .f32
  | 0, hn => stepA V c ⟨0, hn⟩ (Nat.zero_mod _)
  | n + 1, hn =>
    if h0 : (n + 1) % 20 = 0 then stepA V c ⟨n + 1, hn⟩ h0
    else stepB V c ⟨n + 1, hn⟩ h0 (outsAt c n (Nat.lt_of_succ_lt hn)).2

theorem outsAt_A (c : Dev nD) (t : Fin cfg2.N) (h0 : t.val % 20 = 0) : outsAt V c t.val t.isLt = stepA V c t h0 := by
  obtain ⟨n, hn⟩ := t
  cases n with
  | zero => exact rfl
  | succ n => exact (dif_pos h0).trans rfl

theorem outsAt_B (c : Dev nD) (t : Fin cfg2.N) (h0 : ¬t.val % 20 = 0) :
    outsAt V c t.val t.isLt = stepB V c t h0 (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt V c t.val t.isLt).1
    | ⟨9, _⟩ => (outsAt V c t.val t.isLt).2
  Φ _ := Pipeline.ΦA spec2 c
  q _ := fullShare
  owed _ := 0

theorem A_eq (c : Dev nD) (w : Fin cfg2.W) : (dat V c).A w = V c (Pipeline.arrRef spec2 w) := rfl

theorem after_0 (c : Dev nD) (t : Fin cfg2.N) : (dat V c).after 0 t = iblk V c 0 t := rfl
theorem after_1 (c : Dev nD) (t : Fin cfg2.N) : (dat V c).after 1 t = iblk V c 1 t := rfl
theorem after_2 (c : Dev nD) (t : Fin cfg2.N) : (dat V c).after 2 t = iblk V c 2 t := rfl
theorem after_3 (c : Dev nD) (t : Fin cfg2.N) : (dat V c).after 3 t = iblk V c 3 t := rfl
theorem after_4 (c : Dev nD) (t : Fin cfg2.N) : (dat V c).after 4 t = iblk V c 4 t := rfl
theorem after_5 (c : Dev nD) (t : Fin cfg2.N) : (dat V c).after 5 t = iblk V c 5 t := rfl
theorem after_6 (c : Dev nD) (t : Fin cfg2.N) : (dat V c).after 6 t = iblk V c 6 t := rfl
theorem after_7 (c : Dev nD) (t : Fin cfg2.N) : (dat V c).after 7 t = iblk V c 7 t := rfl
theorem after_8 (c : Dev nD) (t : Fin cfg2.N) : (dat V c).after 8 t = (outsAt V c t.val t.isLt).1 := rfl
theorem after_9 (c : Dev nD) (t : Fin cfg2.N) : (dat V c).after 9 t = (outsAt V c t.val t.isLt).2 := rfl

/- An input window holds its block at every point, fetched there or not. -/
theorem before_0 (c : Dev nD) (t : Fin cfg2.N) (d) : (dat V c).before 0 t d = iblk V c 0 t :=
  ((dat V c).before_in_eq_fetched 0 rfl (fun _ => rfl) (fun _ _ _ => rfl) (fun _ => rfl) t d).trans rfl
theorem before_1 (c : Dev nD) (t : Fin cfg2.N) (d) : (dat V c).before 1 t d = iblk V c 1 t :=
  ((dat V c).before_in_eq_fetched 1 rfl (fun _ => rfl) (fun _ _ _ => rfl) (fun _ => rfl) t d).trans rfl
theorem before_2 (c : Dev nD) (t : Fin cfg2.N) (d) : (dat V c).before 2 t d = iblk V c 2 t :=
  ((dat V c).before_in_eq_fetched 2 rfl (fun _ => rfl) (fun _ _ _ => rfl) (fun _ => rfl) t d).trans rfl
theorem before_3 (c : Dev nD) (t : Fin cfg2.N) (d) : (dat V c).before 3 t d = iblk V c 3 t :=
  ((dat V c).before_in_eq_fetched 3 rfl (fun _ => rfl) (fun _ _ _ => rfl) (fun _ => rfl) t d).trans rfl
theorem before_4 (c : Dev nD) (t : Fin cfg2.N) (d) : (dat V c).before 4 t d = iblk V c 4 t :=
  ((dat V c).before_in_eq_fetched 4 rfl (fun _ => rfl) (fun _ _ _ => rfl) (fun _ => rfl) t d).trans rfl
theorem before_5 (c : Dev nD) (t : Fin cfg2.N) (d) : (dat V c).before 5 t d = iblk V c 5 t :=
  ((dat V c).before_in_eq_fetched 5 rfl (fun _ => rfl) (fun _ _ _ => rfl) (fun _ => rfl) t d).trans rfl
theorem before_6 (c : Dev nD) (t : Fin cfg2.N) (d) : (dat V c).before 6 t d = iblk V c 6 t :=
  ((dat V c).before_in_eq_fetched 6 rfl (fun _ => rfl) (fun _ _ _ => rfl) (fun _ => rfl) t d).trans rfl
theorem before_7 (c : Dev nD) (t : Fin cfg2.N) (d) : (dat V c).before 7 t d = iblk V c 7 t :=
  ((dat V c).before_in_eq_fetched 7 rfl (fun _ => rfl) (fun _ _ _ => rfl) (fun _ => rfl) t d).trans rfl

theorem before_9_B (c : Dev nD) (t : Fin cfg2.N) (h0 : ¬t.val % 20 = 0) (d) :
    (dat V c).before 9 t d = (outsAt V c (t.val - 1) (Nat.lt_of_le_of_lt (Nat.sub_le _ _) t.isLt)).2 := by
  have hN : t.val < 20 := lt_of_lt_of_eq t.isLt (show cfg2.N = 20 from N_2)
  rw [Dat.before_out_kept _ 9 rfl t (by omega) (Bool.eq_false_iff.mpr fun h => by have := (flush2_9 _).mp h; dsimp only at this; omega)
    (fun _ => rfl) (fun _ _ => rfl)]
  dsimp only [dat]

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t))

set_option maxHeartbeats 1600000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  rw [show @cc2__mlp_pool_kernel F _ = @cc1__mlp_pool_kernel F _ from rfl]
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  have hN : t.val < 20 := lt_of_lt_of_eq t.isLt (show cfg2.N = 20 from N_2)
  by_cases h0 : t.val % 20 = 0
  · rw [outsAt_A V c t h0]
    dsimp only [stepA]
    unfold out_A_8 out_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_A c (grid2.coords t) _ _ _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t) (iblk V c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_A_8 c _ _ _ _ _ _ _ _ _ _ _ _ _ _ _ _ _ _ _ _ _ _ _ _ _ _ _ _ _ _)
    unfold owns; iexists _; isplitr
    swap; · iexact H9
    ipureintro; exact View.read_writes_of_cover _ _ _ _ _ (cover_A_9 c _ _ _ _ _ _ _ _ _ _ _ _ _ _ _ _ _ _ _ _ _ _ _ _ _ _ _ _ _ _)
  · rw [outsAt_B V c t h0]
    dsimp only [stepB]
    simp only [before_9_B V c t h0]
    unfold out_B_8 out_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_B c (grid2.coords t) _ _ _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) (iblk V c 7 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover_B_9 c _ _ _ _ _ _ _ _ _ _ _ _ _ _ _ _ _ _ _ _ _ _ _ _ _ _ _ _ _ _ _)

theorem body_obligation (c : Dev nD) : BodyObligation (dat (F := F) V c) (defs₀ (F := F)) Variants.none () Set.univ := fun t => by
  rw [bigSep_W2, bigSep_W2]
  exact sound_body V c t

end R2

end Cert.KernelIdeal.Hand

end
-- ==== Proof.KIReg3.lean ====
import proofs.«421016_j46033459478730_2_alg».proof.Proof.KIReg1
import proofs.«421016_j46033459478730_2_alg».proof.Proof.Gen.KernelIdeal.Launch
import proofs.«421016_j46033459478730_2_alg».proof.Proof.Gen.KernelIdeal.Skeleton
import proofs.«421016_j46033459478730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R3

variable (V : (c : Dev nD) → (b : Ref sig .tc) → Buf (Elt F) ((c : Thread nD τ).loc b))

open R1 (cond kernelRun_A kernelRun_B cover_A_8 cover_A_9 cover_B_8 cover_B_9 out_A_8 out_A_9 out_B_8 out_B_9)

theorem hcond : ∀ t : Fin cfg3.N, cond (grid3.coords t) ↔ t.val % 20 = 0 :=
  (by decide +kernel : ∀ t : Fin grid3.N, cond (grid3.coords t) ↔ t.val % 20 = 0)

abbrev ms0 (t : Fin cfg3.N) : Memref sig .tc .vmem S5000x128 .bf16 := win3_0.stage (cfg3.slots t 0)
abbrev hs0 (t : Fin cfg3.N) : (ms0 t).IsWhole := hstage3_0 ((cfg3.slots t 0).cast nbuf3_0)
abbrev ms1 (t : Fin cfg3.N) : Memref sig .tc .vmem S5000x128 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S5000x1 .i32 := win3_2.stage (cfg3.slots t 2)
abbrev hs2 (t : Fin cfg3.N) : (ms2 t).IsWhole := hstage3_2 ((cfg3.slots t 2).cast nbuf3_2)
abbrev ms3 (t : Fin cfg3.N) : Memref sig .tc .vmem S1x1 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S128x128 .f32 := win3_4.stage (cfg3.slots t 4)
abbrev hs4 (t : Fin cfg3.N) : (ms4 t).IsWhole := hstage3_4 ((cfg3.slots t 4).cast nbuf3_4)
abbrev ms5 (t : Fin cfg3.N) : Memref sig .tc .vmem S1x128 .f32 := win3_5.stage (cfg3.slots t 5)
abbrev hs5 (t : Fin cfg3.N) : (ms5 t).IsWhole := hstage3_5 ((cfg3.slots t 5).cast nbuf3_5)
abbrev ms6 (t : Fin cfg3.N) : Memref sig .tc .vmem S128x128 .f32 := win3_6.stage (cfg3.slots t 6)
abbrev hs6 (t : Fin cfg3.N) : (ms6 t).IsWhole := hstage3_6 ((cfg3.slots t 6).cast nbuf3_6)
abbrev ms7 (t : Fin cfg3.N) : Memref sig .tc .vmem S1x128 .f32 := win3_7.stage (cfg3.slots t 7)
abbrev hs7 (t : Fin cfg3.N) : (ms7 t).IsWhole := hstage3_7 ((cfg3.slots t 7).cast nbuf3_7)
abbrev ms8 (t : Fin cfg3.N) : Memref sig .tc .vmem S5000x128 .bf16 := win3_8.stage (cfg3.slots t 8)
abbrev hs8 (t : Fin cfg3.N) : (ms8 t).IsWhole := hstage3_8 ((cfg3.slots t 8).cast nbuf3_8)
abbrev ms9 (t : Fin cfg3.N) : Memref sig .tc .vmem S64x128 .f32 := win3_9.stage (cfg3.slots t 9)
abbrev hs9 (t : Fin cfg3.N) : (ms9 t).IsWhole := hstage3_9 ((cfg3.slots t 9).cast nbuf3_9)

def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def stepA (c : Dev nD) (t : Fin cfg3.N) (h0 : t.val % 20 = 0) : Vec F S5000x128 .bf16 × Vec F S64x128 .f32 :=
  (out_A_8 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t),
   out_A_9 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t))

def stepB (c : Dev nD) (t : Fin cfg3.N) (h0 : ¬t.val % 20 = 0) (p : Vec F S64x128 .f32) : Vec F S5000x128 .bf16 × Vec F S64x128 .f32 :=
  (out_B_8 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) p,
   out_B_9 c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) p)

/- The two outputs' buffers after the body at position n; the sums' buffer is read at what position n - 1 left. -/
def outsAt (c : Dev nD) : (n : ℕ) → n < cfg3.N → Vec F S5000x128 .bf16 × Vec F S64x128 .f32
  | 0, hn => stepA V c ⟨0, hn⟩ (Nat.zero_mod _)
  | n + 1, hn =>
    if h0 : (n + 1) % 20 = 0 then stepA V c ⟨n + 1, hn⟩ h0
    else stepB V c ⟨n + 1, hn⟩ h0 (outsAt c n (Nat.lt_of_succ_lt hn)).2

theorem outsAt_A (c : Dev nD) (t : Fin cfg3.N) (h0 : t.val % 20 = 0) : outsAt V c t.val t.isLt = stepA V c t h0 := by
  obtain ⟨n, hn⟩ := t
  cases n with
  | zero => exact rfl
  | succ n => exact (dif_pos h0).trans rfl

theorem outsAt_B (c : Dev nD) (t : Fin cfg3.N) (h0 : ¬t.val % 20 = 0) :
    outsAt V c t.val t.isLt = stepB V c t h0 (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans rfl

def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => (outsAt V c t.val t.isLt).1
    | ⟨9, _⟩ => (outsAt V c t.val t.isLt).2
  Φ _ := Pipeline.ΦA spec3 c
  q _ := fullShare
  owed _ := 0

theorem A_eq (c : Dev nD) (w : Fin cfg3.W) : (dat V c).A w = V c (Pipeline.arrRef spec3 w) := rfl

theorem after_0 (c : Dev nD) (t : Fin cfg3.N) : (dat V c).after 0 t = iblk V c 0 t := rfl
theorem after_1 (c : Dev nD) (t : Fin cfg3.N) : (dat V c).after 1 t = iblk V c 1 t := rfl
theorem after_2 (c : Dev nD) (t : Fin cfg3.N) : (dat V c).after 2 t = iblk V c 2 t := rfl
theorem after_3 (c : Dev nD) (t : Fin cfg3.N) : (dat V c).after 3 t = iblk V c 3 t := rfl
theorem after_4 (c : Dev nD) (t : Fin cfg3.N) : (dat V c).after 4 t = iblk V c 4 t := rfl
theorem after_5 (c : Dev nD) (t : Fin cfg3.N) : (dat V c).after 5 t = iblk V c 5 t := rfl
theorem after_6 (c : Dev nD) (t : Fin cfg3.N) : (dat V c).after 6 t = iblk V c 6 t := rfl
theorem after_7 (c : Dev nD) (t : Fin cfg3.N) : (dat V c).after 7 t = iblk V c 7 t := rfl
theorem after_8 (c : Dev nD) (t : Fin cfg3.N) : (dat V c).after 8 t = (outsAt V c t.val t.isLt).1 := rfl
theorem after_9 (c : Dev nD) (t : Fin cfg3.N) : (dat V c).after 9 t = (outsAt V c t.val t.isLt).2 := rfl

/- An input window holds its block at every point, fetched there or not. -/
theorem before_0 (c : Dev nD) (t : Fin cfg3.N) (d) : (dat V c).before 0 t d = iblk V c 0 t :=
  ((dat V c).before_in_eq_fetched 0 rfl (fun _ => rfl) (fun _ _ _ => rfl) (fun _ => rfl) t d).trans rfl
theorem before_1 (c : Dev nD) (t : Fin cfg3.N) (d) : (dat V c).before 1 t d = iblk V c 1 t :=
  ((dat V c).before_in_eq_fetched 1 rfl (fun _ => rfl) (fun _ _ _ => rfl) (fun _ => rfl) t d).trans rfl
theorem before_2 (c : Dev nD) (t : Fin cfg3.N) (d) : (dat V c).before 2 t d = iblk V c 2 t :=
  ((dat V c).before_in_eq_fetched 2 rfl (fun _ => rfl) (fun _ _ _ => rfl) (fun _ => rfl) t d).trans rfl
theorem before_3 (c : Dev nD) (t : Fin cfg3.N) (d) : (dat V c).before 3 t d = iblk V c 3 t :=
  ((dat V c).before_in_eq_fetched 3 rfl (fun _ => rfl) (fun _ _ _ => rfl) (fun _ => rfl) t d).trans rfl
theorem before_4 (c : Dev nD) (t : Fin cfg3.N) (d) : (dat V c).before 4 t d = iblk V c 4 t :=
  ((dat V c).before_in_eq_fetched 4 rfl (fun _ => rfl) (fun _ _ _ => rfl) (fun _ => rfl) t d).trans rfl
theorem before_5 (c : Dev nD) (t : Fin cfg3.N) (d) : (dat V c).before 5 t d = iblk V c 5 t :=
  ((dat V c).before_in_eq_fetched 5 rfl (fun _ => rfl) (fun _ _ _ => rfl) (fun _ => rfl) t d).trans rfl
theorem before_6 (c : Dev nD) (t : Fin cfg3.N) (d) : (dat V c).before 6 t d = iblk V c 6 t :=
  ((dat V c).before_in_eq_fetched 6 rfl (fun _ => rfl) (fun _ _ _ => rfl) (fun _ => rfl) t d).trans rfl
theorem before_7 (c : Dev nD) (t : Fin cfg3.N) (d) : (dat V c).before 7 t d = iblk V c 7 t :=
  ((dat V c).before_in_eq_fetched 7 rfl (fun _ => rfl) (fun _ _ _ => rfl) (fun _ => rfl) t d).trans rfl

theorem before_9_B (c : Dev nD) (t : Fin cfg3.N) (h0 : ¬t.val % 20 = 0) (d) :
    (dat V c).before 9 t d = (outsAt V c (t.val - 1) (Nat.lt_of_le_of_lt (Nat.sub_le _ _) t.isLt)).2 := by
  have hN : t.val < 20 := lt_of_lt_of_eq t.isLt (show cfg3.N = 20 from N_3)
  rw [Dat.before_out_kept _ 9 rfl t (by omega) (Bool.eq_false_iff.mpr fun h => by have := (flush3_9 _).mp h; dsimp only at this; omega)
    (fun _ => rfl) (fun _ _ => rfl)]
  dsimp only [dat]

def bodyPre (c : Dev nD) (t : Fin cfg3.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg3.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t))

set_option maxHeartbeats 1600000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  rw [show @cc3__mlp_pool_kernel F _ = @cc1__mlp_pool_kernel F _ from rfl]
  simp only [before_0, before_1, before_2, before_3, before_4, before_5, before_6, before_7]
  rw [show (dat V c).Φ t.succ = (dat V c).Φ t.castSucc from rfl,
    show (dat V c).owesAt () t.succ = (dat V c).owesAt () t.castSucc from rfl,
    after_0, after_1, after_2, after_3, after_4, after_5, after_6, after_7, after_8, after_9]
  have hN : t.val < 20 := lt_of_lt_of_eq t.isLt (show cfg3.N = 20 from N_3)
  by_cases h0 : t.val % 20 = 0
  · rw [outsAt_A V c t h0]
    dsimp only [stepA]
    unfold out_A_8 out_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_A c (grid3.coords t) _ _ _ _ _ _ _ _ _ _ _ _ _ _ _ _ _ _ _ _ ((hcond t).mpr h0) (iblk V c 0 t) (iblk V c 1 t) (iblk V c 2 t) (iblk V c 3 t) (iblk V c 4 t) (iblk V c 5 t) (iblk V c 6 t) (iblk V c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_A_8 c _ _ _ _ _ _ _ _ _ _ _ _ _ _ _ _ _ _ _ _ _ _ _ _ _ _ _ _ _ _)
    unfold owns; iexists _; isplitr
    swap; · iexact H9
    ipureintro; exact View.read_writes_of_cover _ _ _ _ _ (cover_A_9 c _ _ _ _ _ _ _ _ _ _ _ _ _ _ _ _ _ _ _ _ _ _ _ _ _ _ _ _ _ _)
  · rw [outsAt_B V c t h0]
    dsimp only [stepB]
    simp only [before_9_B V c t h0]
    unfold out_B_8 out_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun_B c (grid3.coords t) _ _ _ _ _ _ _ _ _ _ _ _ _ _ _ _ _ _ _ _ (fun h => h0 ((hcond t).mp h)) (iblk V c 0 t) (iblk V c 1 t) (iblk V c 2 t) (iblk V c 3 t) (iblk V c 4 t) (iblk V c 5 t) (iblk V c 6 t) (iblk V c 7 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover_B_9 c _ _ _ _ _ _ _ _ _ _ _ _ _ _ _ _ _ _ _ _ _ _ _ _ _ _ _ _ _ _ _)

theorem body_obligation (c : Dev nD) : BodyObligation (dat (F := F) V c) (defs₀ (F := F)) Variants.none () Set.univ := fun t => by
  rw [bigSep_W3, bigSep_W3]
  exact sound_body V c t

end R3

end Cert.KernelIdeal.Hand

end
-- ==== Proof.KIRun.lean ====
import proofs.«421016_j46033459478730_2_alg».proof.Proof.Gen.KernelIdeal.Regions
import proofs.«421016_j46033459478730_2_alg».proof.Proof.KIReg0
import proofs.«421016_j46033459478730_2_alg».proof.Proof.KIReg1
import proofs.«421016_j46033459478730_2_alg».proof.Proof.KIReg2
import proofs.«421016_j46033459478730_2_alg».proof.Proof.KIReg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev VV1 : (c : Dev nD) → (b : Ref sig .tc) → Buf (Elt F) ((c : Thread nD τ).loc b) := fun c b => Gen.V1 m c b
def X2 (c : Dev nD) : Valuation τ sig (Elt F) :=
  Pipeline.withArrays spec0 c (Gen.V1 m c) fun w => (dat0 (VV1 m) c).arrAt w cfg0.N
abbrev U2 (c : Dev nD) : Valuation τ sig (Elt F) := Function.update (Gen.V1 m c) main_v7 (X2 m c main_v7)
abbrev U3 (c : Dev nD) : Valuation τ sig (Elt F) := StableHlo.after hostOps1 (U2 m c)
abbrev VV3 : (c : Dev nD) → (b : Ref sig .tc) → Buf (Elt F) ((c : Thread nD τ).loc b) := fun c b => U3 m c b
def X4 (c : Dev nD) : Valuation τ sig (Elt F) :=
  Pipeline.withArrays spec1 c (U3 m c) fun w => (R1.dat (VV3 m) c).arrAt w cfg1.N
abbrev U4 (c : Dev nD) : Valuation τ sig (Elt F) := Function.update (Function.update (U3 m c) main_v32_0 (X4 m c main_v32_0)) main_v32_1 (X4 m c main_v32_1)
abbrev U5 (c : Dev nD) : Valuation τ sig (Elt F) := StableHlo.after hostOps2 (U4 m c)
abbrev VV5 : (c : Dev nD) → (b : Ref sig .tc) → Buf (Elt F) ((c : Thread nD τ).loc b) := fun c b => U5 m c b
def X6 (c : Dev nD) : Valuation τ sig (Elt F) :=
  Pipeline.withArrays spec2 c (U5 m c) fun w => (R2.dat (VV5 m) c).arrAt w cfg2.N
abbrev U6 (c : Dev nD) : Valuation τ sig (Elt F) := Function.update (Function.update (U5 m c) main_v57_0 (X6 m c main_v57_0)) main_v57_1 (X6 m c main_v57_1)
abbrev U7 (c : Dev nD) : Valuation τ sig (Elt F) := StableHlo.after hostOps3 (U6 m c)
abbrev VV7 : (c : Dev nD) → (b : Ref sig .tc) → Buf (Elt F) ((c : Thread nD τ).loc b) := fun c b => U7 m c b
def X8 (c : Dev nD) : Valuation τ sig (Elt F) :=
  Pipeline.withArrays spec3 c (U7 m c) fun w => (R3.dat (VV7 m) c).arrAt w cfg3.N

def outs : Gen.Outs (F := F) := fun J r c =>
  match J with
  | 2 => X2 m c r
  | 4 => X4 m c r
  | 6 => X6 m c r
  | _ => X8 m c r

theorem V2_eq (c : Dev nD) : Gen.V2 m (outs m) c = U2 m c := rfl
theorem V3_eq (c : Dev nD) : Gen.V3 m (outs m) c = U3 m c := rfl
theorem V4_eq (c : Dev nD) : Gen.V4 m (outs m) c = U4 m c := rfl
theorem V5_eq (c : Dev nD) : Gen.V5 m (outs m) c = U5 m c := rfl
theorem V6_eq (c : Dev nD) : Gen.V6 m (outs m) c = U6 m c := rfl
theorem V7_eq (c : Dev nD) : Gen.V7 m (outs m) c = U7 m c := rfl

def pdats : (p : Fin 4) → (c : Dev nD) → Dat τ (Elt F) Unit ℕ (UR sig nD τ) ℕ (Pipeline.pin (pcfgs (F := F)) Gen.adm p) c
  | ⟨0, _⟩ => fun c => dat0 (VV1 m) c
  | ⟨1, _⟩ => fun c => R1.dat (VV3 m) c
  | ⟨2, _⟩ => fun c => R2.dat (VV5 m) c
  | ⟨3, _⟩ => fun c => R3.dat (VV7 m) c

set_option maxHeartbeats 800000 in
theorem in0 (c : Dev nD) (w : Fin cfg0.W) (hw : (cfg0.win w).isOut = false) (h : Pipeline.arrRef spec0 w ∉ ([main_v7] : List (Ref sig .tc))) :
    (dat0 (fun c b => Gen.V1 m c b) c).arrAt w cfg0.N = Gen.V2 m (outs m) c (Proc.devRef .tc (Pipeline.arrRef spec0 w)) := by
  rw [Gen.V2_of m (outs m) c _ h]
  generalize Gen.V1 m = W
  exact ((dat0 (fun c b => W c b) c).arrAt_in w hw _).trans (A_eq0 (fun c b => W c b) c w)
set_option maxHeartbeats 800000 in
theorem hF0_5 (c : Dev nD) : (dat0 (VV1 m) c).arrAt 5 cfg0.N = Gen.V2 m (outs m) c (Proc.devRef .tc main_v7) := by
  rw [show Gen.V2 m (outs m) c (Proc.devRef .tc main_v7) = X2 m c (Proc.devRef .tc main_v7) from Function.update_self _ _ _]
  exact (Pipeline.withArrays_arr spec0 launch0.win.arr_inj c (Gen.V1 m c) (fun w => (dat0 (VV1 m) c).arrAt w cfg0.N) 5).symm
set_option maxHeartbeats 3200000 in
theorem hF0 (c : Dev nD) : ∀ w : Fin cfg0.W, (pdats m 0 c).arrAt w cfg0.N = (fun b : Ref sig .tc => Gen.V2 m (outs m) c b) (Pipeline.arrRef spec0 w)
  | ⟨0, _⟩ => in0 m c 0 rfl (by decide)
  | ⟨1, _⟩ => in0 m c 1 rfl (by decide)
  | ⟨2, _⟩ => in0 m c 2 rfl (by decide)
  | ⟨3, _⟩ => in0 m c 3 rfl (by decide)
  | ⟨4, _⟩ => in0 m c 4 rfl (by decide)
  | ⟨5, _⟩ => hF0_5 m c
theorem hrest0 (c : Dev nD) : ∀ b : Ref sig .tc, b ∉ Finset.univ.image (Pipeline.arrRef spec0) → (fun b : Ref sig .tc => Gen.V2 m (outs m) c b) b = VV1 m c b :=
  fun b hb => Gen.V2_of m (outs m) c b fun h => hb (by
    rw [List.mem_singleton] at h; subst h; exact Finset.mem_image.mpr ⟨5, Finset.mem_univ _, rfl⟩)

set_option maxHeartbeats 800000 in
theorem in1 (c : Dev nD) (w : Fin cfg1.W) (hw : (cfg1.win w).isOut = false) (h : Pipeline.arrRef spec1 w ∉ ([main_v32_0, main_v32_1] : List (Ref sig .tc))) :
    (R1.dat (fun c b => U3 m c b) c).arrAt w cfg1.N = Gen.V4 m (outs m) c (Proc.devRef .tc (Pipeline.arrRef spec1 w)) := by
  rw [Gen.V4_of m (outs m) c _ h, V3_eq m c]
  generalize U3 m = W
  exact ((R1.dat (fun c b => W c b) c).arrAt_in w hw _).trans (R1.A_eq (fun c b => W c b) c w)
set_option maxHeartbeats 800000 in
theorem hF1_8 (c : Dev nD) : (R1.dat (VV3 m) c).arrAt 8 cfg1.N = Gen.V4 m (outs m) c (Proc.devRef .tc main_v32_0) := by
  rw [show Gen.V4 m (outs m) c (Proc.devRef .tc main_v32_0) = X4 m c (Proc.devRef .tc main_v32_0) from (Function.update_of_ne (StableHlo.devRef_ne_of_ne (by decide) : (Proc.devRef .tc main_v32_0 : DevRef τ sig) ≠ Proc.devRef .tc main_v32_1) _ _).trans (Function.update_self _ _ _)]
  exact (Pipeline.withArrays_arr spec1 launch1.win.arr_inj c (U3 m c) (fun w => (R1.dat (VV3 m) c).arrAt w cfg1.N) 8).symm
set_option maxHeartbeats 800000 in
theorem hF1_9 (c : Dev nD) : (R1.dat (VV3 m) c).arrAt 9 cfg1.N = Gen.V4 m (outs m) c (Proc.devRef .tc main_v32_1) := by
  rw [show Gen.V4 m (outs m) c (Proc.devRef .tc main_v32_1) = X4 m c (Proc.devRef .tc main_v32_1) from Function.update_self _ _ _]
  exact (Pipeline.withArrays_arr spec1 launch1.win.arr_inj c (U3 m c) (fun w => (R1.dat (VV3 m) c).arrAt w cfg1.N) 9).symm
set_option maxHeartbeats 3200000 in
theorem hF1 (c : Dev nD) : ∀ w : Fin cfg1.W, (pdats m 1 c).arrAt w cfg1.N = (fun b : Ref sig .tc => Gen.V4 m (outs m) c b) (Pipeline.arrRef spec1 w)
  | ⟨0, _⟩ => in1 m c 0 rfl (by decide)
  | ⟨1, _⟩ => in1 m c 1 rfl (by decide)
  | ⟨2, _⟩ => in1 m c 2 rfl (by decide)
  | ⟨3, _⟩ => in1 m c 3 rfl (by decide)
  | ⟨4, _⟩ => in1 m c 4 rfl (by decide)
  | ⟨5, _⟩ => in1 m c 5 rfl (by decide)
  | ⟨6, _⟩ => in1 m c 6 rfl (by decide)
  | ⟨7, _⟩ => in1 m c 7 rfl (by decide)
  | ⟨8, _⟩ => hF1_8 m c
  | ⟨9, _⟩ => hF1_9 m c
theorem hrest1 (c : Dev nD) : ∀ b : Ref sig .tc, b ∉ Finset.univ.image (Pipeline.arrRef spec1) → (fun b : Ref sig .tc => Gen.V4 m (outs m) c b) b = VV3 m c b :=
  fun b hb => Gen.V4_of m (outs m) c b fun h => hb (by
    rcases List.mem_cons.mp h with h | h
    · subst h; exact Finset.mem_image.mpr ⟨8, Finset.mem_univ _, rfl⟩
    · rw [List.mem_singleton] at h; subst h; exact Finset.mem_image.mpr ⟨9, Finset.mem_univ _, rfl⟩)

set_option maxHeartbeats 800000 in
theorem in2 (c : Dev nD) (w : Fin cfg2.W) (hw : (cfg2.win w).isOut = false) (h : Pipeline.arrRef spec2 w ∉ ([main_v57_0, main_v57_1] : List (Ref sig .tc))) :
    (R2.dat (fun c b => U5 m c b) c).arrAt w cfg2.N = Gen.V6 m (outs m) c (Proc.devRef .tc (Pipeline.arrRef spec2 w)) := by
  rw [Gen.V6_of m (outs m) c _ h, V5_eq m c]
  generalize U5 m = W
  exact ((R2.dat (fun c b => W c b) c).arrAt_in w hw _).trans (R2.A_eq (fun c b => W c b) c w)
set_option maxHeartbeats 800000 in
theorem hF2_8 (c : Dev nD) : (R2.dat (VV5 m) c).arrAt 8 cfg2.N = Gen.V6 m (outs m) c (Proc.devRef .tc main_v57_0) := by
  rw [show Gen.V6 m (outs m) c (Proc.devRef .tc main_v57_0) = X6 m c (Proc.devRef .tc main_v57_0) from (Function.update_of_ne (StableHlo.devRef_ne_of_ne (by decide) : (Proc.devRef .tc main_v57_0 : DevRef τ sig) ≠ Proc.devRef .tc main_v57_1) _ _).trans (Function.update_self _ _ _)]
  exact (Pipeline.withArrays_arr spec2 launch2.win.arr_inj c (U5 m c) (fun w => (R2.dat (VV5 m) c).arrAt w cfg2.N) 8).symm
set_option maxHeartbeats 800000 in
theorem hF2_9 (c : Dev nD) : (R2.dat (VV5 m) c).arrAt 9 cfg2.N = Gen.V6 m (outs m) c (Proc.devRef .tc main_v57_1) := by
  rw [show Gen.V6 m (outs m) c (Proc.devRef .tc main_v57_1) = X6 m c (Proc.devRef .tc main_v57_1) from Function.update_self _ _ _]
  exact (Pipeline.withArrays_arr spec2 launch2.win.arr_inj c (U5 m c) (fun w => (R2.dat (VV5 m) c).arrAt w cfg2.N) 9).symm
set_option maxHeartbeats 3200000 in
theorem hF2 (c : Dev nD) : ∀ w : Fin cfg2.W, (pdats m 2 c).arrAt w cfg2.N = (fun b : Ref sig .tc => Gen.V6 m (outs m) c b) (Pipeline.arrRef spec2 w)
  | ⟨0, _⟩ => in2 m c 0 rfl (by decide)
  | ⟨1, _⟩ => in2 m c 1 rfl (by decide)
  | ⟨2, _⟩ => in2 m c 2 rfl (by decide)
  | ⟨3, _⟩ => in2 m c 3 rfl (by decide)
  | ⟨4, _⟩ => in2 m c 4 rfl (by decide)
  | ⟨5, _⟩ => in2 m c 5 rfl (by decide)
  | ⟨6, _⟩ => in2 m c 6 rfl (by decide)
  | ⟨7, _⟩ => in2 m c 7 rfl (by decide)
  | ⟨8, _⟩ => hF2_8 m c
  | ⟨9, _⟩ => hF2_9 m c
theorem hrest2 (c : Dev nD) : ∀ b : Ref sig .tc, b ∉ Finset.univ.image (Pipeline.arrRef spec2) → (fun b : Ref sig .tc => Gen.V6 m (outs m) c b) b = VV5 m c b :=
  fun b hb => Gen.V6_of m (outs m) c b fun h => hb (by
    rcases List.mem_cons.mp h with h | h
    · subst h; exact Finset.mem_image.mpr ⟨8, Finset.mem_univ _, rfl⟩
    · rw [List.mem_singleton] at h; subst h; exact Finset.mem_image.mpr ⟨9, Finset.mem_univ _, rfl⟩)

set_option maxHeartbeats 800000 in
theorem in3 (c : Dev nD) (w : Fin cfg3.W) (hw : (cfg3.win w).isOut = false) (h : Pipeline.arrRef spec3 w ∉ ([main_v82_0, main_v82_1] : List (Ref sig .tc))) :
    (R3.dat (fun c b => U7 m c b) c).arrAt w cfg3.N = Gen.V8 m (outs m) c (Proc.devRef .tc (Pipeline.arrRef spec3 w)) := by
  rw [Gen.V8_of m (outs m) c _ h, V7_eq m c]
  generalize U7 m = W
  exact ((R3.dat (fun c b => W c b) c).arrAt_in w hw _).trans (R3.A_eq (fun c b => W c b) c w)
set_option maxHeartbeats 800000 in
theorem hF3_8 (c : Dev nD) : (R3.dat (VV7 m) c).arrAt 8 cfg3.N = Gen.V8 m (outs m) c (Proc.devRef .tc main_v82_0) := by
  rw [show Gen.V8 m (outs m) c (Proc.devRef .tc main_v82_0) = X8 m c (Proc.devRef .tc main_v82_0) from (Function.update_of_ne (StableHlo.devRef_ne_of_ne (by decide) : (Proc.devRef .tc main_v82_0 : DevRef τ sig) ≠ Proc.devRef .tc main_v82_1) _ _).trans (Function.update_self _ _ _)]
  exact (Pipeline.withArrays_arr spec3 launch3.win.arr_inj c (U7 m c) (fun w => (R3.dat (VV7 m) c).arrAt w cfg3.N) 8).symm
set_option maxHeartbeats 800000 in
theorem hF3_9 (c : Dev nD) : (R3.dat (VV7 m) c).arrAt 9 cfg3.N = Gen.V8 m (outs m) c (Proc.devRef .tc main_v82_1) := by
  rw [show Gen.V8 m (outs m) c (Proc.devRef .tc main_v82_1) = X8 m c (Proc.devRef .tc main_v82_1) from Function.update_self _ _ _]
  exact (Pipeline.withArrays_arr spec3 launch3.win.arr_inj c (U7 m c) (fun w => (R3.dat (VV7 m) c).arrAt w cfg3.N) 9).symm
set_option maxHeartbeats 3200000 in
theorem hF3 (c : Dev nD) : ∀ w : Fin cfg3.W, (pdats m 3 c).arrAt w cfg3.N = (fun b : Ref sig .tc => Gen.V8 m (outs m) c b) (Pipeline.arrRef spec3 w)
  | ⟨0, _⟩ => in3 m c 0 rfl (by decide)
  | ⟨1, _⟩ => in3 m c 1 rfl (by decide)
  | ⟨2, _⟩ => in3 m c 2 rfl (by decide)
  | ⟨3, _⟩ => in3 m c 3 rfl (by decide)
  | ⟨4, _⟩ => in3 m c 4 rfl (by decide)
  | ⟨5, _⟩ => in3 m c 5 rfl (by decide)
  | ⟨6, _⟩ => in3 m c 6 rfl (by decide)
  | ⟨7, _⟩ => in3 m c 7 rfl (by decide)
  | ⟨8, _⟩ => hF3_8 m c
  | ⟨9, _⟩ => hF3_9 m c
theorem hrest3 (c : Dev nD) : ∀ b : Ref sig .tc, b ∉ Finset.univ.image (Pipeline.arrRef spec3) → (fun b : Ref sig .tc => Gen.V8 m (outs m) c b) b = VV7 m c b :=
  fun b hb => Gen.V8_of m (outs m) c b fun h => hb (by
    rcases List.mem_cons.mp h with h | h
    · subst h; exact Finset.mem_image.mpr ⟨8, Finset.mem_univ _, rfl⟩
    · rw [List.mem_singleton] at h; subst h; exact Finset.mem_image.mpr ⟨9, Finset.mem_univ _, rfl⟩)

set_option backward.isDefEq.respectTransparency.types false in
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VV1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (VV3 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VV3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VV3 m c) (fun b => Gen.V4 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (VV5 m) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (VV5 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (VV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (VV5 m c) (fun b => Gen.V6 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (R3.body_obligation (VV7 m) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (VV7 m c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (VV7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (VV7 m c) (fun b => Gen.V8 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, H⟩; iexact H)
    (reg0 m) (fun c => .rfl) (fun c => .rfl)
    (reg1 m) (fun c => by rw [V3_eq]; exact .rfl) (fun c => .rfl)
    (reg2 m) (fun c => by rw [V5_eq]; exact .rfl) (fun c => .rfl)
    (reg3 m) (fun c => by rw [V7_eq]; exact .rfl) (fun c => .rfl)

end Cert.KernelIdeal.Hand

end
-- ==== Proof.KIRunVal.lean ====
import proofs.«421016_j46033459478730_2_alg».proof.Proof.KIRun
import proofs.«421016_j46033459478730_2_alg».proof.Proof.KIValRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_val : θ_run defs (onTc (τ := τ) (main (F := F))) ⟨m, fun _ => 0, ρ⟩ (fun r => ∀ c : Dev nD,
      r.2.mem ((c.tc : Thread nD τ).loc main_v83) = Gen.V9 m (outs m) c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond_val m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, H⟩; iexact H)
    (reg0 m) (fun c => .rfl) (fun c => .rfl)
    (reg1 m) (fun c => by rw [V3_eq]; exact .rfl) (fun c => .rfl)
    (reg2 m) (fun c => by rw [V5_eq]; exact .rfl) (fun c => .rfl)
    (reg3 m) (fun c => by rw [V7_eq]; exact .rfl) (fun c => .rfl)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SN : Shape := ⟨2, ![100000, 128]⟩
abbrev SW : Shape := ⟨2, ![128, 128]⟩
abbrev SP : Shape := ⟨2, ![64, 128]⟩

def zeroE : EReal := Ideal.ofBits .f32 0x00000000#32
def oneE : EReal := Ideal.ofBits .f32 0x3F800000#32

def dense (x : SN.Idx → EReal) (W : SW.Idx → EReal) (b : Fin 128 → EReal) : SN.Idx → EReal :=
  fun i => (∑ k : Fin 128, x (ix2 (i 0) k) * W (ix2 k (i 1))) + b (i 1)

def relu (x : SN.Idx → EReal) : SN.Idx → EReal := fun i => max (x i) zeroE

def preH (x : SN.Idx → EReal) (W1 : SW.Idx → EReal) (b1 : Fin 128 → EReal) (W2 : SW.Idx → EReal) (b2 : Fin 128 → EReal) :
    SN.Idx → EReal :=
  relu (dense (relu (dense x W1 b1)) W2 b2)

def mix (e : EReal) (h agg : SN.Idx → EReal) : SN.Idx → EReal := fun i => (oneE + e) * h i + agg i

def layerH (e : EReal) (h agg : SN.Idx → EReal) (W1 : SW.Idx → EReal) (b1 : Fin 128 → EReal) (W2 : SW.Idx → EReal)
    (b2 : Fin 128 → EReal) : SN.Idx → EReal :=
  dense (relu (dense (mix e h agg) W1 b1)) W2 b2

def poolOf (h : SN.Idx → EReal) (bid : Fin 100000 → BitVec 32) : SP.Idx → EReal :=
  fun j => ∑ r : Fin 100000, if (bid r).toInt = (((j 0).val : Nat) : Int) then h (ix2 r (j 1)) else 0

theorem dense_apply (x : SN.Idx → EReal) (W : SW.Idx → EReal) (b : Fin 128 → EReal) (r : Fin 100000) (f : Fin 128) :
    dense x W b (ix2 r f) = (∑ k : Fin 128, x (ix2 r k) * W (ix2 k f)) + b f := rfl

theorem relu_apply (x : SN.Idx → EReal) (i : SN.Idx) : relu x i = max (x i) zeroE := rfl

theorem mix_apply (e : EReal) (h agg : SN.Idx → EReal) (i : SN.Idx) : mix e h agg i = (oneE + e) * h i + agg i := rfl

theorem poolOf_apply (h : SN.Idx → EReal) (bid : Fin 100000 → BitVec 32) (g : Fin 64) (f : Fin 128) :
    poolOf h bid (ix2 g f) = ∑ r : Fin 100000, if (bid r).toInt = ((g.val : Nat) : Int) then h (ix2 r f) else 0 := rfl

end Cert.Spec

end
-- ==== Proof.KIVal0.lean ====
import proofs.«421016_j46033459478730_2_alg».proof.Proof.KIReg0
import proofs.«421016_j46033459478730_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

namespace R0

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem tile_matmul_apply (l : FVec Ideal S5000x128 .bf16) (m : FVec Ideal S128x128 .bf16) (p : Fin 5000) (q : Fin 128) :
    matmul dot_S5000x128_S128x128_S5000x128_1_0_0_1_n_n none l m (constant (F := Ideal) S5000x128 .f32 0x00000000#32) (ix2 p q)
      = ∑ k : Fin 128, l (ix2 p k) * m (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

theorem bias_rows_apply (b : FVec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  exact broadcastTo_apply b broadcasts_S1x128_S5000x128 (ix2 p q) (ix2 0 q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

def denseClamp (x : FVec Ideal S5000x128 .bf16) (w : FVec Ideal S128x128 .bf16) (b : FVec Ideal S1x128 .f32) : FVec Ideal S5000x128 .f32 :=
  maximumf (addf (matmul dot_S5000x128_S128x128_S5000x128_1_0_0_1_n_n none x w (constant (F := Ideal) S5000x128 .f32 0x00000000#32))
      (broadcastTo S5000x128 (shapeCast S1x128 b shapeCasts_S1x128_S1x128) broadcasts_S1x128_S5000x128))
    (broadcast S5000x128 (Scalar.ofBits (F := Ideal) .f32 0x00000000#32))

theorem denseClamp_apply (x : FVec Ideal S5000x128 .bf16) (w : FVec Ideal S128x128 .bf16) (b : FVec Ideal S1x128 .f32) (p : Fin 5000) (q : Fin 128) :
    denseClamp x w b (ix2 p q) = max ((∑ k : Fin 128, x (ix2 p k) * w (ix2 k q)) + b (ix2 0 q)) Spec.zeroE := by
  show max (matmul dot_S5000x128_S128x128_S5000x128_1_0_0_1_n_n none x w (constant (F := Ideal) S5000x128 .f32 0x00000000#32) (ix2 p q)
      + broadcastTo S5000x128 (shapeCast S1x128 b shapeCasts_S1x128_S1x128) broadcasts_S1x128_S5000x128 (ix2 p q)) Spec.zeroE = _
  rw [tile_matmul_apply, bias_rows_apply]

theorem pay_eq_layers (x0 : Vec Ideal S5000x128 .f32) (w1 : Vec Ideal S128x128 .f32) (b1 : Vec Ideal S1x128 .f32)
    (w2 : Vec Ideal S128x128 .f32) (b2 : Vec Ideal S1x128 .f32) :
    k0_pay1 x0 w1 b1 w2 b2 = denseClamp (denseClamp x0 w1 b1) w2 b2 := rfl

theorem pay_apply (x0 : Vec Ideal S5000x128 .f32) (w1 : Vec Ideal S128x128 .f32) (b1 : Vec Ideal S1x128 .f32)
    (w2 : Vec Ideal S128x128 .f32) (b2 : Vec Ideal S1x128 .f32) (r : Fin 5000) (f : Fin 128) :
    k0_pay1 x0 w1 b1 w2 b2 (ix2 r f)
      = max ((∑ k : Fin 128, max ((∑ j : Fin 128, x0 (ix2 r j) * w1 (ix2 j k)) + b1 (ix2 0 k)) Spec.zeroE * w2 (ix2 k f)) + b2 (ix2 0 f)) Spec.zeroE := by
  rw [pay_eq_layers, denseClamp_apply]
  simp only [denseClamp_apply]

theorem pay_eq_preH (X : Spec.SN.Idx → EReal) (W1 : Spec.SW.Idx → EReal) (B1 : S1x128.Idx → EReal) (W2 : Spec.SW.Idx → EReal) (B2 : S1x128.Idx → EReal)
    (x0 : Vec Ideal S5000x128 .f32) (w1 : Vec Ideal S128x128 .f32) (b1 : Vec Ideal S1x128 .f32) (w2 : Vec Ideal S128x128 .f32) (b2 : Vec Ideal S1x128 .f32)
    (r : Fin 5000) (R : Fin 100000) (f : Fin 128)
    (hx : ∀ j : Fin 128, x0 (ix2 r j) = X (ix2 R j))
    (hw1 : ∀ j k : Fin 128, w1 (ix2 j k) = W1 (ix2 j k)) (hb1 : ∀ k : Fin 128, b1 (ix2 0 k) = B1 (ix2 0 k))
    (hw2 : ∀ j k : Fin 128, w2 (ix2 j k) = W2 (ix2 j k)) (hb2 : ∀ k : Fin 128, b2 (ix2 0 k) = B2 (ix2 0 k)) :
    k0_pay1 x0 w1 b1 w2 b2 (ix2 r f) = Spec.preH X W1 (fun k => B1 (ix2 0 k)) W2 (fun k => B2 (ix2 0 k)) (ix2 R f) := by
  rw [pay_apply]
  unfold Spec.preH
  rw [Spec.relu_apply, Spec.dense_apply]
  simp only [Spec.relu_apply, Spec.dense_apply, hx, hw1, hb1, hw2, hb2]

theorem zero_offsets : (![0, 0] : Fin 2 → Nat) = fun _ => 0 := funext fun a => by fin_cases a <;> rfl

theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem nodes_tile_apply (c : Dev nD) (t : Fin cfg0.N) (r : Fin 5000) (j : Fin 128) (R : Fin 100000) (hR : R.val = 5000 * t.val + r.val) :
    (iblk0 V c 0 t : Vec Ideal S5000x128 .f32) (ix2 r j) = (V c main_arg0 : Spec.SN.Idx → EReal) (ix2 R j) := by
  obtain ⟨e0, e1, -⟩ := block_indices t
  show V c main_arg0 (((cfg0.win 0).blk t).view.emb (ix2 r j)) = V c main_arg0 (ix2 R j)
  refine congrArg (V c main_arg0) (funext fun a => Fin.ext ?_)
  match a with
  | ⟨0, _⟩ => show win0_0.index t (0 : Fin 2) * 5000 + 1 * r.val = R.val; omega
  | ⟨1, _⟩ => show win0_0.index t (1 : Fin 2) * 128 + 1 * j.val = j.val; omega

theorem w1_block_apply (c : Dev nD) (t : Fin cfg0.N) (j k : Fin 128) :
    (iblk0 V c 1 t : Vec Ideal S128x128 .f32) (ix2 j k) = (V c main_arg3 : Spec.SW.Idx → EReal) (ix2 j k) := by
  obtain ⟨-, -, e0, e1, -⟩ := block_indices t
  show V c main_arg3 (((cfg0.win 1).blk t).view.emb (ix2 j k)) = V c main_arg3 (ix2 j k)
  refine congrArg (V c main_arg3) (funext fun a => Fin.ext ?_)
  match a with
  | ⟨0, _⟩ => show win0_1.index t (0 : Fin 2) * 128 + 1 * j.val = j.val; omega
  | ⟨1, _⟩ => show win0_1.index t (1 : Fin 2) * 128 + 1 * k.val = k.val; omega

theorem b1_block_apply (c : Dev nD) (t : Fin cfg0.N) (k : Fin 128) :
    (iblk0 V c 2 t : Vec Ideal S1x128 .f32) (ix2 0 k) = (V c main_v5 : S1x128.Idx → EReal) (ix2 0 k) := by
  obtain ⟨-, -, -, -, e0, e1, -⟩ := block_indices t
  show V c main_v5 (((cfg0.win 2).blk t).view.emb (ix2 0 k)) = V c main_v5 (ix2 0 k)
  refine congrArg (V c main_v5) (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega

theorem w2_block_apply (c : Dev nD) (t : Fin cfg0.N) (j k : Fin 128) :
    (iblk0 V c 3 t : Vec Ideal S128x128 .f32) (ix2 j k) = (V c main_arg5 : Spec.SW.Idx → EReal) (ix2 j k) := by
  obtain ⟨-, -, -, -, -, -, e0, e1, -⟩ := block_indices t
  show V c main_arg5 (((cfg0.win 3).blk t).view.emb (ix2 j k)) = V c main_arg5 (ix2 j k)
  refine congrArg (V c main_arg5) (funext fun a => Fin.ext ?_)
  match a with
  | ⟨0, _⟩ => show win0_3.index t (0 : Fin 2) * 128 + 1 * j.val = j.val; omega
  | ⟨1, _⟩ => show win0_3.index t (1 : Fin 2) * 128 + 1 * k.val = k.val; omega

theorem b2_block_apply (c : Dev nD) (t : Fin cfg0.N) (k : Fin 128) :
    (iblk0 V c 4 t : Vec Ideal S1x128 .f32) (ix2 0 k) = (V c main_v6 : S1x128.Idx → EReal) (ix2 0 k) := by
  obtain ⟨-, -, -, -, -, -, -, -, e0, e1, -⟩ := block_indices t
  show V c main_v6 (((cfg0.win 4).blk t).view.emb (ix2 0 k)) = V c main_v6 (ix2 0 k)
  refine congrArg (V c main_v6) (funext fun a => Fin.ext ?_)
  match a with
  | ⟨0, _⟩ => show win0_4.index t (0 : Fin 2) * 1 + 1 * 0 = 0; omega
  | ⟨1, _⟩ => show win0_4.index t (1 : Fin 2) * 128 + 1 * k.val = k.val; omega

theorem flushed_eq (c : Dev nD) (t : Fin cfg0.N) :
    (dat0 (F := Ideal) V c).flushed 5 t = ((cfg0.win 5).blk t).view.read (Elt Ideal)
      (Spec.preH (V c main_arg0) (V c main_arg3) (fun f => V c main_v5 (ix2 0 f)) (V c main_arg5) (fun f => V c main_v6 (ix2 0 f))) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets, View.ld_unit_zero (S := S1x128) zero_offsets]
  funext j
  obtain ⟨r, f, rfl⟩ : ∃ (r : Fin 5000) (f : Fin 128), j = ix2 r f := ⟨j 0, j 1, eq_ix2 j⟩
  have hN : t.val < 20 := lt_of_lt_of_eq t.isLt N_0
  obtain ⟨-, -, -, -, -, -, -, -, -, -, e0, e1⟩ := block_indices t
  have eo : ((cfg0.win 5).blk t).view.emb (ix2 r f) = (ix2 (⟨5000 * t.val + r.val, by omega⟩ : Fin 100000) f : Spec.SN.Idx) := by
    funext a; apply Fin.ext
    match a with
    | ⟨0, _⟩ => show win0_5.index t (0 : Fin 2) * 5000 + 1 * r.val = 5000 * t.val + r.val; omega
    | ⟨1, _⟩ => show win0_5.index t (1 : Fin 2) * 128 + 1 * f.val = f.val; omega
  show k0_pay1 (iblk0 V c 0 t) (iblk0 V c 1 t) (iblk0 V c 2 t) (iblk0 V c 3 t) (iblk0 V c 4 t) (ix2 r f)
      = Spec.preH (V c main_arg0) (V c main_arg3) (fun f => V c main_v5 (ix2 0 f)) (V c main_arg5) (fun f => V c main_v6 (ix2 0 f))
          (((cfg0.win 5).blk t).view.emb (ix2 r f))
  rw [eo]
  exact pay_eq_preH (V c main_arg0) (V c main_arg3) (V c main_v5) (V c main_arg5) (V c main_v6)
    (iblk0 V c 0 t) (iblk0 V c 1 t) (iblk0 V c 2 t) (iblk0 V c 3 t) (iblk0 V c 4 t) r ⟨5000 * t.val + r.val, by omega⟩ f
    (fun j => nodes_tile_apply V c t r j _ rfl) (fun j k => w1_block_apply V c t j k) (fun k => b1_block_apply V c t k)
    (fun j k => w2_block_apply V c t j k) (fun k => b2_block_apply V c t k)

theorem mem_out_tile (t : Fin cfg0.N) (i : Spec.SN.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v7).slice (win0_5.rect t)).set ↔ _
  rw [View.set_slice_whole, Rect.mem_set_unit]
  exact Iff.rfl

theorem out_tiles_cover (i : Spec.SN.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e0, e1⟩ := block_indices ⟨(i 0).val / 5000, ht⟩
  refine ⟨⟨(i 0).val / 5000, ht⟩, flush0_5 _, ?_⟩
  rw [mem_out_tile]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]; omega

end R0

theorem arr5_eq (c : Dev nD) :
    (dat0 (F := Ideal) V c).arrAt 5 cfg0.N
      = Spec.preH (V c main_arg0) (V c main_arg3) (fun f => V c main_v5 (ix2 0 f)) (V c main_arg5) (fun f => V c main_v6 (ix2 0 f)) :=
  (dat0 (F := Ideal) V c).arrAt_eq_of_cover 5
    (Spec.preH (V c main_arg0) (V c main_arg3) (fun f => V c main_v5 (ix2 0 f)) (V c main_arg5) (fun f => V c main_v6 (ix2 0 f)))
    (fun t _ => R0.flushed_eq V c t) R0.out_tiles_cover

end Cert.KernelIdeal.Hand

end
-- ==== Proof.LibRowOps.lean ====
import Idealize.ShloMosaic.PureOps
import Idealize.ShloMosaic.PureOps.Ideal
import Idealize.ShloMosaic.Lib.ValueIdx
import Idealize.ShloMosaic.Lib.ValueIdxRank1
import Idealize.ShloMosaic.Lib.ValueLayout
import Idealize.ShloMosaic.Lib.Pipeline.Value

noncomputable section

namespace Cert.RowOps

open Idealize.ShloMosaic Idealize.ShloMosaic.ValueIdx

section Gather
variable {α : Type}

abbrev rowGather (N M n : Nat)
    (wf : GatherDims.WF ⟨2, ![N, M]⟩ ⟨2, ![n, 1]⟩ ⟨2, ![n, M]⟩ [1] [0] [] [0] [] 1 ![1, M]) :
    GatherDims ⟨2, ![N, M]⟩ ⟨2, ![n, 1]⟩ ⟨2, ![n, M]⟩ where
  offsetDims := [1]
  collapsedSliceDims := [0]
  operandBatchingDims := []
  startIndicesBatchingDims := []
  startIndexMap := [0]
  indexVectorDim := 1
  sliceSizes := ![1, M]
  wf := wf

theorem rowGather_apply {N M n w : Nat} (hN : 0 < N)
    (wf : GatherDims.WF ⟨2, ![N, M]⟩ ⟨2, ![n, 1]⟩ ⟨2, ![n, M]⟩ [1] [0] [] [0] [] 1 ![1, M])
    (T : (⟨2, ![N, M]⟩ : Shape).Idx → α) (idx : IVec ⟨2, ![n, 1]⟩ w) (e : Fin n) (k : Fin M) :
    Host.gather (rowGather N M n wf) T idx (ix2 e k)
      = T (ix2 ⟨min (idx (ix2 e 0)).toInt.toNat (N - 1), by omega⟩ k) := by
  unfold Host.gather
  congr 1
  funext a
  refine Fin.ext ?_
  match a with
  | ⟨0, _⟩ =>
    show (rowGather N M n wf).start (ix2 e k) idx 0 + (rowGather N M n wf).batchCoord (ix2 e k) 0
      + (rowGather N M n wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M n wf).startIndexMap from List.mem_singleton.mpr rfl)]
    have hsi : (rowGather N M n wf).siIdx (ix2 e k) ⟨List.idxOf (0 : Fin 2) (rowGather N M n wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N M n wf).start (ix2 e k) idx 1 + (rowGather N M n wf).batchCoord (ix2 e k) 1
      + (rowGather N M n wf).offCoord (ix2 e k) 1 = k.val
    have h1 : (rowGather N M n wf).start (ix2 e k) idx 1 = 0 := by
      unfold GatherDims.start
      exact dif_neg (fun h => Nat.one_ne_zero (congrArg Fin.val (List.mem_singleton.mp h)))
    have h2 : (rowGather N M n wf).offCoord (ix2 e k) 1 = k.val := by
      unfold GatherDims.offCoord
      rw [dif_pos ((GatherDims.mem_sKept _ _).mpr
        ⟨fun h => Nat.one_ne_zero (congrArg Fin.val (List.mem_singleton.mp h)), List.not_mem_nil⟩)]
      rfl
    rw [h1, GatherDims.batchCoord_eq_zero _ _ _ List.not_mem_nil, h2]
    omega

theorem gather_rows_apply {N M n w : Nat} (hN : 0 < N)
    (d : GatherDims ⟨2, ![N, M]⟩ ⟨2, ![n, 1]⟩ ⟨2, ![n, M]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, M])
    (T : (⟨2, ![N, M]⟩ : Shape).Idx → α) (idx : IVec ⟨2, ![n, 1]⟩ w) (e : Fin n) (k : Fin M) :
    Host.gather d T idx (ix2 e k) = T (ix2 ⟨min (idx (ix2 e 0)).toInt.toNat (N - 1), by omega⟩ k) := by
  obtain ⟨od, cd, ob, sb, sm, iv, ss, wf⟩ := d
  dsimp only at hod hcd hob hsb hsm hiv hss
  subst hod hcd hob hsb hsm hiv hss
  exact rowGather_apply hN wf T idx e k

end Gather

section Scatter

abbrev rowScatter (G M n : Nat)
    (wf : ScatterDims.WF ⟨2, ![G, M]⟩ ⟨2, ![n, 1]⟩ ⟨2, ![n, M]⟩ [1] [0] [0] 1) :
    ScatterDims ⟨2, ![G, M]⟩ ⟨2, ![n, 1]⟩ ⟨2, ![n, M]⟩ where
  updateWindowDims := [1]
  insertedWindowDims := [0]
  scatterDimsToOperandDims := [0]
  indexVectorDim := 1
  wf := wf

theorem scatter_mem_sKept {s si u : Shape} (d : ScatterDims s si u) (a : Fin s.rank) :
    a ∈ d.sKept ↔ a ∉ d.insertedWindowDims := by
  simp [ScatterDims.sKept, Shape.kept, List.mem_filter, List.mem_finRange]

variable {G M n w : Nat} (wf : ScatterDims.WF ⟨2, ![G, M]⟩ ⟨2, ![n, 1]⟩ ⟨2, ![n, M]⟩ [1] [0] [0] 1)
  (idx : IVec ⟨2, ![n, 1]⟩ w) (e : Fin n) (k : Fin M)

theorem rowScatter_start0 : (rowScatter G M n wf).start (ix2 e k) idx 0 = (idx (ix2 e 0)).toInt := by
  unfold ScatterDims.start
  rw [dif_pos (show (0 : Fin 2) ∈ (rowScatter G M n wf).scatterDimsToOperandDims from List.mem_singleton.mpr rfl)]
  have hsi : (rowScatter G M n wf).siIdx (ix2 e k) ⟨List.idxOf (0 : Fin 2) (rowScatter G M n wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowScatter_start1 : (rowScatter G M n wf).start (ix2 e k) idx 1 = 0 := by
  unfold ScatterDims.start
  exact dif_neg (fun h => Nat.one_ne_zero (congrArg Fin.val (List.mem_singleton.mp h)))

theorem rowScatter_window0 : (rowScatter G M n wf).window (ix2 e k) 0 = 0 := by
  unfold ScatterDims.window
  exact dif_neg (fun h => (scatter_mem_sKept _ _).mp h (List.mem_singleton.mpr rfl))

theorem rowScatter_window1 : (rowScatter G M n wf).window (ix2 e k) 1 = k.val := by
  unfold ScatterDims.window
  rw [dif_pos ((scatter_mem_sKept _ _).mpr (fun h => Nat.one_ne_zero (congrArg Fin.val (List.mem_singleton.mp h))))]
  rfl

theorem rowScatter_resultIdx?_iff (g : Fin G) (f : Fin M) :
    (rowScatter G M n wf).resultIdx? (ix2 e k) idx = some (ix2 g f)
      ↔ (idx (ix2 e 0)).toInt = (g.val : Int) ∧ k = f := by
  have h0 := rowScatter_start0 wf idx e k
  have h1 := rowScatter_start1 wf idx e k
  have w0 := rowScatter_window0 wf e k
  have w1 := rowScatter_window1 wf e k
  have hg := g.isLt
  have hk := k.isLt
  unfold ScatterDims.resultIdx?
  constructor
  · intro h
    split at h
    · next hall =>
      have heq := Option.some.inj h
      have v0 : ((rowScatter G M n wf).start (ix2 e k) idx 0 + ((rowScatter G M n wf).window (ix2 e k) 0 : Nat)).toNat = g.val :=
        congrArg Fin.val (congrFun heq 0)
      have v1 : ((rowScatter G M n wf).start (ix2 e k) idx 1 + ((rowScatter G M n wf).window (ix2 e k) 1 : Nat)).toNat = f.val :=
        congrArg Fin.val (congrFun heq 1)
      have a0 := (hall 0).1
      rw [h0, w0] at v0 a0
      rw [h1, w1] at v1
      exact ⟨by omega, Fin.ext (by omega)⟩
    · exact absurd h (by simp)
  · rintro ⟨hgi, rfl⟩
    have hall : ∀ a, 0 ≤ (rowScatter G M n wf).start (ix2 e k) idx a + ((rowScatter G M n wf).window (ix2 e k) a : Nat)
        ∧ (rowScatter G M n wf).start (ix2 e k) idx a + ((rowScatter G M n wf).window (ix2 e k) a : Nat)
          < ((⟨2, ![G, M]⟩ : Shape).size a : Nat) := by
      intro a
      match a with
      | ⟨0, _⟩ =>
        show 0 ≤ (rowScatter G M n wf).start (ix2 e k) idx 0 + ((rowScatter G M n wf).window (ix2 e k) 0 : Nat)
          ∧ (rowScatter G M n wf).start (ix2 e k) idx 0 + ((rowScatter G M n wf).window (ix2 e k) 0 : Nat) < (G : Int)
        rw [h0, w0]; omega
      | ⟨1, _⟩ =>
        show 0 ≤ (rowScatter G M n wf).start (ix2 e k) idx 1 + ((rowScatter G M n wf).window (ix2 e k) 1 : Nat)
          ∧ (rowScatter G M n wf).start (ix2 e k) idx 1 + ((rowScatter G M n wf).window (ix2 e k) 1 : Nat) < (M : Int)
        rw [h1, w1]; omega
    rw [dif_pos hall]
    refine congrArg some ?_
    funext a
    refine Fin.ext ?_
    match a with
    | ⟨0, _⟩ =>
      show ((rowScatter G M n wf).start (ix2 e k) idx 0 + ((rowScatter G M n wf).window (ix2 e k) 0 : Nat)).toNat = g.val
      rw [h0, w0]; omega
    | ⟨1, _⟩ =>
      show ((rowScatter G M n wf).start (ix2 e k) idx 1 + ((rowScatter G M n wf).window (ix2 e k) 1 : Nat)).toNat = k.val
      rw [h1, w1]; omega

theorem rowScatter_apply (x : (⟨2, ![G, M]⟩ : Shape).Idx → EReal) (upd : (⟨2, ![n, M]⟩ : Shape).Idx → EReal)
    (g : Fin G) (f : Fin M) :
    Ideal.hostScatterAdd (rowScatter G M n wf) x idx upd (ix2 g f)
      = x (ix2 g f) + ∑ e : Fin n, if (idx (ix2 e 0)).toInt = (g.val : Int) then upd (ix2 e f) else 0 := by
  unfold Ideal.hostScatterAdd
  congr 1
  rw [Finset.sum_filter, sum_idx2]
  refine Finset.sum_congr rfl (fun e _ => ?_)
  simp only [rowScatter_resultIdx?_iff wf idx e _ g f]
  by_cases hg : (idx (ix2 e 0)).toInt = (g.val : Int)
  · simp only [hg, true_and, Finset.sum_ite_eq', Finset.mem_univ, if_true]
  · simp only [hg, false_and, if_false, Finset.sum_const_zero]

end Scatter

theorem scatterAdd_rows_apply {G M n w : Nat}
    (d : ScatterDims ⟨2, ![G, M]⟩ ⟨2, ![n, 1]⟩ ⟨2, ![n, M]⟩)
    (huw : d.updateWindowDims = [1]) (hiw : d.insertedWindowDims = [0]) (hsd : d.scatterDimsToOperandDims = [0])
    (hiv : d.indexVectorDim = 1)
    (x : (⟨2, ![G, M]⟩ : Shape).Idx → EReal) (idx : IVec ⟨2, ![n, 1]⟩ w) (upd : (⟨2, ![n, M]⟩ : Shape).Idx → EReal)
    (g : Fin G) (f : Fin M) :
    Ideal.hostScatterAdd d x idx upd (ix2 g f)
      = x (ix2 g f) + ∑ e : Fin n, if (idx (ix2 e 0)).toInt = (g.val : Int) then upd (ix2 e f) else 0 := by
  obtain ⟨uw, iw, sd, iv, wf⟩ := d
  dsimp only at huw hiw hsd hiv
  subst huw hiw hsd hiv
  exact rowScatter_apply wf idx x upd g f

section ScatterElts

theorem sum_idx1 {A : Type*} [AddCommMonoid A] {n : Nat} (F : (⟨1, ![n]⟩ : Shape).Idx → A) :
    ∑ i, F i = ∑ a : Fin n, F (ix1 a) := by
  rw [← Equiv.sum_comp (idxEquiv1 (n := n)).symm F]
  rfl

abbrev eltScatter (G n : Nat)
    (wf : ScatterDims.WF ⟨1, ![G]⟩ ⟨2, ![n, 1]⟩ ⟨1, ![n]⟩ [] [0] [0] 1) :
    ScatterDims ⟨1, ![G]⟩ ⟨2, ![n, 1]⟩ ⟨1, ![n]⟩ where
  updateWindowDims := []
  insertedWindowDims := [0]
  scatterDimsToOperandDims := [0]
  indexVectorDim := 1
  wf := wf

variable {G n w : Nat} (wf : ScatterDims.WF ⟨1, ![G]⟩ ⟨2, ![n, 1]⟩ ⟨1, ![n]⟩ [] [0] [0] 1)
  (idx : IVec ⟨2, ![n, 1]⟩ w) (e : Fin n)

theorem eltScatter_start0 : (eltScatter G n wf).start (ix1 e) idx 0 = (idx (ix2 e 0)).toInt := by
  unfold ScatterDims.start
  rw [dif_pos (show (0 : Fin 1) ∈ (eltScatter G n wf).scatterDimsToOperandDims from List.mem_singleton.mpr rfl)]
  have hsi : (eltScatter G n wf).siIdx (ix1 e) ⟨List.idxOf (0 : Fin 1) (eltScatter G n wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem eltScatter_window0 : (eltScatter G n wf).window (ix1 e) 0 = 0 := by
  unfold ScatterDims.window
  exact dif_neg (fun h => (scatter_mem_sKept _ _).mp h (List.mem_singleton.mpr rfl))

theorem eltScatter_resultIdx?_iff (g : Fin G) :
    (eltScatter G n wf).resultIdx? (ix1 e) idx = some (ix1 g) ↔ (idx (ix2 e 0)).toInt = (g.val : Int) := by
  have h0 := eltScatter_start0 wf idx e
  have w0 := eltScatter_window0 wf e
  have hg := g.isLt
  unfold ScatterDims.resultIdx?
  constructor
  · intro h
    split at h
    · next hall =>
      have heq := Option.some.inj h
      have v0 : ((eltScatter G n wf).start (ix1 e) idx 0 + ((eltScatter G n wf).window (ix1 e) 0 : Nat)).toNat = g.val :=
        congrArg Fin.val (congrFun heq 0)
      have a0 := (hall 0).1
      rw [h0, w0] at v0 a0
      omega
    · exact absurd h (by simp)
  · intro hgi
    have hall : ∀ a, 0 ≤ (eltScatter G n wf).start (ix1 e) idx a + ((eltScatter G n wf).window (ix1 e) a : Nat)
        ∧ (eltScatter G n wf).start (ix1 e) idx a + ((eltScatter G n wf).window (ix1 e) a : Nat)
          < ((⟨1, ![G]⟩ : Shape).size a : Nat) := by
      intro a
      match a with
      | ⟨0, _⟩ =>
        show 0 ≤ (eltScatter G n wf).start (ix1 e) idx 0 + ((eltScatter G n wf).window (ix1 e) 0 : Nat)
          ∧ (eltScatter G n wf).start (ix1 e) idx 0 + ((eltScatter G n wf).window (ix1 e) 0 : Nat) < (G : Int)
        rw [h0, w0]; omega
    rw [dif_pos hall]
    refine congrArg some ?_
    funext a
    refine Fin.ext ?_
    match a with
    | ⟨0, _⟩ =>
      show ((eltScatter G n wf).start (ix1 e) idx 0 + ((eltScatter G n wf).window (ix1 e) 0 : Nat)).toNat = g.val
      rw [h0, w0]; omega

theorem eltScatter_apply (x : (⟨1, ![G]⟩ : Shape).Idx → EReal) (upd : (⟨1, ![n]⟩ : Shape).Idx → EReal) (g : Fin G) :
    Ideal.hostScatterAdd (eltScatter G n wf) x idx upd (ix1 g)
      = x (ix1 g) + ∑ e : Fin n, if (idx (ix2 e 0)).toInt = (g.val : Int) then upd (ix1 e) else 0 := by
  unfold Ideal.hostScatterAdd
  congr 1
  rw [Finset.sum_filter, sum_idx1]
  exact Finset.sum_congr rfl (fun e _ => if_congr (eltScatter_resultIdx?_iff wf idx e g) rfl rfl)

end ScatterElts

theorem scatterAdd_elts_apply {G n w : Nat}
    (d : ScatterDims ⟨1, ![G]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![G]⟩ : Shape).Idx → EReal) (idx : IVec ⟨2, ![n, 1]⟩ w) (upd : (⟨1, ![n]⟩ : Shape).Idx → EReal)
    (g : Fin G) :
    Ideal.hostScatterAdd d x idx upd (ix1 g)
      = x (ix1 g) + ∑ e : Fin n, if (idx (ix2 e 0)).toInt = (g.val : Int) then upd (ix1 e) else 0 := by
  obtain ⟨uw, iw, sd, iv, wf⟩ := d
  dsimp only at huw hiw hsd hiv
  subst huw hiw hsd hiv
  exact eltScatter_apply wf idx x upd g

end Cert.RowOps

end
-- ==== Proof.RefVal.lean ====
import proofs.«421016_j46033459478730_2_alg».proof.Proof.Gen.ReferenceIdeal.Read
import proofs.«421016_j46033459478730_2_alg».proof.Proof.Spec
import proofs.«421016_j46033459478730_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefVal

open Cert.ReferenceIdeal Cert.ReferenceIdeal.Gen Cert.ReferenceIdeal.Read
open Idealize.ShloMosaic Idealize.ShloMosaic.TcCoe Idealize.ShloMosaic.ValueIdx Idealize.SL.Sem

variable (x0 : (⟨S100000x128, .f32⟩ : BufTy).Contents (Elt Ideal))
  (x1 : (⟨S2x1600000, .i32⟩ : BufTy).Contents (Elt Ideal))
  (x2 : (⟨S100000, .i32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S3x128x128, .f32⟩ : BufTy).Contents (Elt Ideal))
  (x8 : (⟨S3x128, .f32⟩ : BufTy).Contents (Elt Ideal))
  (x9 : (⟨S3x128x128, .f32⟩ : BufTy).Contents (Elt Ideal))
  (x10 : (⟨S3x128, .f32⟩ : BufTy).Contents (Elt Ideal))
  (x11 : (⟨S3, .f32⟩ : BufTy).Contents (Elt Ideal))

theorem h0_eq : val_main_v13 (F := Ideal) x0 x3 x4 x5 x6 = Spec.preH x0 x3 (fun f => x4 (ix1 f)) x5 (fun f => x6 (ix1 f)) := by
  funext i
  obtain ⟨r, f, rfl⟩ : ∃ r f, i = ix2 r f := ⟨i 0, i 1, eq_ix2 i⟩
  have e9l : ∀ k : Fin 128, lidx_main_v9 (ix2 r f) k = ix2 r k := fun k => funext fun a => Fin.ext (by
    match a with | ⟨0, _⟩ => rfl | ⟨1, _⟩ => rfl)
  have e9r : ∀ k : Fin 128, ridx_main_v9 (ix2 r f) k = ix2 k f := fun k => funext fun a => Fin.ext (by
    match a with | ⟨0, _⟩ => rfl | ⟨1, _⟩ => rfl)
  have e4l : ∀ k k' : Fin 128, lidx_main_v4 (ix2 r k) k' = ix2 r k' := fun k k' => funext fun a => Fin.ext (by
    match a with | ⟨0, _⟩ => rfl | ⟨1, _⟩ => rfl)
  have e4r : ∀ k k' : Fin 128, ridx_main_v4 (ix2 r k) k' = ix2 k' k := fun k k' => funext fun a => Fin.ext (by
    match a with | ⟨0, _⟩ => rfl | ⟨1, _⟩ => rfl)
  have e6 : ∀ k : Fin 128, idx_main_v5 (idx_main_v6 (ix2 r k)) = ix1 k := fun k => funext fun a => Fin.ext (by
    match a with | ⟨0, _⟩ => rfl)
  have e11 : idx_main_v10 (idx_main_v11 (ix2 r f)) = ix1 f := funext fun a => Fin.ext (by
    match a with | ⟨0, _⟩ => rfl)
  simp only [val_main_v13_apply, val_main_v12_apply, val_main_v9_apply, val_main_v11_apply, val_main_v10_apply,
    val_main_call1_v0_apply, val_main_call1_cst_apply, val_main_v8_apply, val_main_v7_apply, val_main_v4_apply,
    val_main_v6_apply, val_main_v5_apply, val_main_call0_v0_apply, val_main_call0_cst_apply,
    e9l, e9r, e4l, e4r, e6, e11,
    Spec.preH, Spec.relu_apply, Spec.dense_apply, Spec.zeroE, Ideal.maximumf_def, Ideal.addf_def, Ideal.ofBits_def]

theorem h1_eq : val_main_v46 (F := Ideal) x0 x1 x3 x4 x5 x6 x7 x8 x9 x10 x11
    = Spec.layerH (val_main_v25 (F := Ideal) x11 ix0) (val_main_v13 (F := Ideal) x0 x3 x4 x5 x6) (val_main_v23 (F := Ideal) x0 x1 x3 x4 x5 x6)
        (val_main_v31 (F := Ideal) x7) (fun f => val_main_v34 (F := Ideal) x8 (ix1 f)) (val_main_v40 (F := Ideal) x9) (fun f => val_main_v43 (F := Ideal) x10 (ix1 f)) := by
  funext i
  obtain ⟨r, f, rfl⟩ : ∃ r f, i = ix2 r f := ⟨i 0, i 1, eq_ix2 i⟩
  have e2l : ∀ k : Fin 128, lidx_main_v41 (ix2 r f) k = ix2 r k := fun k => funext fun a => Fin.ext (by
    match a with | ⟨0, _⟩ => rfl | ⟨1, _⟩ => rfl)
  have e2r : ∀ k : Fin 128, ridx_main_v41 (ix2 r f) k = ix2 k f := fun k => funext fun a => Fin.ext (by
    match a with | ⟨0, _⟩ => rfl | ⟨1, _⟩ => rfl)
  have e1l : ∀ k k' : Fin 128, lidx_main_v32 (ix2 r k) k' = ix2 r k' := fun k k' => funext fun a => Fin.ext (by
    match a with | ⟨0, _⟩ => rfl | ⟨1, _⟩ => rfl)
  have e1r : ∀ k k' : Fin 128, ridx_main_v32 (ix2 r k) k' = ix2 k' k := fun k k' => funext fun a => Fin.ext (by
    match a with | ⟨0, _⟩ => rfl | ⟨1, _⟩ => rfl)
  have eb1 : ∀ k : Fin 128, idx_main_v35 (idx_main_v36 (ix2 r k)) = ix1 k := fun k => funext fun a => Fin.ext (by
    match a with | ⟨0, _⟩ => rfl)
  have eb2 : idx_main_v44 (idx_main_v45 (ix2 r f)) = ix1 f := funext fun a => Fin.ext (by
    match a with | ⟨0, _⟩ => rfl)
  have ee : ∀ j : S100000x128.Idx, idx_main_v27 j = ix0 := fun j => eq_ix0 _
  simp only [val_main_v46_apply, val_main_v41_apply, val_main_v45_apply, val_main_v44_apply,
    val_main_v38_apply, val_main_call2_v0_apply, val_main_call2_cst_apply, val_main_v37_apply, val_main_v32_apply,
    val_main_v36_apply, val_main_v35_apply, val_main_v29_apply, val_main_v28_apply, val_main_v27_apply,
    val_main_v26_apply, val_main_cst_1_apply,
    e2l, e2r, e1l, e1r, eb1, eb2, ee,
    Spec.layerH, Spec.relu_apply, Spec.dense_apply, Spec.mix_apply, Spec.zeroE, Spec.oneE,
    Ideal.maximumf_def, Ideal.addf_def, Ideal.mulf_def, Ideal.ofBits_def]

theorem p1_eq : val_main_v49 (F := Ideal) x0 x1 x2 x3 x4 x5 x6 x7 x8 x9 x10 x11 = Spec.poolOf (val_main_v46 (F := Ideal) x0 x1 x3 x4 x5 x6 x7 x8 x9 x10 x11) (fun r => x2 (ix1 r)) := by
  funext j
  obtain ⟨g, f, rfl⟩ : ∃ g f, j = ix2 g f := ⟨j 0, j 1, eq_ix2 j⟩
  have eid : ∀ e : Fin 100000, idx_main_v48 (ix2 e 0) = ix1 e := fun e => funext fun a => Fin.ext (by
    match a with | ⟨0, _⟩ => rfl)
  unfold val_main_v49 Host.scatterAdd
  rw [Ideal.hostScatterAdd_def,
    Cert.RowOps.scatterAdd_rows_apply scatter_S64x128_S100000x1_S100000x128_1_0_0_1 rfl rfl rfl rfl]
  simp only [val_main_v47_apply, val_main_cst_2_apply, Ideal.ofBits_def, Ideal.ofBits_zero_f32, zero_add,
    val_main_v48_apply, eid, Spec.poolOf_apply]

theorem h2_eq : val_main_v82 (F := Ideal) x0 x1 x3 x4 x5 x6 x7 x8 x9 x10 x11
    = Spec.layerH (val_main_v61 (F := Ideal) x11 ix0) (val_main_v46 (F := Ideal) x0 x1 x3 x4 x5 x6 x7 x8 x9 x10 x11) (val_main_v59 (F := Ideal) x0 x1 x3 x4 x5 x6 x7 x8 x9 x10 x11)
        (val_main_v67 (F := Ideal) x7) (fun f => val_main_v70 (F := Ideal) x8 (ix1 f)) (val_main_v76 (F := Ideal) x9) (fun f => val_main_v79 (F := Ideal) x10 (ix1 f)) := by
  funext i
  obtain ⟨r, f, rfl⟩ : ∃ r f, i = ix2 r f := ⟨i 0, i 1, eq_ix2 i⟩
  have e2l : ∀ k : Fin 128, lidx_main_v77 (ix2 r f) k = ix2 r k := fun k => funext fun a => Fin.ext (by
    match a with | ⟨0, _⟩ => rfl | ⟨1, _⟩ => rfl)
  have e2r : ∀ k : Fin 128, ridx_main_v77 (ix2 r f) k = ix2 k f := fun k => funext fun a => Fin.ext (by
    match a with | ⟨0, _⟩ => rfl | ⟨1, _⟩ => rfl)
  have e1l : ∀ k k' : Fin 128, lidx_main_v68 (ix2 r k) k' = ix2 r k' := fun k k' => funext fun a => Fin.ext (by
    match a with | ⟨0, _⟩ => rfl | ⟨1, _⟩ => rfl)
  have e1r : ∀ k k' : Fin 128, ridx_main_v68 (ix2 r k) k' = ix2 k' k := fun k k' => funext fun a => Fin.ext (by
    match a with | ⟨0, _⟩ => rfl | ⟨1, _⟩ => rfl)
  have eb1 : ∀ k : Fin 128, idx_main_v71 (idx_main_v72 (ix2 r k)) = ix1 k := fun k => funext fun a => Fin.ext (by
    match a with | ⟨0, _⟩ => rfl)
  have eb2 : idx_main_v80 (idx_main_v81 (ix2 r f)) = ix1 f := funext fun a => Fin.ext (by
    match a with | ⟨0, _⟩ => rfl)
  have ee : ∀ j : S100000x128.Idx, idx_main_v63 j = ix0 := fun j => eq_ix0 _
  simp only [val_main_v82_apply, val_main_v77_apply, val_main_v81_apply, val_main_v80_apply,
    val_main_v74_apply, val_main_call3_v0_apply, val_main_call3_cst_apply, val_main_v73_apply, val_main_v68_apply,
    val_main_v72_apply, val_main_v71_apply, val_main_v65_apply, val_main_v64_apply, val_main_v63_apply,
    val_main_v62_apply, val_main_cst_6_apply,
    e2l, e2r, e1l, e1r, eb1, eb2, ee,
    Spec.layerH, Spec.relu_apply, Spec.dense_apply, Spec.mix_apply, Spec.zeroE, Spec.oneE,
    Ideal.maximumf_def, Ideal.addf_def, Ideal.mulf_def, Ideal.ofBits_def]

theorem p2_eq : val_main_v85 (F := Ideal) x0 x1 x2 x3 x4 x5 x6 x7 x8 x9 x10 x11 = Spec.poolOf (val_main_v82 (F := Ideal) x0 x1 x3 x4 x5 x6 x7 x8 x9 x10 x11) (fun r => x2 (ix1 r)) := by
  funext j
  obtain ⟨g, f, rfl⟩ : ∃ g f, j = ix2 g f := ⟨j 0, j 1, eq_ix2 j⟩
  have eid : ∀ e : Fin 100000, idx_main_v84 (ix2 e 0) = ix1 e := fun e => funext fun a => Fin.ext (by
    match a with | ⟨0, _⟩ => rfl)
  unfold val_main_v85 Host.scatterAdd
  rw [Ideal.hostScatterAdd_def,
    Cert.RowOps.scatterAdd_rows_apply scatter_S64x128_S100000x1_S100000x128_1_0_0_1 rfl rfl rfl rfl]
  simp only [val_main_v83_apply, val_main_cst_7_apply, Ideal.ofBits_def, Ideal.ofBits_zero_f32, zero_add,
    val_main_v84_apply, eid, Spec.poolOf_apply]

theorem h3_eq : val_main_v118 (F := Ideal) x0 x1 x3 x4 x5 x6 x7 x8 x9 x10 x11
    = Spec.layerH (val_main_v97 (F := Ideal) x11 ix0) (val_main_v82 (F := Ideal) x0 x1 x3 x4 x5 x6 x7 x8 x9 x10 x11) (val_main_v95 (F := Ideal) x0 x1 x3 x4 x5 x6 x7 x8 x9 x10 x11)
        (val_main_v103 (F := Ideal) x7) (fun f => val_main_v106 (F := Ideal) x8 (ix1 f)) (val_main_v112 (F := Ideal) x9) (fun f => val_main_v115 (F := Ideal) x10 (ix1 f)) := by
  funext i
  obtain ⟨r, f, rfl⟩ : ∃ r f, i = ix2 r f := ⟨i 0, i 1, eq_ix2 i⟩
  have e2l : ∀ k : Fin 128, lidx_main_v113 (ix2 r f) k = ix2 r k := fun k => funext fun a => Fin.ext (by
    match a with | ⟨0, _⟩ => rfl | ⟨1, _⟩ => rfl)
  have e2r : ∀ k : Fin 128, ridx_main_v113 (ix2 r f) k = ix2 k f := fun k => funext fun a => Fin.ext (by
    match a with | ⟨0, _⟩ => rfl | ⟨1, _⟩ => rfl)
  have e1l : ∀ k k' : Fin 128, lidx_main_v104 (ix2 r k) k' = ix2 r k' := fun k k' => funext fun a => Fin.ext (by
    match a with | ⟨0, _⟩ => rfl | ⟨1, _⟩ => rfl)
  have e1r : ∀ k k' : Fin 128, ridx_main_v104 (ix2 r k) k' = ix2 k' k := fun k k' => funext fun a => Fin.ext (by
    match a with | ⟨0, _⟩ => rfl | ⟨1, _⟩ => rfl)
  have eb1 : ∀ k : Fin 128, idx_main_v107 (idx_main_v108 (ix2 r k)) = ix1 k := fun k => funext fun a => Fin.ext (by
    match a with | ⟨0, _⟩ => rfl)
  have eb2 : idx_main_v116 (idx_main_v117 (ix2 r f)) = ix1 f := funext fun a => Fin.ext (by
    match a with | ⟨0, _⟩ => rfl)
  have ee : ∀ j : S100000x128.Idx, idx_main_v99 j = ix0 := fun j => eq_ix0 _
  simp only [val_main_v118_apply, val_main_v113_apply, val_main_v117_apply, val_main_v116_apply,
    val_main_v110_apply, val_main_call4_v0_apply, val_main_call4_cst_apply, val_main_v109_apply, val_main_v104_apply,
    val_main_v108_apply, val_main_v107_apply, val_main_v101_apply, val_main_v100_apply, val_main_v99_apply,
    val_main_v98_apply, val_main_cst_11_apply,
    e2l, e2r, e1l, e1r, eb1, eb2, ee,
    Spec.layerH, Spec.relu_apply, Spec.dense_apply, Spec.mix_apply, Spec.zeroE, Spec.oneE,
    Ideal.maximumf_def, Ideal.addf_def, Ideal.mulf_def, Ideal.ofBits_def]

theorem p3_eq : val_main_v121 (F := Ideal) x0 x1 x2 x3 x4 x5 x6 x7 x8 x9 x10 x11 = Spec.poolOf (val_main_v118 (F := Ideal) x0 x1 x3 x4 x5 x6 x7 x8 x9 x10 x11) (fun r => x2 (ix1 r)) := by
  funext j
  obtain ⟨g, f, rfl⟩ : ∃ g f, j = ix2 g f := ⟨j 0, j 1, eq_ix2 j⟩
  have eid : ∀ e : Fin 100000, idx_main_v120 (ix2 e 0) = ix1 e := fun e => funext fun a => Fin.ext (by
    match a with | ⟨0, _⟩ => rfl)
  unfold val_main_v121 Host.scatterAdd
  rw [Ideal.hostScatterAdd_def,
    Cert.RowOps.scatterAdd_rows_apply scatter_S64x128_S100000x1_S100000x128_1_0_0_1 rfl rfl rfl rfl]
  simp only [val_main_v119_apply, val_main_cst_12_apply, Ideal.ofBits_def, Ideal.ofBits_zero_f32, zero_add,
    val_main_v120_apply, eid, Spec.poolOf_apply]

end Cert.ReferenceIdeal.RefVal

end
-- ==== Proof.KIHost0.lean ====
import proofs.«421016_j46033459478730_2_alg».proof.Proof.KIRun
import proofs.«421016_j46033459478730_2_alg».proof.Proof.KIVal0
import proofs.«421016_j46033459478730_2_alg».proof.Proof.RefVal
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ)

namespace R0

theorem entry_kept (c : Dev nD) (r : Ref sig .tc) (h : r ∉ hostOps0_W) : VV1 m c r = m ((c.tc : Thread nD τ).loc r) :=
  (Gen.V1_of m c r h).trans rfl

theorem entry_b1 (c : Dev nD) :
    (VV1 m c main_v5 : S1x128.Idx → EReal) = shapeCast S1x128 (m ((c.tc : Thread nD τ).loc main_arg4) : S128.Idx → EReal) shapeCasts_S128_S1x128 := by
  show StableHlo.after hostOps0 (fun b => m (c, b)) (Proc.devRef .tc main_v5) = _
  after_results
  rfl

theorem entry_b2 (c : Dev nD) :
    (VV1 m c main_v6 : S1x128.Idx → EReal) = shapeCast S1x128 (m ((c.tc : Thread nD τ).loc main_arg6) : S128.Idx → EReal) shapeCasts_S128_S1x128 := by
  show StableHlo.after hostOps0 (fun b => m (c, b)) (Proc.devRef .tc main_v6) = _
  after_results
  rfl

end R0

theorem h0K (c : Dev nD) :
    U2 m c main_v7 = Cert.ReferenceIdeal.Read.val_main_v13 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) := by
  have e1 : U2 m c main_v7 = (dat0 (VV1 m) c).arrAt 5 cfg0.N :=
    (Function.update_self _ _ _).trans
      (Pipeline.withArrays_arr spec0 launch0.win.arr_inj c (Gen.V1 m c) (fun w => (dat0 (VV1 m) c).arrAt w cfg0.N) 5)
  refine e1.trans ((arr5_eq (VV1 m) c).trans ?_)
  rw [Cert.ReferenceIdeal.RefVal.h0_eq]
  have hb1 : (fun f : Fin 128 => VV1 m c main_v5 (ix2 0 f)) = fun f => m ((c.tc : Thread nD τ).loc main_arg4) (ix1 f) :=
    funext fun f => by rw [R0.entry_b1]; exact shapeCast_a_1a_apply _ _ 0 f
  have hb2 : (fun f : Fin 128 => VV1 m c main_v6 (ix2 0 f)) = fun f => m ((c.tc : Thread nD τ).loc main_arg6) (ix1 f) :=
    funext fun f => by rw [R0.entry_b2]; exact shapeCast_a_1a_apply _ _ 0 f
  rw [R0.entry_kept m c main_arg0 (by decide), R0.entry_kept m c main_arg3 (by decide), R0.entry_kept m c main_arg5 (by decide), hb1, hb2]

end Cert.KernelIdeal.Hand

end
-- ==== Proof.KIVal1H.lean ====
import proofs.«421016_j46033459478730_2_alg».proof.Proof.KIReg1
import proofs.«421016_j46033459478730_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand.R1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Pieces
variable {F : FTy → Type} [FloatOps F]
variable (c : Dev nD) (i : grid1.Coords) (arg1 : Memref sig .tc .vmem S5000x128 .bf16) (harg1 : arg1.IsWhole) (arg2 : Memref sig .tc .vmem S5000x128 .f32) (harg2 : arg2.IsWhole) (arg3 : Memref sig .tc .vmem S5000x1 .i32) (harg3 : arg3.IsWhole) (arg4 : Memref sig .tc .vmem S1x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S5000x128 .bf16) (harg9 : arg9.IsWhole) (arg10 : Memref sig .tc .vmem S64x128 .f32) (harg10 : arg10.IsWhole)

theorem hz : (![0, 0] : Fin 2 → Nat) = fun _ => 0 := funext fun a => by fin_cases a <;> rfl

theorem out_A_8_eq (hc0 : cond i) (x0 : Vec F S5000x128 .bf16) (x1 : Vec F S5000x128 .f32) (x2 : Vec F S5000x1 .i32) (x3 : Vec F S1x1 .f32) (x4 : Vec F S128x128 .f32) (x5 : Vec F S1x128 .f32) (x6 : Vec F S128x128 .f32) (x7 : Vec F S1x128 .f32) :
    out_A_8 c i arg1 harg1 arg2 harg2 arg3 harg3 arg4 harg4 arg5 harg5 arg6 harg6 arg7 harg7 arg8 harg8 arg9 harg9 arg10 harg10 hc0 x0 x1 x2 x3 x4 x5 x6 x7 = k1_pay4 x0 x1 x3 x4 x5 x6 x7 := by
  unfold out_A_8
  rw [View.read_writes_eq_canon _ _ _ (cover_A_8 c i arg1 harg1 arg2 harg2 arg3 harg3 arg4 harg4 arg5 harg5 arg6 harg6 arg7 harg7 arg8 harg8 arg9 harg9 arg10 harg10 hc0 x0 x1 x2 x3 x4 x5 x6 x7)]
  unfold kernelRun_A
  dsimp only
  sl_unfold_words
  rw [View.canon_unit_zero hz]
  simp only [View.readAt_eq_ld, harg1.read_unread, harg2.read_unread, harg4.read_unread, harg5.read_unread, harg6.read_unread,
    harg7.read_unread, harg8.read_unread, View.ld_unit_zero (S := S5000x128) hz, View.ld_unit_zero (S := S1x1) hz,
    View.ld_unit_zero (S := S128x128) hz, View.ld_unit_zero (S := S1x128) hz]

theorem out_B_8_eq (hc0 : ¬cond i) (x0 : Vec F S5000x128 .bf16) (x1 : Vec F S5000x128 .f32) (x2 : Vec F S5000x1 .i32) (x3 : Vec F S1x1 .f32) (x4 : Vec F S128x128 .f32) (x5 : Vec F S1x128 .f32) (x6 : Vec F S128x128 .f32) (x7 : Vec F S1x128 .f32) (xo9 : Vec F S64x128 .f32) :
    out_B_8 c i arg1 harg1 arg2 harg2 arg3 harg3 arg4 harg4 arg5 harg5 arg6 harg6 arg7 harg7 arg8 harg8 arg9 harg9 arg10 harg10 hc0 x0 x1 x2 x3 x4 x5 x6 x7 xo9 = k1_pay4 x0 x1 x3 x4 x5 x6 x7 := by
  unfold out_B_8
  rw [View.read_writes_eq_canon _ _ _ (cover_B_8 c i arg1 harg1 arg2 harg2 arg3 harg3 arg4 harg4 arg5 harg5 arg6 harg6 arg7 harg7 arg8 harg8 arg9 harg9 arg10 harg10 hc0 x0 x1 x2 x3 x4 x5 x6 x7 xo9)]
  unfold kernelRun_B
  dsimp only
  sl_unfold_words
  rw [View.canon_unit_zero hz]
  simp only [View.readAt_eq_ld, harg1.read_unread, harg2.read_unread, harg4.read_unread, harg5.read_unread, harg6.read_unread,
    harg7.read_unread, harg8.read_unread, View.ld_unit_zero (S := S5000x128) hz, View.ld_unit_zero (S := S1x1) hz,
    View.ld_unit_zero (S := S128x128) hz, View.ld_unit_zero (S := S1x128) hz]

end Pieces

section Payload

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem mm_apply (a : FVec Ideal S5000x128 .bf16) (W : FVec Ideal S128x128 .bf16) (r : Fin 5000) (f : Fin 128) :
    matmul dot_S5000x128_S128x128_S5000x128_1_0_0_1_n_n none a W (constant S5000x128 .f32 0x00000000#32) (ix2 r f)
      = ∑ k : Fin 128, a (ix2 r k) * W (ix2 k f) := by
  refine (Ideal.matmul_constant_zero_apply dot_S5000x128_S128x128_S5000x128_1_0_0_1_n_n none a W (ix2 r f)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r f) ((contrEquiv1 dot_S5000x128_S128x128_S5000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 r f) ((contrEquiv1 dot_S5000x128_S128x128_S5000x128_1_0_0_1_n_n 128 rfl rfl).symm k) = ix2 k f := funext fun a => Fin.ext (by
    match a with
    | ⟨0, _⟩ => exact (rhs_dot_0 _ _).trans hk
    | ⟨1, _⟩ => exact rhs_dot_1 _ _)
  rw [el, er]

theorem bias_apply (b : FVec Ideal S1x128 .f32) (r : Fin 5000) (f : Fin 128) :
    broadcastTo S5000x128 b broadcasts_S1x128_S5000x128 (ix2 r f) = b (ix2 0 f) :=
  broadcastTo_apply b broadcasts_S1x128_S5000x128 (ix2 r f) (ix2 0 f) (fun a => by
    match a with
    | ⟨0, _⟩ => rfl
    | ⟨1, _⟩ => rfl)

theorem scal_apply (e : FVec Ideal S1x1 .f32) (r : Fin 5000) (f : Fin 128) :
    broadcastTo S5000x128 e broadcasts_S1x1_S5000x128 (ix2 r f) = e (ix2 0 0) :=
  broadcastTo_apply e broadcasts_S1x1_S5000x128 (ix2 r f) (ix2 0 0) (fun a => by
    match a with
    | ⟨0, _⟩ => rfl
    | ⟨1, _⟩ => rfl)

theorem dense_blk (a : FVec Ideal S5000x128 .bf16) (W : FVec Ideal S128x128 .bf16) (b : FVec Ideal S1x128 .f32) (r : Fin 5000) (f : Fin 128) :
    addf (matmul dot_S5000x128_S128x128_S5000x128_1_0_0_1_n_n none a W (constant S5000x128 .f32 0x00000000#32)) (broadcastTo S5000x128 b broadcasts_S1x128_S5000x128) (ix2 r f)
      = (∑ k : Fin 128, a (ix2 r k) * W (ix2 k f)) + b (ix2 0 f) := by
  rw [addf_apply, mm_apply, bias_apply]

theorem pay3_apply (x0 : FVec Ideal S5000x128 .bf16) (x1 : FVec Ideal S5000x128 .f32) (x3 : FVec Ideal S1x1 .f32) (x4 : FVec Ideal S128x128 .f32) (x5 : FVec Ideal S1x128 .f32) (x6 : FVec Ideal S128x128 .f32) (x7 : FVec Ideal S1x128 .f32) (r : Fin 5000) (f : Fin 128) :
    k1_pay3 (F := Ideal) x0 x1 x3 x4 x5 x6 x7 (ix2 r f)
      = (∑ k : Fin 128, max ((∑ j : Fin 128, ((Spec.oneE + x3 (ix2 0 0)) * x0 (ix2 r j) + x1 (ix2 r j)) * x4 (ix2 j k)) + x5 (ix2 0 k)) Spec.zeroE * x6 (ix2 k f)) + x7 (ix2 0 f) := by
  unfold k1_pay3
  simp only [shapeCast_self]
  refine (dense_blk _ _ _ r f).trans ?_
  refine congrArg (· + x7 (ix2 0 f)) (Finset.sum_congr rfl fun k _ => ?_)
  refine congrArg (· * x6 (ix2 k f)) ?_
  refine congrArg (max · Spec.zeroE) ?_
  refine (dense_blk _ _ _ r k).trans ?_
  refine congrArg (· + x5 (ix2 0 k)) (Finset.sum_congr rfl fun j _ => ?_)
  refine congrArg (· * x4 (ix2 j k)) ?_
  refine congrArg (· + x1 (ix2 r j)) ?_
  refine congrArg (· * x0 (ix2 r j)) ?_
  exact scal_apply _ r j

theorem pay4_apply (x0 : FVec Ideal S5000x128 .bf16) (x1 : FVec Ideal S5000x128 .f32) (x3 : FVec Ideal S1x1 .f32) (x4 : FVec Ideal S128x128 .f32) (x5 : FVec Ideal S1x128 .f32) (x6 : FVec Ideal S128x128 .f32) (x7 : FVec Ideal S1x128 .f32) (r : Fin 5000) (f : Fin 128) :
    k1_pay4 (F := Ideal) x0 x1 x3 x4 x5 x6 x7 (ix2 r f)
      = (∑ k : Fin 128, max ((∑ j : Fin 128, ((Spec.oneE + x3 (ix2 0 0)) * x0 (ix2 r j) + x1 (ix2 r j)) * x4 (ix2 j k)) + x5 (ix2 0 k)) Spec.zeroE * x6 (ix2 k f)) + x7 (ix2 0 f) :=
  pay3_apply x0 x1 x3 x4 x5 x6 x7 r f

end Payload

section Blocks

variable (V : (c : Dev nD) → (b : Ref sig .tc) → Buf (Elt Ideal) ((c : Thread nD τ).loc b))

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem rows_apply (c : Dev nD) (t : Fin cfg1.N) (r : Fin 5000) (j : Fin 128) (R : Fin 100000) (hR : R.val = t.val * 5000 + r.val) :
    (iblk V c 0 t : FVec Ideal S5000x128 .bf16) (ix2 r j) = (V c (Pipeline.arrRef spec1 0) : Spec.SN.Idx → EReal) (ix2 R j) := by
  unfold iblk
  rw [View.read_apply]
  show (V c (Pipeline.arrRef spec1 0) : Spec.SN.Idx → EReal) (((cfg1.win 0).blk t).view.emb (ix2 r j)) = _
  refine congrArg (V c (Pipeline.arrRef spec1 0) : Spec.SN.Idx → EReal) (funext fun a => Fin.ext ?_)
  obtain ⟨e00, e01, e10, e11, -⟩ := idx_facts t
  match a with
  | ⟨0, _⟩ => show win1_0.index t (0 : Fin 2) * 5000 + 1 * r.val = R.val; rw [e00, hR]; omega
  | ⟨1, _⟩ => show win1_0.index t (1 : Fin 2) * 128 + 1 * j.val = j.val; rw [e01]; omega

theorem sums_apply (c : Dev nD) (t : Fin cfg1.N) (r : Fin 5000) (j : Fin 128) (R : Fin 100000) (hR : R.val = t.val * 5000 + r.val) :
    (iblk V c 1 t : FVec Ideal S5000x128 .f32) (ix2 r j) = (V c (Pipeline.arrRef spec1 1) : Spec.SN.Idx → EReal) (ix2 R j) := by
  unfold iblk
  rw [View.read_apply]
  show (V c (Pipeline.arrRef spec1 1) : Spec.SN.Idx → EReal) (((cfg1.win 1).blk t).view.emb (ix2 r j)) = _
  refine congrArg (V c (Pipeline.arrRef spec1 1) : Spec.SN.Idx → EReal) (funext fun a => Fin.ext ?_)
  obtain ⟨e00, e01, e10, e11, -⟩ := idx_facts t
  match a with
  | ⟨0, _⟩ => show win1_1.index t (0 : Fin 2) * 5000 + 1 * r.val = R.val; rw [e10, hR]; omega
  | ⟨1, _⟩ => show win1_1.index t (1 : Fin 2) * 128 + 1 * j.val = j.val; rw [e11]; omega

theorem eps_apply (c : Dev nD) (t : Fin cfg1.N) (p : Fin 1) (q : Fin 1) :
    (iblk V c 3 t : FVec Ideal S1x1 .f32) (ix2 p q) = (V c (Pipeline.arrRef spec1 3) : S1x1.Idx → EReal) (ix2 p q) := by
  unfold iblk
  rw [View.read_apply]
  show (V c (Pipeline.arrRef spec1 3) : S1x1.Idx → EReal) (((cfg1.win 3).blk t).view.emb (ix2 p q)) = _
  refine congrArg (V c (Pipeline.arrRef spec1 3) : S1x1.Idx → EReal) (funext fun a => Fin.ext ?_)
  obtain ⟨-, -, -, -, e30, e31, e40, e41, e50, e51, e60, e61, e70, e71, -⟩ := idx_facts t
  match a with
  | ⟨0, _⟩ => show win1_3.index t (0 : Fin 2) * 1 + 1 * p.val = p.val; rw [e30]; omega
  | ⟨1, _⟩ => show win1_3.index t (1 : Fin 2) * 1 + 1 * q.val = q.val; rw [e31]; omega

theorem wA_apply (c : Dev nD) (t : Fin cfg1.N) (p : Fin 128) (q : Fin 128) :
    (iblk V c 4 t : FVec Ideal S128x128 .f32) (ix2 p q) = (V c (Pipeline.arrRef spec1 4) : S128x128.Idx → EReal) (ix2 p q) := by
  unfold iblk
  rw [View.read_apply]
  show (V c (Pipeline.arrRef spec1 4) : S128x128.Idx → EReal) (((cfg1.win 4).blk t).view.emb (ix2 p q)) = _
  refine congrArg (V c (Pipeline.arrRef spec1 4) : S128x128.Idx → EReal) (funext fun a => Fin.ext ?_)
  obtain ⟨-, -, -, -, e30, e31, e40, e41, e50, e51, e60, e61, e70, e71, -⟩ := idx_facts t
  match a with
  | ⟨0, _⟩ => show win1_4.index t (0 : Fin 2) * 128 + 1 * p.val = p.val; rw [e40]; omega
  | ⟨1, _⟩ => show win1_4.index t (1 : Fin 2) * 128 + 1 * q.val = q.val; rw [e41]; omega

theorem bA_apply (c : Dev nD) (t : Fin cfg1.N) (p : Fin 1) (q : Fin 128) :
    (iblk V c 5 t : FVec Ideal S1x128 .f32) (ix2 p q) = (V c (Pipeline.arrRef spec1 5) : S1x128.Idx → EReal) (ix2 p q) := by
  unfold iblk
  rw [View.read_apply]
  show (V c (Pipeline.arrRef spec1 5) : S1x128.Idx → EReal) (((cfg1.win 5).blk t).view.emb (ix2 p q)) = _
  refine congrArg (V c (Pipeline.arrRef spec1 5) : S1x128.Idx → EReal) (funext fun a => Fin.ext ?_)
  obtain ⟨-, -, -, -, e30, e31, e40, e41, e50, e51, e60, e61, e70, e71, -⟩ := idx_facts t
  match a with
  | ⟨0, _⟩ => show win1_5.index t (0 : Fin 2) * 1 + 1 * p.val = p.val; rw [e50]; omega
  | ⟨1, _⟩ => show win1_5.index t (1 : Fin 2) * 128 + 1 * q.val = q.val; rw [e51]; omega

theorem wB_apply (c : Dev nD) (t : Fin cfg1.N) (p : Fin 128) (q : Fin 128) :
    (iblk V c 6 t : FVec Ideal S128x128 .f32) (ix2 p q) = (V c (Pipeline.arrRef spec1 6) : S128x128.Idx → EReal) (ix2 p q) := by
  unfold iblk
  rw [View.read_apply]
  show (V c (Pipeline.arrRef spec1 6) : S128x128.Idx → EReal) (((cfg1.win 6).blk t).view.emb (ix2 p q)) = _
  refine congrArg (V c (Pipeline.arrRef spec1 6) : S128x128.Idx → EReal) (funext fun a => Fin.ext ?_)
  obtain ⟨-, -, -, -, e30, e31, e40, e41, e50, e51, e60, e61, e70, e71, -⟩ := idx_facts t
  match a with
  | ⟨0, _⟩ => show win1_6.index t (0 : Fin 2) * 128 + 1 * p.val = p.val; rw [e60]; omega
  | ⟨1, _⟩ => show win1_6.index t (1 : Fin 2) * 128 + 1 * q.val = q.val; rw [e61]; omega

theorem bB_apply (c : Dev nD) (t : Fin cfg1.N) (p : Fin 1) (q : Fin 128) :
    (iblk V c 7 t : FVec Ideal S1x128 .f32) (ix2 p q) = (V c (Pipeline.arrRef spec1 7) : S1x128.Idx → EReal) (ix2 p q) := by
  unfold iblk
  rw [View.read_apply]
  show (V c (Pipeline.arrRef spec1 7) : S1x128.Idx → EReal) (((cfg1.win 7).blk t).view.emb (ix2 p q)) = _
  refine congrArg (V c (Pipeline.arrRef spec1 7) : S1x128.Idx → EReal) (funext fun a => Fin.ext ?_)
  obtain ⟨-, -, -, -, e30, e31, e40, e41, e50, e51, e60, e61, e70, e71, -⟩ := idx_facts t
  match a with
  | ⟨0, _⟩ => show win1_7.index t (0 : Fin 2) * 1 + 1 * p.val = p.val; rw [e70]; omega
  | ⟨1, _⟩ => show win1_7.index t (1 : Fin 2) * 128 + 1 * q.val = q.val; rw [e71]; omega

theorem tile_eq (e : EReal) (h agg : Spec.SN.Idx → EReal) (W1 : Spec.SW.Idx → EReal) (b1 : Fin 128 → EReal)
    (W2 : Spec.SW.Idx → EReal) (b2 : Fin 128 → EReal)
    (x0 : FVec Ideal S5000x128 .bf16) (x1 : FVec Ideal S5000x128 .f32) (x3 : FVec Ideal S1x1 .f32) (x4 : FVec Ideal S128x128 .f32)
    (x5 : FVec Ideal S1x128 .f32) (x6 : FVec Ideal S128x128 .f32) (x7 : FVec Ideal S1x128 .f32)
    (r : Fin 5000) (f : Fin 128) (R : Fin 100000)
    (h0 : ∀ j : Fin 128, x0 (ix2 r j) = h (ix2 R j)) (h1 : ∀ j : Fin 128, x1 (ix2 r j) = agg (ix2 R j))
    (h3 : x3 (ix2 0 0) = e) (h4 : ∀ j k : Fin 128, x4 (ix2 j k) = W1 (ix2 j k)) (h5 : ∀ k : Fin 128, x5 (ix2 0 k) = b1 k)
    (h6 : ∀ j k : Fin 128, x6 (ix2 j k) = W2 (ix2 j k)) (h7 : ∀ k : Fin 128, x7 (ix2 0 k) = b2 k) :
    k1_pay4 (F := Ideal) x0 x1 x3 x4 x5 x6 x7 (ix2 r f) = Spec.layerH e h agg W1 b1 W2 b2 (ix2 R f) := by
  rw [pay4_apply]
  show _ = (∑ k : Fin 128, max ((∑ j : Fin 128, ((Spec.oneE + e) * h (ix2 R j) + agg (ix2 R j)) * W1 (ix2 j k)) + b1 k) Spec.zeroE * W2 (ix2 k f)) + b2 f
  simp only [h0, h1, h3, h4, h5, h6, h7]

abbrev layerOf (c : Dev nD) : Spec.SN.Idx → EReal :=
  Spec.layerH (V c (Pipeline.arrRef spec1 3) (ix2 0 0)) (V c (Pipeline.arrRef spec1 0)) (V c (Pipeline.arrRef spec1 1))
    (V c (Pipeline.arrRef spec1 4)) (fun f => V c (Pipeline.arrRef spec1 5) (ix2 0 f))
    (V c (Pipeline.arrRef spec1 6)) (fun f => V c (Pipeline.arrRef spec1 7) (ix2 0 f))

theorem outs_eq (c : Dev nD) (t : Fin cfg1.N) :
    (outsAt V c t.val t.isLt).1 = k1_pay4 (F := Ideal) (iblk V c 0 t) (iblk V c 1 t) (iblk V c 3 t) (iblk V c 4 t) (iblk V c 5 t) (iblk V c 6 t) (iblk V c 7 t) := by
  by_cases h0 : t.val % 20 = 0
  · rw [outsAt_A V c t h0]
    dsimp only [stepA]
    exact out_A_8_eq (F := Ideal) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t)
  · rw [outsAt_B V c t h0]
    dsimp only [stepB]
    exact out_B_8_eq (F := Ideal) c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2

theorem flushed_eq (c : Dev nD) (t : Fin cfg1.N) :
    (dat (F := Ideal) V c).flushed 8 t = ((cfg1.win 8).blk t).view.read (Elt Ideal) (layerOf V c) := by
  show (cfg1.win 8).cut (grid1.coords t) ((dat (F := Ideal) V c).after 8 t) = _
  rw [after_8, outs_eq]
  funext y
  obtain ⟨r, f, rfl⟩ : ∃ (r : Fin 5000) (f : Fin 128), y = ix2 r f := ⟨y 0, y 1, eq_ix2 y⟩
  rw [View.read_apply]
  have hN : t.val < 20 := lt_of_lt_of_eq t.isLt (show cfg1.N = 20 from N_1)
  obtain ⟨R, hR⟩ : ∃ R : Fin 100000, R.val = t.val * 5000 + r.val := ⟨⟨t.val * 5000 + r.val, by omega⟩, rfl⟩
  obtain ⟨-, -, -, -, -, -, -, -, -, -, -, -, -, -, e80, e81⟩ := idx_facts t
  have hemb : ((cfg1.win 8).blk t).view.emb (ix2 r f) = (ix2 R f : Spec.SN.Idx) := funext fun a => Fin.ext (by
    match a with
    | ⟨0, _⟩ => show win1_8.index t (0 : Fin 2) * 5000 + 1 * r.val = R.val; rw [e80, hR]; omega
    | ⟨1, _⟩ => show win1_8.index t (1 : Fin 2) * 128 + 1 * f.val = f.val; rw [e81]; omega)
  show k1_pay4 (F := Ideal) (iblk V c 0 t) (iblk V c 1 t) (iblk V c 3 t) (iblk V c 4 t) (iblk V c 5 t) (iblk V c 6 t) (iblk V c 7 t) (ix2 r f)
    = layerOf V c (((cfg1.win 8).blk t).view.emb (ix2 r f))
  rw [hemb]
  exact tile_eq (V c (Pipeline.arrRef spec1 3) (ix2 0 0)) (V c (Pipeline.arrRef spec1 0)) (V c (Pipeline.arrRef spec1 1))
    (V c (Pipeline.arrRef spec1 4)) (fun f => V c (Pipeline.arrRef spec1 5) (ix2 0 f))
    (V c (Pipeline.arrRef spec1 6)) (fun f => V c (Pipeline.arrRef spec1 7) (ix2 0 f))
    (iblk V c 0 t) (iblk V c 1 t) (iblk V c 3 t) (iblk V c 4 t) (iblk V c 5 t) (iblk V c 6 t) (iblk V c 7 t) r f R
    (fun j => rows_apply V c t r j R hR) (fun j => sums_apply V c t r j R hR) (eps_apply V c t 0 0)
    (fun j k => wA_apply V c t j k) (fun k => bA_apply V c t 0 k) (fun j k => wB_apply V c t j k) (fun k => bB_apply V c t 0 k)

end Blocks

section Cover

variable (V : (c : Dev nD) → (b : Ref sig .tc) → Buf (Elt Ideal) ((c : Thread nD τ).loc b))

theorem mem_blk (t : Fin cfg1.N) (i : Spec.SN.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole (Pipeline.arrRef spec1 8)).slice (win1_8.rect t)).set ↔ _
  rw [View.set_slice_whole, Rect.mem_set_unit]
  exact Iff.rfl

theorem cover (i : Spec.SN.Idx) : ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_8 t, ?_⟩
  rw [mem_blk]
  obtain ⟨-, -, -, -, -, -, -, -, -, -, -, -, -, -, e80, e81⟩ := idx_facts t
  intro a
  match a with
  | ⟨0, _⟩ =>
    show win1_8.index t (0 : Fin 2) * 5000 ≤ (i 0).val ∧ (i 0).val < win1_8.index t (0 : Fin 2) * 5000 + 5000
    rw [e80, ht]; omega
  | ⟨1, _⟩ =>
    show win1_8.index t (1 : Fin 2) * 128 ≤ (i 1).val ∧ (i 1).val < win1_8.index t (1 : Fin 2) * 128 + 128
    rw [e81]; omega

end Cover

variable (V : (c : Dev nD) → (b : Ref sig .tc) → Buf (Elt Ideal) ((c : Thread nD τ).loc b))

theorem arr8_eq (c : Dev nD) :
    (dat (F := Ideal) V c).arrAt 8 cfg1.N
      = (Spec.layerH (V c (Pipeline.arrRef spec1 3) (ix2 0 0)) (V c (Pipeline.arrRef spec1 0)) (V c (Pipeline.arrRef spec1 1))
        (V c (Pipeline.arrRef spec1 4)) (fun f => V c (Pipeline.arrRef spec1 5) (ix2 0 f))
        (V c (Pipeline.arrRef spec1 6)) (fun f => V c (Pipeline.arrRef spec1 7) (ix2 0 f))) :=
  (dat (F := Ideal) V c).arrAt_eq_of_cover 8 (layerOf V c) (fun t _ => flushed_eq V c t) cover

end Cert.KernelIdeal.Hand.R1

end
-- ==== Proof.PoolSum.lean ====
import Mathlib.Algebra.BigOperators.Fin
import Mathlib.Data.EReal.Basic
import Idealize.ShloMosaic.PureOps.Ideal

noncomputable section

namespace Cert.PoolSum

open Idealize.ShloMosaic

theorem sum_tiles {M : Type*} [AddCommMonoid M] (n : ℕ) (T : ℕ → M) : ∀ m : ℕ,
    ∑ t ∈ Finset.range m, ∑ r : Fin n, T (n * t + r.val) = ∑ R ∈ Finset.range (m * n), T R
  | 0 => by simp
  | m + 1 => by
    rw [Finset.sum_range_succ, sum_tiles n T m, Nat.succ_mul, Finset.sum_range_add,
      Fin.sum_univ_eq_sum_range (fun x => T (n * m + x)) n, Nat.mul_comm n m]

theorem sum_tiles_fin {M : Type*} [AddCommMonoid M] (m n N : ℕ) (hN : N = m * n) (T : ℕ → M) :
    ∑ t ∈ Finset.range m, ∑ r : Fin n, T (n * t + r.val) = ∑ R : Fin N, T R.val := by
  subst hN
  rw [sum_tiles n T m, Fin.sum_univ_eq_sum_range T (m * n)]

theorem eq_ofNat_iff_toInt (b : BitVec 32) (g : ℕ) (hg : g < 2147483648) :
    b = BitVec.ofNat 32 g ↔ b.toInt = (g : Int) := by
  have hb : (BitVec.ofNat 32 g).toInt = (g : Int) := by
    rw [BitVec.toInt_ofNat']
    exact Int.bmod_eq_of_le_mul_two (by omega) (by omega)
  constructor
  · rintro rfl
    exact hb
  · intro h
    exact BitVec.eq_of_toInt_eq (h.trans hb.symm)

end Cert.PoolSum

end
-- ==== Proof.KIVal1P.lean ====
import proofs.«421016_j46033459478730_2_alg».proof.Proof.KIReg1
import proofs.«421016_j46033459478730_2_alg».proof.Proof.KIVal1H
import proofs.«421016_j46033459478730_2_alg».proof.Proof.Spec
import proofs.«421016_j46033459478730_2_alg».proof.Proof.PoolSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Pieces
variable {F : FTy → Type} [FloatOps F]
variable (c : Dev nD) (i : grid1.Coords) (arg1 : Memref sig .tc .vmem S5000x128 .bf16) (harg1 : arg1.IsWhole) (arg2 : Memref sig .tc .vmem S5000x128 .f32) (harg2 : arg2.IsWhole) (arg3 : Memref sig .tc .vmem S5000x1 .i32) (harg3 : arg3.IsWhole) (arg4 : Memref sig .tc .vmem S1x1 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S5000x128 .bf16) (harg9 : arg9.IsWhole) (arg10 : Memref sig .tc .vmem S64x128 .f32) (harg10 : arg10.IsWhole)

theorem pl_hz : (![0, 0] : Fin 2 → Nat) = fun _ => 0 := funext fun a => by fin_cases a <;> rfl

theorem pl_out_B_9 (hc0 : ¬cond i) (x0 : Vec F S5000x128 .bf16) (x1 : Vec F S5000x128 .f32) (x2 : Vec F S5000x1 .i32) (x3 : Vec F S1x1 .f32) (x4 : Vec F S128x128 .f32) (x5 : Vec F S1x128 .f32) (x6 : Vec F S128x128 .f32) (x7 : Vec F S1x128 .f32) (xo9 : Vec F S64x128 .f32) :
    out_B_9 c i arg1 harg1 arg2 harg2 arg3 harg3 arg4 harg4 arg5 harg5 arg6 harg6 arg7 harg7 arg8 harg8 arg9 harg9 arg10 harg10 hc0 x0 x1 x2 x3 x4 x5 x6 x7 xo9 = k1_pay1 (k1_pay3 x0 x1 x3 x4 x5 x6 x7) x2 xo9 := by
  unfold out_B_9
  rw [View.read_writes_eq_canon _ _ _ (cover_B_9 c i arg1 harg1 arg2 harg2 arg3 harg3 arg4 harg4 arg5 harg5 arg6 harg6 arg7 harg7 arg8 harg8 arg9 harg9 arg10 harg10 hc0 x0 x1 x2 x3 x4 x5 x6 x7 xo9)]
  unfold kernelRun_B
  dsimp only
  sl_unfold_words
  rw [View.canon_unit_zero (S := S64x128) pl_hz]
  simp only [View.readAt_eq_ld, harg1.read_unread, harg2.read_unread, harg3.read_unread, harg4.read_unread, harg5.read_unread, harg6.read_unread, harg7.read_unread, harg8.read_unread, harg10.read_unread,
    View.ld_unit_zero (S := S5000x128) pl_hz, View.ld_unit_zero (S := S5000x1) pl_hz, View.ld_unit_zero (S := S1x1) pl_hz, View.ld_unit_zero (S := S128x128) pl_hz, View.ld_unit_zero (S := S1x128) pl_hz, View.ld_unit_zero (S := S64x128) pl_hz]

theorem pl_out_A_9 (hc0 : cond i) (x0 : Vec F S5000x128 .bf16) (x1 : Vec F S5000x128 .f32) (x2 : Vec F S5000x1 .i32) (x3 : Vec F S1x1 .f32) (x4 : Vec F S128x128 .f32) (x5 : Vec F S1x128 .f32) (x6 : Vec F S128x128 .f32) (x7 : Vec F S1x128 .f32) :
    out_A_9 c i arg1 harg1 arg2 harg2 arg3 harg3 arg4 harg4 arg5 harg5 arg6 harg6 arg7 harg7 arg8 harg8 arg9 harg9 arg10 harg10 hc0 x0 x1 x2 x3 x4 x5 x6 x7 = k1_pay1 (k1_pay3 x0 x1 x3 x4 x5 x6 x7) x2 (k1_pay2 (F := F)) := by
  unfold out_A_9
  rw [View.read_writes_eq_canon _ _ _ (cover_A_9 c i arg1 harg1 arg2 harg2 arg3 harg3 arg4 harg4 arg5 harg5 arg6 harg6 arg7 harg7 arg8 harg8 arg9 harg9 arg10 harg10 hc0 x0 x1 x2 x3 x4 x5 x6 x7)]
  unfold kernelRun_A
  dsimp only
  sl_unfold_words
  rw [View.canon_cons_unit_zero (S := S64x128) pl_hz, View.readCov_unit_zero (S := S64x128) _ pl_hz]
  simp only [View.readAt_eq_ld, harg1.read_unread, harg2.read_unread, harg3.read_unread, harg4.read_unread, harg5.read_unread, harg6.read_unread, harg7.read_unread, harg8.read_unread,
    View.ld_unit_zero (S := S5000x128) pl_hz, View.ld_unit_zero (S := S5000x1) pl_hz, View.ld_unit_zero (S := S1x1) pl_hz, View.ld_unit_zero (S := S128x128) pl_hz, View.ld_unit_zero (S := S1x128) pl_hz]

end Pieces

section PoolPayload

theorem pl_onehot_apply (v37 : Vec Ideal S5000x1 .i32) (r : Fin 5000) (g : Fin 64) :
    (sitofp .f32 (extui 32 (cmpi .eq (broadcastTo S5000x64 (shapeCast S5000x1 v37 shapeCasts_S5000x1_S5000x1) broadcasts_S5000x1_S5000x64)
        (iota .tc S5000x64 32 [1] iota_S5000x64_d1_w32)) natLt_1_32) : FVec Ideal S5000x64 .f32) (ix2 r g)
      = if (v37 (ix2 r 0)).toInt = ((g.val : Nat) : Int) then 1 else 0 := by
  have hb : broadcastTo S5000x64 (shapeCast S5000x1 v37 shapeCasts_S5000x1_S5000x1) broadcasts_S5000x1_S5000x64 (ix2 r g) = v37 (ix2 r 0) := by
    rw [shapeCast_self]
    refine broadcastTo_apply v37 broadcasts_S5000x1_S5000x64 (ix2 r g) (ix2 r 0) fun a => ?_
    match a with
    | ⟨0, _⟩ => rfl
    | ⟨1, _⟩ => rfl
  have hi : iota .tc S5000x64 32 [1] iota_S5000x64_d1_w32 (ix2 r g) = BitVec.ofNat 32 g.val :=
    iota_single_apply .tc S5000x64 32 1 iota_S5000x64_d1_w32 (ix2 r g)
  rw [sitofp_apply, extui_apply]
  show FloatOps.sitofp .f32 ((IntOp.cmpi .eq (broadcastTo S5000x64 (shapeCast S5000x1 v37 shapeCasts_S5000x1_S5000x1) broadcasts_S5000x1_S5000x64 (ix2 r g))
    (iota .tc S5000x64 32 [1] iota_S5000x64_d1_w32 (ix2 r g))).setWidth 32) = _
  rw [hb, hi]
  have hg : g.val < 2147483648 := by have := g.isLt; omega
  by_cases h : v37 (ix2 r 0) = BitVec.ofNat 32 g.val
  · rw [if_pos ((Cert.PoolSum.eq_ofNat_iff_toInt _ _ hg).mp h), h]
    have e : IntOp.cmpi .eq (BitVec.ofNat 32 g.val) (BitVec.ofNat 32 g.val) = 1#1 := by simp [IntOp.cmpi]
    rw [e]
    show (((BitVec.setWidth 32 (1#1)).toInt : ℝ) : EReal) = 1
    rw [show (BitVec.setWidth 32 (1#1)).toInt = 1 from by decide]
    simp
  · rw [if_neg (fun h' => h ((Cert.PoolSum.eq_ofNat_iff_toInt _ _ hg).mpr h'))]
    have hbeq : (v37 (ix2 r 0) == BitVec.ofNat 32 g.val) = false := by rw [beq_eq_false_iff_ne]; exact h
    have e : IntOp.cmpi .eq (v37 (ix2 r 0)) (BitVec.ofNat 32 g.val) = 0#1 := by simp [IntOp.cmpi, hbeq]
    rw [e]
    show (((BitVec.setWidth 32 (0#1)).toInt : ℝ) : EReal) = 0
    rw [show (BitVec.setWidth 32 (0#1)).toInt = 0 from by decide]
    simp

theorem pl_lhs_0 (j : S64x128.Idx) (q : dot_S5000x64_S5000x128_S64x128_0_0_1_1_n_n.contr.Idx) :
    (dot_S5000x64_S5000x128_S64x128_0_0_1_1_n_n.lhsIdx j q 0).val = (q ⟨0, by decide⟩).val :=
  dot_S5000x64_S5000x128_S64x128_0_0_1_1_n_n.lhsIdx_val_of_single rfl j q
theorem pl_lhs_1 (j : S64x128.Idx) (q : dot_S5000x64_S5000x128_S64x128_0_0_1_1_n_n.contr.Idx) :
    (dot_S5000x64_S5000x128_S64x128_0_0_1_1_n_n.lhsIdx j q 1).val = (j 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem pl_rhs_0 (j : S64x128.Idx) (q : dot_S5000x64_S5000x128_S64x128_0_0_1_1_n_n.contr.Idx) :
    (dot_S5000x64_S5000x128_S64x128_0_0_1_1_n_n.rhsIdx j q 0).val = (q ⟨0, by decide⟩).val :=
  dot_S5000x64_S5000x128_S64x128_0_0_1_1_n_n.rhsIdx_val_of_single rfl j q
theorem pl_rhs_1 (j : S64x128.Idx) (q : dot_S5000x64_S5000x128_S64x128_0_0_1_1_n_n.contr.Idx) :
    (dot_S5000x64_S5000x128_S64x128_0_0_1_1_n_n.rhsIdx j q 1).val = (j 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

theorem pl_matmul_apply (A : FVec Ideal S5000x64 .f32) (B : FVec Ideal S5000x128 .f32) (g : Fin 64) (f : Fin 128) :
    matmul dot_S5000x64_S5000x128_S64x128_0_0_1_1_n_n (some .fp32) A B (constant S64x128 .f32 0x00000000#32) (ix2 g f)
      = ∑ r : Fin 5000, A (ix2 r g) * B (ix2 r f) := by
  simp only [matmul]
  rw [Ideal.matmul_constant_zero_apply, ← Equiv.sum_comp (ValueIdx.contrEquiv1 dot_S5000x64_S5000x128_S64x128_0_0_1_1_n_n 5000 rfl rfl).symm]
  refine Finset.sum_congr rfl fun k _ => ?_
  have hk := ValueIdx.contrEquiv1_symm_val dot_S5000x64_S5000x128_S64x128_0_0_1_1_n_n 5000 rfl rfl k
  have el : dot_S5000x64_S5000x128_S64x128_0_0_1_1_n_n.lhsIdx (ix2 g f) ((ValueIdx.contrEquiv1 dot_S5000x64_S5000x128_S64x128_0_0_1_1_n_n 5000 rfl rfl).symm k) = ix2 k g := funext fun a => Fin.ext (by
    match a with
    | ⟨0, _⟩ => exact (pl_lhs_0 _ _).trans hk
    | ⟨1, _⟩ => exact pl_lhs_1 _ _)
  have er : dot_S5000x64_S5000x128_S64x128_0_0_1_1_n_n.rhsIdx (ix2 g f) ((ValueIdx.contrEquiv1 dot_S5000x64_S5000x128_S64x128_0_0_1_1_n_n 5000 rfl rfl).symm k) = ix2 k f := funext fun a => Fin.ext (by
    match a with
    | ⟨0, _⟩ => exact (pl_rhs_0 _ _).trans hk
    | ⟨1, _⟩ => exact pl_rhs_1 _ _)
  rw [el, er]

theorem pl_pay1_apply (v34 : FVec Ideal S5000x128 .f32) (v37 : Vec Ideal S5000x1 .i32) (v45 : Vec Ideal S64x128 .f32) (g : Fin 64) (f : Fin 128) :
    k1_pay1 (F := Ideal) v34 v37 v45 (ix2 g f)
      = v45 (ix2 g f) + ∑ r : Fin 5000, (if (v37 (ix2 r 0)).toInt = ((g.val : Nat) : Int) then v34 (ix2 r f) else 0) := by
  unfold k1_pay1
  dsimp only
  refine (addf_apply _ _ _).trans ?_
  refine congrArg₂ (· + ·) (congrFun (shapeCast_self v45 shapeCasts_S64x128_S64x128) (ix2 g f)) ?_
  refine (pl_matmul_apply _ v34 g f).trans ?_
  refine Finset.sum_congr rfl fun r _ => ?_
  refine (congrArg (· * v34 (ix2 r f)) (pl_onehot_apply v37 r g)).trans ?_
  by_cases h : (v37 (ix2 r 0)).toInt = ((g.val : Nat) : Int)
  · rw [if_pos h, if_pos h, one_mul]
  · rw [if_neg h, if_neg h, zero_mul]

end PoolPayload

section RowPayload

/- The new rows before the last rounding are the graph layer's row: the layer written out, entry by entry. -/
theorem pl_pay3_apply' (x0 : Vec Ideal S5000x128 .bf16) (x1 : Vec Ideal S5000x128 .f32) (x3 : Vec Ideal S1x1 .f32)
    (x4 : Vec Ideal S128x128 .f32) (x5 : Vec Ideal S1x128 .f32) (x6 : Vec Ideal S128x128 .f32) (x7 : Vec Ideal S1x128 .f32)
    (e : EReal) (H A : Spec.SN.Idx → EReal) (W1 : Spec.SW.Idx → EReal) (b1 : Fin 128 → EReal) (W2 : Spec.SW.Idx → EReal) (b2 : Fin 128 → EReal)
    (r : Fin 5000) (R : Fin 100000) (he : x3 (ix2 0 0) = e)
    (hH : ∀ k : Fin 128, x0 (ix2 r k) = H (ix2 R k)) (hA : ∀ k : Fin 128, x1 (ix2 r k) = A (ix2 R k))
    (h4 : x4 = W1) (h5 : ∀ f : Fin 128, x5 (ix2 0 f) = b1 f) (h6 : x6 = W2) (h7 : ∀ f : Fin 128, x7 (ix2 0 f) = b2 f) (f : Fin 128) :
    k1_pay3 (F := Ideal) x0 x1 x3 x4 x5 x6 x7 (ix2 r f) = Spec.layerH e H A W1 b1 W2 b2 (ix2 R f) := by
  subst h4 h6
  rw [pay3_apply]
  show _ = (∑ k : Fin 128, max ((∑ j : Fin 128, ((Spec.oneE + e) * H (ix2 R j) + A (ix2 R j)) * x4 (ix2 j k)) + b1 k) Spec.zeroE * x6 (ix2 k f)) + b2 f
  simp only [he, hH, hA, h5, h7]

end RowPayload

variable (V : (c : Dev nD) → (b : Ref sig .tc) → Buf (Elt Ideal) ((c : Thread nD τ).loc b))

section Blocks

theorem pl_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_9.index t (0 : Fin 2) = 0 ∧ win1_9.index t (1 : Fin 2) = 0 :=
  (by decide +kernel : ∀ t : Fin grid1.N, _)

theorem pl_b0_apply (c : Dev nD) (t : Fin cfg1.N) (r : Fin 5000) (k : Fin 128) (R : Fin 100000) (hR : R.val = 5000 * t.val + r.val) :
    (iblk V c 0 t : Vec Ideal S5000x128 .bf16) (ix2 r k) = (V c (Pipeline.arrRef spec1 0) : Vec Ideal S100000x128 .bf16) (ix2 R k) := by
  obtain ⟨e0, e1, e2, e3, e4, e5, -⟩ := pl_idx t
  unfold iblk
  rw [View.read_apply]
  show V c (Pipeline.arrRef spec1 0) (((cfg1.win 0).blk t).view.emb (ix2 r k)) = V c (Pipeline.arrRef spec1 0) (ix2 R k)
  refine congrArg (V c (Pipeline.arrRef spec1 0)) (funext fun a => Fin.ext ?_)
  match a with
  | ⟨0, _⟩ => show win1_0.index t (0 : Fin 2) * 5000 + 1 * r.val = R.val; rw [e0, hR]; omega
  | ⟨1, _⟩ => show win1_0.index t (1 : Fin 2) * 128 + 1 * k.val = k.val; rw [e1]; omega

theorem pl_b1_apply (c : Dev nD) (t : Fin cfg1.N) (r : Fin 5000) (k : Fin 128) (R : Fin 100000) (hR : R.val = 5000 * t.val + r.val) :
    (iblk V c 1 t : Vec Ideal S5000x128 .f32) (ix2 r k) = (V c (Pipeline.arrRef spec1 1) : Vec Ideal S100000x128 .f32) (ix2 R k) := by
  obtain ⟨e0, e1, e2, e3, e4, e5, -⟩ := pl_idx t
  unfold iblk
  rw [View.read_apply]
  show V c (Pipeline.arrRef spec1 1) (((cfg1.win 1).blk t).view.emb (ix2 r k)) = V c (Pipeline.arrRef spec1 1) (ix2 R k)
  refine congrArg (V c (Pipeline.arrRef spec1 1)) (funext fun a => Fin.ext ?_)
  match a with
  | ⟨0, _⟩ => show win1_1.index t (0 : Fin 2) * 5000 + 1 * r.val = R.val; rw [e2, hR]; omega
  | ⟨1, _⟩ => show win1_1.index t (1 : Fin 2) * 128 + 1 * k.val = k.val; rw [e3]; omega

theorem pl_b2_apply (c : Dev nD) (t : Fin cfg1.N) (r : Fin 5000) (k : Fin 1) (R : Fin 100000) (hR : R.val = 5000 * t.val + r.val) :
    (iblk V c 2 t : Vec Ideal S5000x1 .i32) (ix2 r k) = (V c (Pipeline.arrRef spec1 2) : Vec Ideal S100000x1 .i32) (ix2 R k) := by
  obtain ⟨e0, e1, e2, e3, e4, e5, -⟩ := pl_idx t
  unfold iblk
  rw [View.read_apply]
  show V c (Pipeline.arrRef spec1 2) (((cfg1.win 2).blk t).view.emb (ix2 r k)) = V c (Pipeline.arrRef spec1 2) (ix2 R k)
  refine congrArg (V c (Pipeline.arrRef spec1 2)) (funext fun a => Fin.ext ?_)
  match a with
  | ⟨0, _⟩ => show win1_2.index t (0 : Fin 2) * 5000 + 1 * r.val = R.val; rw [e4, hR]; omega
  | ⟨1, _⟩ => show win1_2.index t (1 : Fin 2) * 1 + 1 * k.val = k.val; rw [e5]; omega

theorem pl_b3_eq (c : Dev nD) (t : Fin cfg1.N) :
    (iblk V c 3 t : Vec Ideal S1x1 .f32) = (V c (Pipeline.arrRef spec1 3) : Vec Ideal S1x1 .f32) := by
  obtain ⟨-, -, -, -, -, -, e6, e7, e8, e9, e10, e11, e12, e13, e14, e15, -⟩ := pl_idx t
  funext j
  obtain ⟨p, q, rfl⟩ : ∃ (p : Fin 1) (q : Fin 1), j = ix2 p q := ⟨j 0, j 1, eq_ix2 j⟩
  unfold iblk
  rw [View.read_apply]
  show V c (Pipeline.arrRef spec1 3) (((cfg1.win 3).blk t).view.emb (ix2 p q)) = V c (Pipeline.arrRef spec1 3) (ix2 p q)
  refine congrArg (V c (Pipeline.arrRef spec1 3)) (funext fun a => Fin.ext ?_)
  match a with
  | ⟨0, _⟩ => show win1_3.index t (0 : Fin 2) * 1 + 1 * p.val = p.val; rw [e6]; omega
  | ⟨1, _⟩ => show win1_3.index t (1 : Fin 2) * 1 + 1 * q.val = q.val; rw [e7]; omega

theorem pl_b4_eq (c : Dev nD) (t : Fin cfg1.N) :
    (iblk V c 4 t : Vec Ideal S128x128 .f32) = (V c (Pipeline.arrRef spec1 4) : Vec Ideal S128x128 .f32) := by
  obtain ⟨-, -, -, -, -, -, e6, e7, e8, e9, e10, e11, e12, e13, e14, e15, -⟩ := pl_idx t
  funext j
  obtain ⟨p, q, rfl⟩ : ∃ (p : Fin 128) (q : Fin 128), j = ix2 p q := ⟨j 0, j 1, eq_ix2 j⟩
  unfold iblk
  rw [View.read_apply]
  show V c (Pipeline.arrRef spec1 4) (((cfg1.win 4).blk t).view.emb (ix2 p q)) = V c (Pipeline.arrRef spec1 4) (ix2 p q)
  refine congrArg (V c (Pipeline.arrRef spec1 4)) (funext fun a => Fin.ext ?_)
  match a with
  | ⟨0, _⟩ => show win1_4.index t (0 : Fin 2) * 128 + 1 * p.val = p.val; rw [e8]; omega
  | ⟨1, _⟩ => show win1_4.index t (1 : Fin 2) * 128 + 1 * q.val = q.val; rw [e9]; omega

theorem pl_b5_eq (c : Dev nD) (t : Fin cfg1.N) :
    (iblk V c 5 t : Vec Ideal S1x128 .f32) = (V c (Pipeline.arrRef spec1 5) : Vec Ideal S1x128 .f32) := by
  obtain ⟨-, -, -, -, -, -, e6, e7, e8, e9, e10, e11, e12, e13, e14, e15, -⟩ := pl_idx t
  funext j
  obtain ⟨p, q, rfl⟩ : ∃ (p : Fin 1) (q : Fin 128), j = ix2 p q := ⟨j 0, j 1, eq_ix2 j⟩
  unfold iblk
  rw [View.read_apply]
  show V c (Pipeline.arrRef spec1 5) (((cfg1.win 5).blk t).view.emb (ix2 p q)) = V c (Pipeline.arrRef spec1 5) (ix2 p q)
  refine congrArg (V c (Pipeline.arrRef spec1 5)) (funext fun a => Fin.ext ?_)
  match a with
  | ⟨0, _⟩ => show win1_5.index t (0 : Fin 2) * 1 + 1 * p.val = p.val; rw [e10]; omega
  | ⟨1, _⟩ => show win1_5.index t (1 : Fin 2) * 128 + 1 * q.val = q.val; rw [e11]; omega

theorem pl_b6_eq (c : Dev nD) (t : Fin cfg1.N) :
    (iblk V c 6 t : Vec Ideal S128x128 .f32) = (V c (Pipeline.arrRef spec1 6) : Vec Ideal S128x128 .f32) := by
  obtain ⟨-, -, -, -, -, -, e6, e7, e8, e9, e10, e11, e12, e13, e14, e15, -⟩ := pl_idx t
  funext j
  obtain ⟨p, q, rfl⟩ : ∃ (p : Fin 128) (q : Fin 128), j = ix2 p q := ⟨j 0, j 1, eq_ix2 j⟩
  unfold iblk
  rw [View.read_apply]
  show V c (Pipeline.arrRef spec1 6) (((cfg1.win 6).blk t).view.emb (ix2 p q)) = V c (Pipeline.arrRef spec1 6) (ix2 p q)
  refine congrArg (V c (Pipeline.arrRef spec1 6)) (funext fun a => Fin.ext ?_)
  match a with
  | ⟨0, _⟩ => show win1_6.index t (0 : Fin 2) * 128 + 1 * p.val = p.val; rw [e12]; omega
  | ⟨1, _⟩ => show win1_6.index t (1 : Fin 2) * 128 + 1 * q.val = q.val; rw [e13]; omega

theorem pl_b7_eq (c : Dev nD) (t : Fin cfg1.N) :
    (iblk V c 7 t : Vec Ideal S1x128 .f32) = (V c (Pipeline.arrRef spec1 7) : Vec Ideal S1x128 .f32) := by
  obtain ⟨-, -, -, -, -, -, e6, e7, e8, e9, e10, e11, e12, e13, e14, e15, -⟩ := pl_idx t
  funext j
  obtain ⟨p, q, rfl⟩ : ∃ (p : Fin 1) (q : Fin 128), j = ix2 p q := ⟨j 0, j 1, eq_ix2 j⟩
  unfold iblk
  rw [View.read_apply]
  show V c (Pipeline.arrRef spec1 7) (((cfg1.win 7).blk t).view.emb (ix2 p q)) = V c (Pipeline.arrRef spec1 7) (ix2 p q)
  refine congrArg (V c (Pipeline.arrRef spec1 7)) (funext fun a => Fin.ext ?_)
  match a with
  | ⟨0, _⟩ => show win1_7.index t (0 : Fin 2) * 1 + 1 * p.val = p.val; rw [e14]; omega
  | ⟨1, _⟩ => show win1_7.index t (1 : Fin 2) * 128 + 1 * q.val = q.val; rw [e15]; omega

end Blocks

section Invariant

abbrev pl_L (c : Dev nD) : Spec.SN.Idx → EReal :=
  Spec.layerH (V c (Pipeline.arrRef spec1 3) (ix2 0 0)) (V c (Pipeline.arrRef spec1 0)) (V c (Pipeline.arrRef spec1 1))
    (V c (Pipeline.arrRef spec1 4)) (fun f => V c (Pipeline.arrRef spec1 5) (ix2 0 f))
    (V c (Pipeline.arrRef spec1 6)) (fun f => V c (Pipeline.arrRef spec1 7) (ix2 0 f))
abbrev pl_bid (c : Dev nD) : Fin 100000 → BitVec 32 := fun r => V c (Pipeline.arrRef spec1 2) (ix2 r 0)

def pl_T (c : Dev nD) (g : Fin 64) (f : Fin 128) (R : ℕ) : EReal :=
  if h : R < 100000 then (if (pl_bid V c ⟨R, h⟩).toInt = ((g.val : Nat) : Int) then pl_L V c (ix2 ⟨R, h⟩ f) else 0) else 0

theorem pl_rows_apply (c : Dev nD) (t : Fin cfg1.N) (r : Fin 5000) (f : Fin 128) (R : Fin 100000) (hR : R.val = 5000 * t.val + r.val) :
    (k1_pay3 (F := Ideal) (iblk V c 0 t) (iblk V c 1 t) (iblk V c 3 t) (iblk V c 4 t) (iblk V c 5 t) (iblk V c 6 t) (iblk V c 7 t)) (ix2 r f) = pl_L V c (ix2 R f) :=
  pl_pay3_apply' (iblk V c 0 t) (iblk V c 1 t) (iblk V c 3 t) (iblk V c 4 t) (iblk V c 5 t) (iblk V c 6 t) (iblk V c 7 t)
    (V c (Pipeline.arrRef spec1 3) (ix2 0 0)) (V c (Pipeline.arrRef spec1 0)) (V c (Pipeline.arrRef spec1 1))
    (V c (Pipeline.arrRef spec1 4)) (fun f => V c (Pipeline.arrRef spec1 5) (ix2 0 f))
    (V c (Pipeline.arrRef spec1 6)) (fun f => V c (Pipeline.arrRef spec1 7) (ix2 0 f)) r R
    (congrFun (pl_b3_eq V c t) (ix2 0 0)) (fun k => pl_b0_apply V c t r k R hR) (fun k => pl_b1_apply V c t r k R hR)
    (pl_b4_eq V c t) (fun f => congrFun (pl_b5_eq V c t) (ix2 0 f)) (pl_b6_eq V c t) (fun f => congrFun (pl_b7_eq V c t) (ix2 0 f)) f

theorem pl_tile (c : Dev nD) (t : Fin cfg1.N) (g : Fin 64) (f : Fin 128) :
    ∑ r : Fin 5000, (if ((iblk V c 2 t : Vec Ideal S5000x1 .i32) (ix2 r 0)).toInt = ((g.val : Nat) : Int)
        then (k1_pay3 (F := Ideal) (iblk V c 0 t) (iblk V c 1 t) (iblk V c 3 t) (iblk V c 4 t) (iblk V c 5 t) (iblk V c 6 t) (iblk V c 7 t)) (ix2 r f) else 0)
      = ∑ r : Fin 5000, pl_T V c g f (5000 * t.val + r.val) := by
  have hN : t.val < 20 := lt_of_lt_of_eq t.isLt N_1
  refine Finset.sum_congr rfl fun r _ => ?_
  have hlt : 5000 * t.val + r.val < 100000 := by have := r.isLt; omega
  unfold pl_T
  rw [dif_pos hlt]
  refine if_congr ?_ (pl_rows_apply V c t r f ⟨5000 * t.val + r.val, hlt⟩ rfl) rfl
  rw [pl_b2_apply V c t r 0 ⟨5000 * t.val + r.val, hlt⟩ rfl]

theorem pl_pay2_apply (g : Fin 64) (f : Fin 128) : k1_pay2 (F := Ideal) (ix2 g f) = 0 := by
  unfold k1_pay2
  exact Ideal.ofBits_zero_f32

theorem pl_outsAt_apply (c : Dev nD) (g : Fin 64) (f : Fin 128) : ∀ (n : ℕ) (hn : n < cfg1.N),
    (outsAt V c n hn).2 (ix2 g f) = ∑ t ∈ Finset.range (n + 1), ∑ r : Fin 5000, pl_T V c g f (5000 * t + r.val)
  | 0, hn => by
    rw [outsAt_A V c ⟨0, hn⟩ rfl]
    dsimp only [stepA]
    refine (congrFun (pl_out_A_9 (F := Ideal) c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩)) (ix2 g f)).trans ?_
    refine (pl_pay1_apply (k1_pay3 (F := Ideal) (iblk V c 0 ⟨0, hn⟩) (iblk V c 1 ⟨0, hn⟩) (iblk V c 3 ⟨0, hn⟩) (iblk V c 4 ⟨0, hn⟩) (iblk V c 5 ⟨0, hn⟩) (iblk V c 6 ⟨0, hn⟩) (iblk V c 7 ⟨0, hn⟩)) (iblk V c 2 ⟨0, hn⟩) (k1_pay2 (F := Ideal)) g f).trans ?_
    rw [pl_pay2_apply, zero_add, Finset.sum_range_one]
    exact pl_tile V c ⟨0, hn⟩ g f
  | n + 1, hn => by
    have hN : cfg1.N = 20 := N_1
    have hB : ¬(⟨n + 1, hn⟩ : Fin cfg1.N).val % 20 = 0 := by dsimp only; omega
    rw [outsAt_B V c ⟨n + 1, hn⟩ hB]
    dsimp only [stepB]
    refine (congrFun (pl_out_B_9 (F := Ideal) c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (fun h => hB ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt V c n (Nat.lt_of_succ_lt hn)).2) (ix2 g f)).trans ?_
    refine (pl_pay1_apply (k1_pay3 (F := Ideal) (iblk V c 0 ⟨n + 1, hn⟩) (iblk V c 1 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩)) (iblk V c 2 ⟨n + 1, hn⟩) (outsAt V c n (Nat.lt_of_succ_lt hn)).2 g f).trans ?_
    rw [pl_outsAt_apply c g f n (Nat.lt_of_succ_lt hn), Finset.sum_range_succ _ (n + 1)]
    exact congrArg _ (pl_tile V c ⟨n + 1, hn⟩ g f)

end Invariant

section Array

theorem pl_last (c : Dev nD) (t : Fin cfg1.N) (h19 : t.val = 19) :
    (outsAt V c t.val t.isLt).2 = (Spec.poolOf (pl_L V c) (pl_bid V c) : Vec Ideal S64x128 .f32) := by
  funext j
  obtain ⟨g, f, rfl⟩ : ∃ (g : Fin 64) (f : Fin 128), j = ix2 g f := ⟨j 0, j 1, eq_ix2 j⟩
  rw [pl_outsAt_apply V c g f t.val t.isLt, h19, Spec.poolOf_apply,
    Cert.PoolSum.sum_tiles_fin 20 5000 100000 rfl (pl_T V c g f)]
  refine Finset.sum_congr rfl fun R _ => ?_
  unfold pl_T
  rw [dif_pos R.isLt]

theorem pl_flushed_eq (c : Dev nD) (t : Fin cfg1.N) (hf : (cfg1.win 9).flush t = true) :
    (dat (F := Ideal) V c).flushed 9 t = ((cfg1.win 9).blk t).view.read (Elt Ideal) (Spec.poolOf (pl_L V c) (pl_bid V c)) := by
  have hN : cfg1.N = 20 := N_1
  have h19 : t.val = 19 := by have := (flush1_9 t).mp hf; have := t.isLt; omega
  show (cfg1.win 9).cut (grid1.coords t) ((dat V c).after 9 t) = _
  rw [after_9, pl_last V c t h19]
  obtain ⟨-, -, -, -, -, -, -, -, -, -, -, -, -, -, -, -, e16, e17⟩ := pl_idx t
  have hz' : (fun a => win1_9.index t a * (Pipeline.arrRef spec1 9).ty.shape.size a) = fun _ => 0 := funext fun a => by
    match a with
    | ⟨0, _⟩ => show win1_9.index t (0 : Fin 2) * 64 = 0; rw [e16]
    | ⟨1, _⟩ => show win1_9.index t (1 : Fin 2) * 128 = 0; rw [e17]
  exact (Memref.read_access_unit_zero (Elt Ideal) (Pipeline.arrRef spec1 9) hz' (fun a => by rw [congrFun hz' a]; simp)
    (Spec.poolOf (pl_L V c) (pl_bid V c))).symm

end Array

theorem arr9_eq (c : Dev nD) :
    (dat (F := Ideal) V c).arrAt 9 cfg1.N
      = Spec.poolOf (Spec.layerH (V c (Pipeline.arrRef spec1 3) (ix2 0 0)) (V c (Pipeline.arrRef spec1 0)) (V c (Pipeline.arrRef spec1 1))
        (V c (Pipeline.arrRef spec1 4)) (fun f => V c (Pipeline.arrRef spec1 5) (ix2 0 f))
        (V c (Pipeline.arrRef spec1 6)) (fun f => V c (Pipeline.arrRef spec1 7) (ix2 0 f)))
          (fun r => V c (Pipeline.arrRef spec1 2) (ix2 r 0)) := by
  have hN : cfg1.N = 20 := N_1
  have h19 : 19 < cfg1.N := by omega
  refine (dat (F := Ideal) V c).arrAt_eq_of_cover 9 (Spec.poolOf (pl_L V c) (pl_bid V c)) (pl_flushed_eq V c) fun i => ?_
  obtain ⟨-, -, -, -, -, -, -, -, -, -, -, -, -, -, -, -, e16, e17⟩ := pl_idx ⟨19, h19⟩
  refine ⟨⟨19, h19⟩, (flush1_9 _).mpr rfl, ?_⟩
  rw [show ((cfg1.win 9).blk ⟨19, h19⟩).view.set = (win1_9.rect ⟨19, h19⟩).set from
    View.set_slice_whole (Pipeline.arrRef spec1 9) (win1_9.rect ⟨19, h19⟩), Rect.mem_set_unit]
  intro a
  have h0 : (i 0 : Nat) < 64 := (i 0).isLt
  have h1 : (i 1 : Nat) < 128 := (i 1).isLt
  match a with
  | ⟨0, _⟩ =>
    show win1_9.index ⟨19, h19⟩ (0 : Fin 2) * 64 ≤ (i 0 : Nat) ∧ (i 0 : Nat) < win1_9.index ⟨19, h19⟩ (0 : Fin 2) * 64 + 64
    rw [e16]; omega
  | ⟨1, _⟩ =>
    show win1_9.index ⟨19, h19⟩ (1 : Fin 2) * 128 ≤ (i 1 : Nat) ∧ (i 1 : Nat) < win1_9.index ⟨19, h19⟩ (1 : Fin 2) * 128 + 128
    rw [e17]; omega

end Cert.KernelIdeal.Hand.R1

end
-- ==== Proof.KIHost1.lean ====
import proofs.«421016_j46033459478730_2_alg».proof.Proof.KIRun
import proofs.«421016_j46033459478730_2_alg».proof.Proof.KIVal1H
import proofs.«421016_j46033459478730_2_alg».proof.Proof.KIVal1P
import proofs.«421016_j46033459478730_2_alg».proof.Proof.RefVal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ)

namespace H1

variable (W : Valuation τ sig (Elt Ideal))

theorem pre_v1 : StableHlo.after hostOps0 W (Proc.devRef .tc main_v1) = Cert.ReferenceIdeal.Read.val_main_v1 (F := Ideal) (W (Proc.devRef .tc main_arg1)) := by
  after_results
  rfl
theorem pre_v3 : StableHlo.after hostOps0 W (Proc.devRef .tc main_v3) = Cert.ReferenceIdeal.Read.val_main_v3 (F := Ideal) (W (Proc.devRef .tc main_arg1)) := by
  after_results
  rfl
theorem pre_v4 (r : Fin 100000) : StableHlo.after hostOps0 W (Proc.devRef .tc main_v4) (ix2 r 0) = W (Proc.devRef .tc main_arg2) (ix1 r) := by
  after_results
  show shapeCast S100000x1 (W (Proc.devRef .tc main_arg2)) shapeCasts_S100000_S100000x1 (ix2 r 0) = _
  exact shapeCast_apply (s := S100000) (t := S100000x1) _ _ _ _ (by rw [Shape.rowMajor_val_one, Shape.rowMajor_val_two]; show r.val = r.val * 1 + 0; omega)

theorem host_v7 : StableHlo.after hostOps1 W (Proc.devRef .tc main_v7) = W (Proc.devRef .tc main_v7) :=
  StableHlo.after_of_writes_sub hostOps1 W hostOps1_writes (by decide)
theorem host_v4 : StableHlo.after hostOps1 W (Proc.devRef .tc main_v4) = W (Proc.devRef .tc main_v4) :=
  StableHlo.after_of_writes_sub hostOps1 W hostOps1_writes (by decide)

theorem host_v23 : StableHlo.after hostOps1 W (Proc.devRef .tc main_v23) = Cert.ReferenceIdeal.Read.val_main_v31 (F := Ideal) (W (Proc.devRef .tc main_arg7)) := by
  after_results
  rfl
theorem host_v27 : StableHlo.after hostOps1 W (Proc.devRef .tc main_v27) = Cert.ReferenceIdeal.Read.val_main_v40 (F := Ideal) (W (Proc.devRef .tc main_arg9)) := by
  after_results
  rfl
theorem host_v30 (f : Fin 128) : StableHlo.after hostOps1 W (Proc.devRef .tc main_v30) (ix2 0 f) = Cert.ReferenceIdeal.Read.val_main_v34 (F := Ideal) (W (Proc.devRef .tc main_arg8)) (ix1 f) := by
  after_results
  show shapeCast S1x128 (Cert.ReferenceIdeal.Read.val_main_v34 (F := Ideal) (W (Proc.devRef .tc main_arg8))) shapeCasts_S128_S1x128 (ix2 0 f) = _
  exact shapeCast_apply _ _ _ _ (by rw [Shape.rowMajor_val_one, Shape.rowMajor_val_two]; show f.val = 0 * 128 + f.val; omega)
theorem host_v31 (f : Fin 128) : StableHlo.after hostOps1 W (Proc.devRef .tc main_v31) (ix2 0 f) = Cert.ReferenceIdeal.Read.val_main_v43 (F := Ideal) (W (Proc.devRef .tc main_arg10)) (ix1 f) := by
  after_results
  show shapeCast S1x128 (Cert.ReferenceIdeal.Read.val_main_v43 (F := Ideal) (W (Proc.devRef .tc main_arg10))) shapeCasts_S128_S1x128 (ix2 0 f) = _
  exact shapeCast_apply _ _ _ _ (by rw [Shape.rowMajor_val_one, Shape.rowMajor_val_two]; show f.val = 0 * 128 + f.val; omega)
theorem host_v21 : StableHlo.after hostOps1 W (Proc.devRef .tc main_v21) (ix2 0 0) = Cert.ReferenceIdeal.Read.val_main_v25 (F := Ideal) (W (Proc.devRef .tc main_arg11)) ix0 := by
  after_results
  show shapeCast S1x1 (Cert.ReferenceIdeal.Read.val_main_v25 (F := Ideal) (W (Proc.devRef .tc main_arg11))) shapeCasts_S_S1x1 (ix2 0 0) = _
  exact shapeCast_apply _ _ _ _ (by rw [Shape.rowMajor_val_two]; show (Shape.rowMajorPi _ _).val = 0 * 1 + 0; rw [Shape.rowMajorPi_zero])

set_option maxHeartbeats 800000 in
theorem host_v18 (a0 : (⟨Cert.ReferenceIdeal.S100000x128, .f32⟩ : BufTy).Contents (Elt Ideal))
    (a1 : (⟨Cert.ReferenceIdeal.S2x1600000, .i32⟩ : BufTy).Contents (Elt Ideal))
    (a3 : (⟨Cert.ReferenceIdeal.S128x128, .f32⟩ : BufTy).Contents (Elt Ideal))
    (a4 : (⟨Cert.ReferenceIdeal.S128, .f32⟩ : BufTy).Contents (Elt Ideal))
    (a5 : (⟨Cert.ReferenceIdeal.S128x128, .f32⟩ : BufTy).Contents (Elt Ideal))
    (a6 : (⟨Cert.ReferenceIdeal.S128, .f32⟩ : BufTy).Contents (Elt Ideal))
    (h7 : W (Proc.devRef .tc main_v7) = Cert.ReferenceIdeal.Read.val_main_v13 (F := Ideal) a0 a3 a4 a5 a6)
    (h1 : W (Proc.devRef .tc main_v1) = Cert.ReferenceIdeal.Read.val_main_v1 (F := Ideal) a1)
    (h3 : W (Proc.devRef .tc main_v3) = Cert.ReferenceIdeal.Read.val_main_v3 (F := Ideal) a1) :
    StableHlo.after hostOps1 W (Proc.devRef .tc main_v18) = Cert.ReferenceIdeal.Read.val_main_v23 (F := Ideal) a0 a1 a3 a4 a5 a6 := by
  after_results
  rw [h7, h1, h3]
  rfl

theorem region_of_vals (V : (c : Dev nD) → (b : Ref sig .tc) → Buf (Elt Ideal) ((c : Thread nD τ).loc b)) (c : Dev nD)
    (a0 : (⟨Cert.ReferenceIdeal.S100000x128, .f32⟩ : BufTy).Contents (Elt Ideal))
    (a1 : (⟨Cert.ReferenceIdeal.S2x1600000, .i32⟩ : BufTy).Contents (Elt Ideal))
    (a2 : (⟨Cert.ReferenceIdeal.S100000, .i32⟩ : BufTy).Contents (Elt Ideal))
    (a3 : (⟨Cert.ReferenceIdeal.S128x128, .f32⟩ : BufTy).Contents (Elt Ideal))
    (a4 : (⟨Cert.ReferenceIdeal.S128, .f32⟩ : BufTy).Contents (Elt Ideal))
    (a5 : (⟨Cert.ReferenceIdeal.S128x128, .f32⟩ : BufTy).Contents (Elt Ideal))
    (a6 : (⟨Cert.ReferenceIdeal.S128, .f32⟩ : BufTy).Contents (Elt Ideal))
    (a7 : (⟨Cert.ReferenceIdeal.S3x128x128, .f32⟩ : BufTy).Contents (Elt Ideal))
    (a8 : (⟨Cert.ReferenceIdeal.S3x128, .f32⟩ : BufTy).Contents (Elt Ideal))
    (a9 : (⟨Cert.ReferenceIdeal.S3x128x128, .f32⟩ : BufTy).Contents (Elt Ideal))
    (a10 : (⟨Cert.ReferenceIdeal.S3x128, .f32⟩ : BufTy).Contents (Elt Ideal))
    (a11 : (⟨Cert.ReferenceIdeal.S3, .f32⟩ : BufTy).Contents (Elt Ideal))
    (h7 : V c main_v7 = Cert.ReferenceIdeal.Read.val_main_v13 (F := Ideal) a0 a3 a4 a5 a6)
    (h18 : V c main_v18 = Cert.ReferenceIdeal.Read.val_main_v23 (F := Ideal) a0 a1 a3 a4 a5 a6)
    (h21 : V c main_v21 (ix2 0 0) = Cert.ReferenceIdeal.Read.val_main_v25 (F := Ideal) a11 ix0)
    (h23 : V c main_v23 = Cert.ReferenceIdeal.Read.val_main_v31 (F := Ideal) a7)
    (h30 : ∀ f : Fin 128, V c main_v30 (ix2 0 f) = Cert.ReferenceIdeal.Read.val_main_v34 (F := Ideal) a8 (ix1 f))
    (h27 : V c main_v27 = Cert.ReferenceIdeal.Read.val_main_v40 (F := Ideal) a9)
    (h31 : ∀ f : Fin 128, V c main_v31 (ix2 0 f) = Cert.ReferenceIdeal.Read.val_main_v43 (F := Ideal) a10 (ix1 f))
    (h4 : ∀ r : Fin 100000, V c main_v4 (ix2 r 0) = a2 (ix1 r)) :
    (R1.dat (F := Ideal) V c).arrAt 8 cfg1.N = Cert.ReferenceIdeal.Read.val_main_v46 (F := Ideal) a0 a1 a3 a4 a5 a6 a7 a8 a9 a10 a11
    ∧ (R1.dat (F := Ideal) V c).arrAt 9 cfg1.N = Cert.ReferenceIdeal.Read.val_main_v49 (F := Ideal) a0 a1 a2 a3 a4 a5 a6 a7 a8 a9 a10 a11 := by
  refine ⟨?_, ?_⟩
  · rw [R1.arr8_eq V c, Cert.ReferenceIdeal.RefVal.h1_eq]
    show Spec.layerH (V c main_v21 (ix2 0 0)) (V c main_v7) (V c main_v18) (V c main_v23) (fun f => V c main_v30 (ix2 0 f))
      (V c main_v27) (fun f => V c main_v31 (ix2 0 f)) = _
    simp only [h7, h18, h21, h23, h30, h27, h31]
  · rw [R1.arr9_eq V c, Cert.ReferenceIdeal.RefVal.p1_eq, Cert.ReferenceIdeal.RefVal.h1_eq]
    show Spec.poolOf (Spec.layerH (V c main_v21 (ix2 0 0)) (V c main_v7) (V c main_v18) (V c main_v23) (fun f => V c main_v30 (ix2 0 f))
      (V c main_v27) (fun f => V c main_v31 (ix2 0 f))) (fun r => V c main_v4 (ix2 r 0)) = _
    simp only [h7, h18, h21, h23, h30, h27, h31, h4]

end H1

theorem U2_launch (c : Dev nD) (r : Ref sig .tc) (h : r ∉ hostOps0_W) (h' : r ≠ main_v7) :
    U2 m c (Proc.devRef .tc r) = m ((c.tc : Thread nD τ).loc r) :=
  (Function.update_of_ne (StableHlo.devRef_ne_of_ne h') _ _).trans (Gen.V1_of m c r h)
theorem U2_v1 (c : Dev nD) : U2 m c (Proc.devRef .tc main_v1) = Cert.ReferenceIdeal.Read.val_main_v1 (F := Ideal) (m ((c.tc : Thread nD τ).loc main_arg1)) :=
  (Function.update_of_ne (StableHlo.devRef_ne_of_ne (by decide)) _ _).trans (H1.pre_v1 (Gen.V0 m c))
theorem U2_v3 (c : Dev nD) : U2 m c (Proc.devRef .tc main_v3) = Cert.ReferenceIdeal.Read.val_main_v3 (F := Ideal) (m ((c.tc : Thread nD τ).loc main_arg1)) :=
  (Function.update_of_ne (StableHlo.devRef_ne_of_ne (by decide)) _ _).trans (H1.pre_v3 (Gen.V0 m c))
theorem U2_v4 (c : Dev nD) (r : Fin 100000) : U2 m c (Proc.devRef .tc main_v4) (ix2 r 0) = m ((c.tc : Thread nD τ).loc main_arg2) (ix1 r) :=
  (congrFun (Function.update_of_ne (StableHlo.devRef_ne_of_ne (by decide)) _ _) (ix2 r 0)).trans (H1.pre_v4 (Gen.V0 m c) r)

theorem U4_of_U2 (c : Dev nD) (r : Ref sig .tc) (h : r ∉ hostOps1_W) (h0 : r ≠ main_v32_0) (h1 : r ≠ main_v32_1) :
    U4 m c (Proc.devRef .tc r) = U2 m c (Proc.devRef .tc r) :=
  (Function.update_of_ne (StableHlo.devRef_ne_of_ne h1) _ _).trans ((Function.update_of_ne (StableHlo.devRef_ne_of_ne h0) _ _).trans
    (StableHlo.after_of_writes_sub hostOps1 (U2 m c) hostOps1_writes h))
theorem U6_of_U4 (c : Dev nD) (r : Ref sig .tc) (h : r ∉ hostOps2_W) (h0 : r ≠ main_v57_0) (h1 : r ≠ main_v57_1) :
    U6 m c (Proc.devRef .tc r) = U4 m c (Proc.devRef .tc r) :=
  (Function.update_of_ne (StableHlo.devRef_ne_of_ne h1) _ _).trans ((Function.update_of_ne (StableHlo.devRef_ne_of_ne h0) _ _).trans
    (StableHlo.after_of_writes_sub hostOps2 (U4 m c) hostOps2_writes h))

theorem U4_launch (c : Dev nD) (r : Ref sig .tc) (h : r ∉ hostOps0_W) (h' : r ≠ main_v7) (h1 : r ∉ hostOps1_W)
    (h10 : r ≠ main_v32_0) (h11 : r ≠ main_v32_1) : U4 m c (Proc.devRef .tc r) = m ((c.tc : Thread nD τ).loc r) :=
  (U4_of_U2 m c r h1 h10 h11).trans (U2_launch m c r h h')
theorem U4_v1 (c : Dev nD) : U4 m c (Proc.devRef .tc main_v1) = Cert.ReferenceIdeal.Read.val_main_v1 (F := Ideal) (m ((c.tc : Thread nD τ).loc main_arg1)) :=
  (U4_of_U2 m c main_v1 (by decide) (by decide) (by decide)).trans (U2_v1 m c)
theorem U4_v3 (c : Dev nD) : U4 m c (Proc.devRef .tc main_v3) = Cert.ReferenceIdeal.Read.val_main_v3 (F := Ideal) (m ((c.tc : Thread nD τ).loc main_arg1)) :=
  (U4_of_U2 m c main_v3 (by decide) (by decide) (by decide)).trans (U2_v3 m c)
theorem U4_v4 (c : Dev nD) (r : Fin 100000) : U4 m c (Proc.devRef .tc main_v4) (ix2 r 0) = m ((c.tc : Thread nD τ).loc main_arg2) (ix1 r) :=
  (congrFun (U4_of_U2 m c main_v4 (by decide) (by decide) (by decide)) (ix2 r 0)).trans (U2_v4 m c r)

theorem U6_launch (c : Dev nD) (r : Ref sig .tc) (h : r ∉ hostOps0_W) (h' : r ≠ main_v7) (h1 : r ∉ hostOps1_W)
    (h10 : r ≠ main_v32_0) (h11 : r ≠ main_v32_1) (h2 : r ∉ hostOps2_W) (h20 : r ≠ main_v57_0) (h21 : r ≠ main_v57_1) :
    U6 m c (Proc.devRef .tc r) = m ((c.tc : Thread nD τ).loc r) :=
  (U6_of_U4 m c r h2 h20 h21).trans (U4_launch m c r h h' h1 h10 h11)
theorem U6_v1 (c : Dev nD) : U6 m c (Proc.devRef .tc main_v1) = Cert.ReferenceIdeal.Read.val_main_v1 (F := Ideal) (m ((c.tc : Thread nD τ).loc main_arg1)) :=
  (U6_of_U4 m c main_v1 (by decide) (by decide) (by decide)).trans (U4_v1 m c)
theorem U6_v3 (c : Dev nD) : U6 m c (Proc.devRef .tc main_v3) = Cert.ReferenceIdeal.Read.val_main_v3 (F := Ideal) (m ((c.tc : Thread nD τ).loc main_arg1)) :=
  (U6_of_U4 m c main_v3 (by decide) (by decide) (by decide)).trans (U4_v3 m c)
theorem U6_v4 (c : Dev nD) (r : Fin 100000) : U6 m c (Proc.devRef .tc main_v4) (ix2 r 0) = m ((c.tc : Thread nD τ).loc main_arg2) (ix1 r) :=
  (congrFun (U6_of_U4 m c main_v4 (by decide) (by decide) (by decide)) (ix2 r 0)).trans (U4_v4 m c r)
theorem layer1 (c : Dev nD)
    (hprev : U2 m c main_v7 = Cert.ReferenceIdeal.Read.val_main_v13 (F := Ideal) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))) :
    U4 m c main_v32_0 = Cert.ReferenceIdeal.Read.val_main_v46 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    ∧ U4 m c main_v32_1 = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have hA := U2_launch m c
  have hv7 : U3 m c (Proc.devRef .tc main_v7) = _ := (H1.host_v7 (U2 m c)).trans hprev
  have hv18 : U3 m c (Proc.devRef .tc main_v18) = _ := H1.host_v18 (U2 m c) _ _ _ _ _ _ hprev (U2_v1 m c) (U2_v3 m c)
  have hv21 : U3 m c (Proc.devRef .tc main_v21) (ix2 0 0) = _ :=
    (H1.host_v21 (U2 m c)).trans (by rw [hA main_arg11 (by decide) (by decide)])
  have hv23 : U3 m c (Proc.devRef .tc main_v23) = _ :=
    (H1.host_v23 (U2 m c)).trans (by rw [hA main_arg7 (by decide) (by decide)])
  have hv27 : U3 m c (Proc.devRef .tc main_v27) = _ :=
    (H1.host_v27 (U2 m c)).trans (by rw [hA main_arg9 (by decide) (by decide)])
  have hv30 : ∀ f : Fin 128, U3 m c (Proc.devRef .tc main_v30) (ix2 0 f) = _ := fun f =>
    (H1.host_v30 (U2 m c) f).trans (by rw [hA main_arg8 (by decide) (by decide)])
  have hv31 : ∀ f : Fin 128, U3 m c (Proc.devRef .tc main_v31) (ix2 0 f) = _ := fun f =>
    (H1.host_v31 (U2 m c) f).trans (by rw [hA main_arg10 (by decide) (by decide)])
  have hv4 : ∀ r : Fin 100000, U3 m c (Proc.devRef .tc main_v4) (ix2 r 0) = _ := fun r =>
    (congrFun (H1.host_v4 (U2 m c)) (ix2 r 0)).trans (U2_v4 m c r)
  have e8 : U4 m c (Proc.devRef .tc main_v32_0) = (R1.dat (VV3 m) c).arrAt 8 cfg1.N :=
    (Function.update_of_ne (StableHlo.devRef_ne_of_ne (by decide)) _ _).trans ((Function.update_self _ _ _).trans
      (Pipeline.withArrays_arr spec1 launch1.win.arr_inj c (U3 m c) (fun w => (R1.dat (VV3 m) c).arrAt w cfg1.N) 8))
  have e9 : U4 m c (Proc.devRef .tc main_v32_1) = (R1.dat (VV3 m) c).arrAt 9 cfg1.N :=
    (Function.update_self _ _ _).trans
      (Pipeline.withArrays_arr spec1 launch1.win.arr_inj c (U3 m c) (fun w => (R1.dat (VV3 m) c).arrAt w cfg1.N) 9)
  obtain ⟨r8, r9⟩ := H1.region_of_vals (VV3 m) c _ _ _ _ _ _ _ _ _ _ _ _ hv7 hv18 hv21 hv23 hv30 hv27 hv31 hv4
  exact ⟨e8.trans r8, e9.trans r9⟩

end Cert.KernelIdeal.Hand

end
-- ==== Proof.KIVal2H.lean ====
import proofs.«421016_j46033459478730_2_alg».proof.Proof.KIReg2
import proofs.«421016_j46033459478730_2_alg».proof.Proof.KIVal1H
import proofs.«421016_j46033459478730_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand.R2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open R1 (out_A_8_eq out_B_8_eq tile_eq)

section Blocks

variable (V : (c : Dev nD) → (b : Ref sig .tc) → Buf (Elt Ideal) ((c : Thread nD τ).loc b))

theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

theorem rows_apply (c : Dev nD) (t : Fin cfg2.N) (r : Fin 5000) (j : Fin 128) (R : Fin 100000) (hR : R.val = t.val * 5000 + r.val) :
    (iblk V c 0 t : FVec Ideal S5000x128 .bf16) (ix2 r j) = (V c (Pipeline.arrRef spec2 0) : Spec.SN.Idx → EReal) (ix2 R j) := by
  unfold iblk
  rw [View.read_apply]
  show (V c (Pipeline.arrRef spec2 0) : Spec.SN.Idx → EReal) (((cfg2.win 0).blk t).view.emb (ix2 r j)) = _
  refine congrArg (V c (Pipeline.arrRef spec2 0) : Spec.SN.Idx → EReal) (funext fun a => Fin.ext ?_)
  obtain ⟨e00, e01, e10, e11, -⟩ := idx_facts t
  match a with
  | ⟨0, _⟩ => show win2_0.index t (0 : Fin 2) * 5000 + 1 * r.val = R.val; rw [e00, hR]; omega
  | ⟨1, _⟩ => show win2_0.index t (1 : Fin 2) * 128 + 1 * j.val = j.val; rw [e01]; omega

theorem sums_apply (c : Dev nD) (t : Fin cfg2.N) (r : Fin 5000) (j : Fin 128) (R : Fin 100000) (hR : R.val = t.val * 5000 + r.val) :
    (iblk V c 1 t : FVec Ideal S5000x128 .f32) (ix2 r j) = (V c (Pipeline.arrRef spec2 1) : Spec.SN.Idx → EReal) (ix2 R j) := by
  unfold iblk
  rw [View.read_apply]
  show (V c (Pipeline.arrRef spec2 1) : Spec.SN.Idx → EReal) (((cfg2.win 1).blk t).view.emb (ix2 r j)) = _
  refine congrArg (V c (Pipeline.arrRef spec2 1) : Spec.SN.Idx → EReal) (funext fun a => Fin.ext ?_)
  obtain ⟨e00, e01, e10, e11, -⟩ := idx_facts t
  match a with
  | ⟨0, _⟩ => show win2_1.index t (0 : Fin 2) * 5000 + 1 * r.val = R.val; rw [e10, hR]; omega
  | ⟨1, _⟩ => show win2_1.index t (1 : Fin 2) * 128 + 1 * j.val = j.val; rw [e11]; omega

theorem eps_apply (c : Dev nD) (t : Fin cfg2.N) (p : Fin 1) (q : Fin 1) :
    (iblk V c 3 t : FVec Ideal S1x1 .f32) (ix2 p q) = (V c (Pipeline.arrRef spec2 3) : S1x1.Idx → EReal) (ix2 p q) := by
  unfold iblk
  rw [View.read_apply]
  show (V c (Pipeline.arrRef spec2 3) : S1x1.Idx → EReal) (((cfg2.win 3).blk t).view.emb (ix2 p q)) = _
  refine congrArg (V c (Pipeline.arrRef spec2 3) : S1x1.Idx → EReal) (funext fun a => Fin.ext ?_)
  obtain ⟨-, -, -, -, e30, e31, e40, e41, e50, e51, e60, e61, e70, e71, -⟩ := idx_facts t
  match a with
  | ⟨0, _⟩ => show win2_3.index t (0 : Fin 2) * 1 + 1 * p.val = p.val; rw [e30]; omega
  | ⟨1, _⟩ => show win2_3.index t (1 : Fin 2) * 1 + 1 * q.val = q.val; rw [e31]; omega

theorem wA_apply (c : Dev nD) (t : Fin cfg2.N) (p : Fin 128) (q : Fin 128) :
    (iblk V c 4 t : FVec Ideal S128x128 .f32) (ix2 p q) = (V c (Pipeline.arrRef spec2 4) : S128x128.Idx → EReal) (ix2 p q) := by
  unfold iblk
  rw [View.read_apply]
  show (V c (Pipeline.arrRef spec2 4) : S128x128.Idx → EReal) (((cfg2.win 4).blk t).view.emb (ix2 p q)) = _
  refine congrArg (V c (Pipeline.arrRef spec2 4) : S128x128.Idx → EReal) (funext fun a => Fin.ext ?_)
  obtain ⟨-, -, -, -, e30, e31, e40, e41, e50, e51, e60, e61, e70, e71, -⟩ := idx_facts t
  match a with
  | ⟨0, _⟩ => show win2_4.index t (0 : Fin 2) * 128 + 1 * p.val = p.val; rw [e40]; omega
  | ⟨1, _⟩ => show win2_4.index t (1 : Fin 2) * 128 + 1 * q.val = q.val; rw [e41]; omega

theorem bA_apply (c : Dev nD) (t : Fin cfg2.N) (p : Fin 1) (q : Fin 128) :
    (iblk V c 5 t : FVec Ideal S1x128 .f32) (ix2 p q) = (V c (Pipeline.arrRef spec2 5) : S1x128.Idx → EReal) (ix2 p q) := by
  unfold iblk
  rw [View.read_apply]
  show (V c (Pipeline.arrRef spec2 5) : S1x128.Idx → EReal) (((cfg2.win 5).blk t).view.emb (ix2 p q)) = _
  refine congrArg (V c (Pipeline.arrRef spec2 5) : S1x128.Idx → EReal) (funext fun a => Fin.ext ?_)
  obtain ⟨-, -, -, -, e30, e31, e40, e41, e50, e51, e60, e61, e70, e71, -⟩ := idx_facts t
  match a with
  | ⟨0, _⟩ => show win2_5.index t (0 : Fin 2) * 1 + 1 * p.val = p.val; rw [e50]; omega
  | ⟨1, _⟩ => show win2_5.index t (1 : Fin 2) * 128 + 1 * q.val = q.val; rw [e51]; omega

theorem wB_apply (c : Dev nD) (t : Fin cfg2.N) (p : Fin 128) (q : Fin 128) :
    (iblk V c 6 t : FVec Ideal S128x128 .f32) (ix2 p q) = (V c (Pipeline.arrRef spec2 6) : S128x128.Idx → EReal) (ix2 p q) := by
  unfold iblk
  rw [View.read_apply]
  show (V c (Pipeline.arrRef spec2 6) : S128x128.Idx → EReal) (((cfg2.win 6).blk t).view.emb (ix2 p q)) = _
  refine congrArg (V c (Pipeline.arrRef spec2 6) : S128x128.Idx → EReal) (funext fun a => Fin.ext ?_)
  obtain ⟨-, -, -, -, e30, e31, e40, e41, e50, e51, e60, e61, e70, e71, -⟩ := idx_facts t
  match a with
  | ⟨0, _⟩ => show win2_6.index t (0 : Fin 2) * 128 + 1 * p.val = p.val; rw [e60]; omega
  | ⟨1, _⟩ => show win2_6.index t (1 : Fin 2) * 128 + 1 * q.val = q.val; rw [e61]; omega

theorem bB_apply (c : Dev nD) (t : Fin cfg2.N) (p : Fin 1) (q : Fin 128) :
    (iblk V c 7 t : FVec Ideal S1x128 .f32) (ix2 p q) = (V c (Pipeline.arrRef spec2 7) : S1x128.Idx → EReal) (ix2 p q) := by
  unfold iblk
  rw [View.read_apply]
  show (V c (Pipeline.arrRef spec2 7) : S1x128.Idx → EReal) (((cfg2.win 7).blk t).view.emb (ix2 p q)) = _
  refine congrArg (V c (Pipeline.arrRef spec2 7) : S1x128.Idx → EReal) (funext fun a => Fin.ext ?_)
  obtain ⟨-, -, -, -, e30, e31, e40, e41, e50, e51, e60, e61, e70, e71, -⟩ := idx_facts t
  match a with
  | ⟨0, _⟩ => show win2_7.index t (0 : Fin 2) * 1 + 1 * p.val = p.val; rw [e70]; omega
  | ⟨1, _⟩ => show win2_7.index t (1 : Fin 2) * 128 + 1 * q.val = q.val; rw [e71]; omega

abbrev layerOf (c : Dev nD) : Spec.SN.Idx → EReal :=
  Spec.layerH (V c (Pipeline.arrRef spec2 3) (ix2 0 0)) (V c (Pipeline.arrRef spec2 0)) (V c (Pipeline.arrRef spec2 1))
    (V c (Pipeline.arrRef spec2 4)) (fun f => V c (Pipeline.arrRef spec2 5) (ix2 0 f))
    (V c (Pipeline.arrRef spec2 6)) (fun f => V c (Pipeline.arrRef spec2 7) (ix2 0 f))

theorem outs_eq (c : Dev nD) (t : Fin cfg2.N) :
    (outsAt V c t.val t.isLt).1 = k1_pay4 (F := Ideal) (iblk V c 0 t) (iblk V c 1 t) (iblk V c 3 t) (iblk V c 4 t) (iblk V c 5 t) (iblk V c 6 t) (iblk V c 7 t) := by
  by_cases h0 : t.val % 20 = 0
  · rw [outsAt_A V c t h0]
    dsimp only [stepA]
    exact out_A_8_eq (F := Ideal) c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t)
  · rw [outsAt_B V c t h0]
    dsimp only [stepB]
    exact out_B_8_eq (F := Ideal) c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2

theorem flushed_eq (c : Dev nD) (t : Fin cfg2.N) :
    (dat (F := Ideal) V c).flushed 8 t = ((cfg2.win 8).blk t).view.read (Elt Ideal) (layerOf V c) := by
  show (cfg2.win 8).cut (grid2.coords t) ((dat (F := Ideal) V c).after 8 t) = _
  rw [after_8, outs_eq]
  funext y
  obtain ⟨r, f, rfl⟩ : ∃ (r : Fin 5000) (f : Fin 128), y = ix2 r f := ⟨y 0, y 1, eq_ix2 y⟩
  rw [View.read_apply]
  have hN : t.val < 20 := lt_of_lt_of_eq t.isLt (show cfg2.N = 20 from N_2)
  obtain ⟨R, hR⟩ : ∃ R : Fin 100000, R.val = t.val * 5000 + r.val := ⟨⟨t.val * 5000 + r.val, by omega⟩, rfl⟩
  obtain ⟨-, -, -, -, -, -, -, -, -, -, -, -, -, -, e80, e81⟩ := idx_facts t
  have hemb : ((cfg2.win 8).blk t).view.emb (ix2 r f) = (ix2 R f : Spec.SN.Idx) := funext fun a => Fin.ext (by
    match a with
    | ⟨0, _⟩ => show win2_8.index t (0 : Fin 2) * 5000 + 1 * r.val = R.val; rw [e80, hR]; omega
    | ⟨1, _⟩ => show win2_8.index t (1 : Fin 2) * 128 + 1 * f.val = f.val; rw [e81]; omega)
  show k1_pay4 (F := Ideal) (iblk V c 0 t) (iblk V c 1 t) (iblk V c 3 t) (iblk V c 4 t) (iblk V c 5 t) (iblk V c 6 t) (iblk V c 7 t) (ix2 r f)
    = layerOf V c (((cfg2.win 8).blk t).view.emb (ix2 r f))
  rw [hemb]
  exact tile_eq (V c (Pipeline.arrRef spec2 3) (ix2 0 0)) (V c (Pipeline.arrRef spec2 0)) (V c (Pipeline.arrRef spec2 1))
    (V c (Pipeline.arrRef spec2 4)) (fun f => V c (Pipeline.arrRef spec2 5) (ix2 0 f))
    (V c (Pipeline.arrRef spec2 6)) (fun f => V c (Pipeline.arrRef spec2 7) (ix2 0 f))
    (iblk V c 0 t) (iblk V c 1 t) (iblk V c 3 t) (iblk V c 4 t) (iblk V c 5 t) (iblk V c 6 t) (iblk V c 7 t) r f R
    (fun j => rows_apply V c t r j R hR) (fun j => sums_apply V c t r j R hR) (eps_apply V c t 0 0)
    (fun j k => wA_apply V c t j k) (fun k => bA_apply V c t 0 k) (fun j k => wB_apply V c t j k) (fun k => bB_apply V c t 0 k)

end Blocks

section Cover

variable (V : (c : Dev nD) → (b : Ref sig .tc) → Buf (Elt Ideal) ((c : Thread nD τ).loc b))

theorem mem_blk (t : Fin cfg2.N) (i : Spec.SN.Idx) :
    i ∈ ((cfg2.win 8).blk t).view.set ↔ ∀ a : Fin 2, win2_8.index t a * S5000x128.size a ≤ (i a).val ∧ (i a).val < win2_8.index t a * S5000x128.size a + S5000x128.size a := by
  show i ∈ ((View.whole (Pipeline.arrRef spec2 8)).slice (win2_8.rect t)).set ↔ _
  rw [View.set_slice_whole, Rect.mem_set_unit]
  exact Iff.rfl

theorem cover (i : Spec.SN.Idx) : ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_8 t, ?_⟩
  rw [mem_blk]
  obtain ⟨-, -, -, -, -, -, -, -, -, -, -, -, -, -, e80, e81⟩ := idx_facts t
  intro a
  match a with
  | ⟨0, _⟩ =>
    show win2_8.index t (0 : Fin 2) * 5000 ≤ (i 0).val ∧ (i 0).val < win2_8.index t (0 : Fin 2) * 5000 + 5000
    rw [e80, ht]; omega
  | ⟨1, _⟩ =>
    show win2_8.index t (1 : Fin 2) * 128 ≤ (i 1).val ∧ (i 1).val < win2_8.index t (1 : Fin 2) * 128 + 128
    rw [e81]; omega

end Cover

variable (V : (c : Dev nD) → (b : Ref sig .tc) → Buf (Elt Ideal) ((c : Thread nD τ).loc b))

theorem arr8_eq (c : Dev nD) :
    (dat (F := Ideal) V c).arrAt 8 cfg2.N
      = (Spec.layerH (V c (Pipeline.arrRef spec2 3) (ix2 0 0)) (V c (Pipeline.arrRef spec2 0)) (V c (Pipeline.arrRef spec2 1))
        (V c (Pipeline.arrRef spec2 4)) (fun f => V c (Pipeline.arrRef spec2 5) (ix2 0 f))
        (V c (Pipeline.arrRef spec2 6)) (fun f => V c (Pipeline.arrRef spec2 7) (ix2 0 f))) :=
  (dat (F := Ideal) V c).arrAt_eq_of_cover 8 (layerOf V c) (fun t _ => flushed_eq V c t) cover

end Cert.KernelIdeal.Hand.R2

end
-- ==== Proof.KIVal2P.lean ====
import proofs.«421016_j46033459478730_2_alg».proof.Proof.KIReg2
import proofs.«421016_j46033459478730_2_alg».proof.Proof.KIVal1P
import proofs.«421016_j46033459478730_2_alg».proof.Proof.Spec
import proofs.«421016_j46033459478730_2_alg».proof.Proof.PoolSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open R1 (pl_out_B_9 pl_out_A_9 pl_pay1_apply pl_pay2_apply pl_pay3_apply')

variable (V : (c : Dev nD) → (b : Ref sig .tc) → Buf (Elt Ideal) ((c : Thread nD τ).loc b))

section Blocks

theorem pl_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_9.index t (0 : Fin 2) = 0 ∧ win2_9.index t (1 : Fin 2) = 0 :=
  (by decide +kernel : ∀ t : Fin grid2.N, _)

theorem pl_b0_apply (c : Dev nD) (t : Fin cfg2.N) (r : Fin 5000) (k : Fin 128) (R : Fin 100000) (hR : R.val = 5000 * t.val + r.val) :
    (iblk V c 0 t : Vec Ideal S5000x128 .bf16) (ix2 r k) = (V c (Pipeline.arrRef spec2 0) : Vec Ideal S100000x128 .bf16) (ix2 R k) := by
  obtain ⟨e0, e1, e2, e3, e4, e5, -⟩ := pl_idx t
  unfold iblk
  rw [View.read_apply]
  show V c (Pipeline.arrRef spec2 0) (((cfg2.win 0).blk t).view.emb (ix2 r k)) = V c (Pipeline.arrRef spec2 0) (ix2 R k)
  refine congrArg (V c (Pipeline.arrRef spec2 0)) (funext fun a => Fin.ext ?_)
  match a with
  | ⟨0, _⟩ => show win2_0.index t (0 : Fin 2) * 5000 + 1 * r.val = R.val; rw [e0, hR]; omega
  | ⟨1, _⟩ => show win2_0.index t (1 : Fin 2) * 128 + 1 * k.val = k.val; rw [e1]; omega

theorem pl_b1_apply (c : Dev nD) (t : Fin cfg2.N) (r : Fin 5000) (k : Fin 128) (R : Fin 100000) (hR : R.val = 5000 * t.val + r.val) :
    (iblk V c 1 t : Vec Ideal S5000x128 .f32) (ix2 r k) = (V c (Pipeline.arrRef spec2 1) : Vec Ideal S100000x128 .f32) (ix2 R k) := by
  obtain ⟨e0, e1, e2, e3, e4, e5, -⟩ := pl_idx t
  unfold iblk
  rw [View.read_apply]
  show V c (Pipeline.arrRef spec2 1) (((cfg2.win 1).blk t).view.emb (ix2 r k)) = V c (Pipeline.arrRef spec2 1) (ix2 R k)
  refine congrArg (V c (Pipeline.arrRef spec2 1)) (funext fun a => Fin.ext ?_)
  match a with
  | ⟨0, _⟩ => show win2_1.index t (0 : Fin 2) * 5000 + 1 * r.val = R.val; rw [e2, hR]; omega
  | ⟨1, _⟩ => show win2_1.index t (1 : Fin 2) * 128 + 1 * k.val = k.val; rw [e3]; omega

theorem pl_b2_apply (c : Dev nD) (t : Fin cfg2.N) (r : Fin 5000) (k : Fin 1) (R : Fin 100000) (hR : R.val = 5000 * t.val + r.val) :
    (iblk V c 2 t : Vec Ideal S5000x1 .i32) (ix2 r k) = (V c (Pipeline.arrRef spec2 2) : Vec Ideal S100000x1 .i32) (ix2 R k) := by
  obtain ⟨e0, e1, e2, e3, e4, e5, -⟩ := pl_idx t
  unfold iblk
  rw [View.read_apply]
  show V c (Pipeline.arrRef spec2 2) (((cfg2.win 2).blk t).view.emb (ix2 r k)) = V c (Pipeline.arrRef spec2 2) (ix2 R k)
  refine congrArg (V c (Pipeline.arrRef spec2 2)) (funext fun a => Fin.ext ?_)
  match a with
  | ⟨0, _⟩ => show win2_2.index t (0 : Fin 2) * 5000 + 1 * r.val = R.val; rw [e4, hR]; omega
  | ⟨1, _⟩ => show win2_2.index t (1 : Fin 2) * 1 + 1 * k.val = k.val; rw [e5]; omega

theorem pl_b3_eq (c : Dev nD) (t : Fin cfg2.N) :
    (iblk V c 3 t : Vec Ideal S1x1 .f32) = (V c (Pipeline.arrRef spec2 3) : Vec Ideal S1x1 .f32) := by
  obtain ⟨-, -, -, -, -, -, e6, e7, e8, e9, e10, e11, e12, e13, e14, e15, -⟩ := pl_idx t
  funext j
  obtain ⟨p, q, rfl⟩ : ∃ (p : Fin 1) (q : Fin 1), j = ix2 p q := ⟨j 0, j 1, eq_ix2 j⟩
  unfold iblk
  rw [View.read_apply]
  show V c (Pipeline.arrRef spec2 3) (((cfg2.win 3).blk t).view.emb (ix2 p q)) = V c (Pipeline.arrRef spec2 3) (ix2 p q)
  refine congrArg (V c (Pipeline.arrRef spec2 3)) (funext fun a => Fin.ext ?_)
  match a with
  | ⟨0, _⟩ => show win2_3.index t (0 : Fin 2) * 1 + 1 * p.val = p.val; rw [e6]; omega
  | ⟨1, _⟩ => show win2_3.index t (1 : Fin 2) * 1 + 1 * q.val = q.val; rw [e7]; omega

theorem pl_b4_eq (c : Dev nD) (t : Fin cfg2.N) :
    (iblk V c 4 t : Vec Ideal S128x128 .f32) = (V c (Pipeline.arrRef spec2 4) : Vec Ideal S128x128 .f32) := by
  obtain ⟨-, -, -, -, -, -, e6, e7, e8, e9, e10, e11, e12, e13, e14, e15, -⟩ := pl_idx t
  funext j
  obtain ⟨p, q, rfl⟩ : ∃ (p : Fin 128) (q : Fin 128), j = ix2 p q := ⟨j 0, j 1, eq_ix2 j⟩
  unfold iblk
  rw [View.read_apply]
  show V c (Pipeline.arrRef spec2 4) (((cfg2.win 4).blk t).view.emb (ix2 p q)) = V c (Pipeline.arrRef spec2 4) (ix2 p q)
  refine congrArg (V c (Pipeline.arrRef spec2 4)) (funext fun a => Fin.ext ?_)
  match a with
  | ⟨0, _⟩ => show win2_4.index t (0 : Fin 2) * 128 + 1 * p.val = p.val; rw [e8]; omega
  | ⟨1, _⟩ => show win2_4.index t (1 : Fin 2) * 128 + 1 * q.val = q.val; rw [e9]; omega

theorem pl_b5_eq (c : Dev nD) (t : Fin cfg2.N) :
    (iblk V c 5 t : Vec Ideal S1x128 .f32) = (V c (Pipeline.arrRef spec2 5) : Vec Ideal S1x128 .f32) := by
  obtain ⟨-, -, -, -, -, -, e6, e7, e8, e9, e10, e11, e12, e13, e14, e15, -⟩ := pl_idx t
  funext j
  obtain ⟨p, q, rfl⟩ : ∃ (p : Fin 1) (q : Fin 128), j = ix2 p q := ⟨j 0, j 1, eq_ix2 j⟩
  unfold iblk
  rw [View.read_apply]
  show V c (Pipeline.arrRef spec2 5) (((cfg2.win 5).blk t).view.emb (ix2 p q)) = V c (Pipeline.arrRef spec2 5) (ix2 p q)
  refine congrArg (V c (Pipeline.arrRef spec2 5)) (funext fun a => Fin.ext ?_)
  match a with
  | ⟨0, _⟩ => show win2_5.index t (0 : Fin 2) * 1 + 1 * p.val = p.val; rw [e10]; omega
  | ⟨1, _⟩ => show win2_5.index t (1 : Fin 2) * 128 + 1 * q.val = q.val; rw [e11]; omega

theorem pl_b6_eq (c : Dev nD) (t : Fin cfg2.N) :
    (iblk V c 6 t : Vec Ideal S128x128 .f32) = (V c (Pipeline.arrRef spec2 6) : Vec Ideal S128x128 .f32) := by
  obtain ⟨-, -, -, -, -, -, e6, e7, e8, e9, e10, e11, e12, e13, e14, e15, -⟩ := pl_idx t
  funext j
  obtain ⟨p, q, rfl⟩ : ∃ (p : Fin 128) (q : Fin 128), j = ix2 p q := ⟨j 0, j 1, eq_ix2 j⟩
  unfold iblk
  rw [View.read_apply]
  show V c (Pipeline.arrRef spec2 6) (((cfg2.win 6).blk t).view.emb (ix2 p q)) = V c (Pipeline.arrRef spec2 6) (ix2 p q)
  refine congrArg (V c (Pipeline.arrRef spec2 6)) (funext fun a => Fin.ext ?_)
  match a with
  | ⟨0, _⟩ => show win2_6.index t (0 : Fin 2) * 128 + 1 * p.val = p.val; rw [e12]; omega
  | ⟨1, _⟩ => show win2_6.index t (1 : Fin 2) * 128 + 1 * q.val = q.val; rw [e13]; omega

theorem pl_b7_eq (c : Dev nD) (t : Fin cfg2.N) :
    (iblk V c 7 t : Vec Ideal S1x128 .f32) = (V c (Pipeline.arrRef spec2 7) : Vec Ideal S1x128 .f32) := by
  obtain ⟨-, -, -, -, -, -, e6, e7, e8, e9, e10, e11, e12, e13, e14, e15, -⟩ := pl_idx t
  funext j
  obtain ⟨p, q, rfl⟩ : ∃ (p : Fin 1) (q : Fin 128), j = ix2 p q := ⟨j 0, j 1, eq_ix2 j⟩
  unfold iblk
  rw [View.read_apply]
  show V c (Pipeline.arrRef spec2 7) (((cfg2.win 7).blk t).view.emb (ix2 p q)) = V c (Pipeline.arrRef spec2 7) (ix2 p q)
  refine congrArg (V c (Pipeline.arrRef spec2 7)) (funext fun a => Fin.ext ?_)
  match a with
  | ⟨0, _⟩ => show win2_7.index t (0 : Fin 2) * 1 + 1 * p.val = p.val; rw [e14]; omega
  | ⟨1, _⟩ => show win2_7.index t (1 : Fin 2) * 128 + 1 * q.val = q.val; rw [e15]; omega

end Blocks

section Invariant

abbrev pl_L (c : Dev nD) : Spec.SN.Idx → EReal :=
  Spec.layerH (V c (Pipeline.arrRef spec2 3) (ix2 0 0)) (V c (Pipeline.arrRef spec2 0)) (V c (Pipeline.arrRef spec2 1))
    (V c (Pipeline.arrRef spec2 4)) (fun f => V c (Pipeline.arrRef spec2 5) (ix2 0 f))
    (V c (Pipeline.arrRef spec2 6)) (fun f => V c (Pipeline.arrRef spec2 7) (ix2 0 f))
abbrev pl_bid (c : Dev nD) : Fin 100000 → BitVec 32 := fun r => V c (Pipeline.arrRef spec2 2) (ix2 r 0)

def pl_T (c : Dev nD) (g : Fin 64) (f : Fin 128) (R : ℕ) : EReal :=
  if h : R < 100000 then (if (pl_bid V c ⟨R, h⟩).toInt = ((g.val : Nat) : Int) then pl_L V c (ix2 ⟨R, h⟩ f) else 0) else 0

theorem pl_rows_apply (c : Dev nD) (t : Fin cfg2.N) (r : Fin 5000) (f : Fin 128) (R : Fin 100000) (hR : R.val = 5000 * t.val + r.val) :
    (k1_pay3 (F := Ideal) (iblk V c 0 t) (iblk V c 1 t) (iblk V c 3 t) (iblk V c 4 t) (iblk V c 5 t) (iblk V c 6 t) (iblk V c 7 t)) (ix2 r f) = pl_L V c (ix2 R f) :=
  pl_pay3_apply' (iblk V c 0 t) (iblk V c 1 t) (iblk V c 3 t) (iblk V c 4 t) (iblk V c 5 t) (iblk V c 6 t) (iblk V c 7 t)
    (V c (Pipeline.arrRef spec2 3) (ix2 0 0)) (V c (Pipeline.arrRef spec2 0)) (V c (Pipeline.arrRef spec2 1))
    (V c (Pipeline.arrRef spec2 4)) (fun f => V c (Pipeline.arrRef spec2 5) (ix2 0 f))
    (V c (Pipeline.arrRef spec2 6)) (fun f => V c (Pipeline.arrRef spec2 7) (ix2 0 f)) r R
    (congrFun (pl_b3_eq V c t) (ix2 0 0)) (fun k => pl_b0_apply V c t r k R hR) (fun k => pl_b1_apply V c t r k R hR)
    (pl_b4_eq V c t) (fun f => congrFun (pl_b5_eq V c t) (ix2 0 f)) (pl_b6_eq V c t) (fun f => congrFun (pl_b7_eq V c t) (ix2 0 f)) f

theorem pl_tile (c : Dev nD) (t : Fin cfg2.N) (g : Fin 64) (f : Fin 128) :
    ∑ r : Fin 5000, (if ((iblk V c 2 t : Vec Ideal S5000x1 .i32) (ix2 r 0)).toInt = ((g.val : Nat) : Int)
        then (k1_pay3 (F := Ideal) (iblk V c 0 t) (iblk V c 1 t) (iblk V c 3 t) (iblk V c 4 t) (iblk V c 5 t) (iblk V c 6 t) (iblk V c 7 t)) (ix2 r f) else 0)
      = ∑ r : Fin 5000, pl_T V c g f (5000 * t.val + r.val) := by
  have hN : t.val < 20 := lt_of_lt_of_eq t.isLt N_2
  refine Finset.sum_congr rfl fun r _ => ?_
  have hlt : 5000 * t.val + r.val < 100000 := by have := r.isLt; omega
  unfold pl_T
  rw [dif_pos hlt]
  refine if_congr ?_ (pl_rows_apply V c t r f ⟨5000 * t.val + r.val, hlt⟩ rfl) rfl
  rw [pl_b2_apply V c t r 0 ⟨5000 * t.val + r.val, hlt⟩ rfl]

theorem pl_outsAt_apply (c : Dev nD) (g : Fin 64) (f : Fin 128) : ∀ (n : ℕ) (hn : n < cfg2.N),
    (outsAt V c n hn).2 (ix2 g f) = ∑ t ∈ Finset.range (n + 1), ∑ r : Fin 5000, pl_T V c g f (5000 * t + r.val)
  | 0, hn => by
    rw [outsAt_A V c ⟨0, hn⟩ rfl]
    dsimp only [stepA]
    refine (congrFun (pl_out_A_9 (F := Ideal) c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩)) (ix2 g f)).trans ?_
    refine (pl_pay1_apply (k1_pay3 (F := Ideal) (iblk V c 0 ⟨0, hn⟩) (iblk V c 1 ⟨0, hn⟩) (iblk V c 3 ⟨0, hn⟩) (iblk V c 4 ⟨0, hn⟩) (iblk V c 5 ⟨0, hn⟩) (iblk V c 6 ⟨0, hn⟩) (iblk V c 7 ⟨0, hn⟩)) (iblk V c 2 ⟨0, hn⟩) (k1_pay2 (F := Ideal)) g f).trans ?_
    rw [pl_pay2_apply, zero_add, Finset.sum_range_one]
    exact pl_tile V c ⟨0, hn⟩ g f
  | n + 1, hn => by
    have hN : cfg2.N = 20 := N_2
    have hB : ¬(⟨n + 1, hn⟩ : Fin cfg2.N).val % 20 = 0 := by dsimp only; omega
    rw [outsAt_B V c ⟨n + 1, hn⟩ hB]
    dsimp only [stepB]
    refine (congrFun (pl_out_B_9 (F := Ideal) c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (fun h => hB ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt V c n (Nat.lt_of_succ_lt hn)).2) (ix2 g f)).trans ?_
    refine (pl_pay1_apply (k1_pay3 (F := Ideal) (iblk V c 0 ⟨n + 1, hn⟩) (iblk V c 1 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩)) (iblk V c 2 ⟨n + 1, hn⟩) (outsAt V c n (Nat.lt_of_succ_lt hn)).2 g f).trans ?_
    rw [pl_outsAt_apply c g f n (Nat.lt_of_succ_lt hn), Finset.sum_range_succ _ (n + 1)]
    exact congrArg _ (pl_tile V c ⟨n + 1, hn⟩ g f)

end Invariant

section Array

theorem pl_last (c : Dev nD) (t : Fin cfg2.N) (h19 : t.val = 19) :
    (outsAt V c t.val t.isLt).2 = (Spec.poolOf (pl_L V c) (pl_bid V c) : Vec Ideal S64x128 .f32) := by
  funext j
  obtain ⟨g, f, rfl⟩ : ∃ (g : Fin 64) (f : Fin 128), j = ix2 g f := ⟨j 0, j 1, eq_ix2 j⟩
  rw [pl_outsAt_apply V c g f t.val t.isLt, h19, Spec.poolOf_apply,
    Cert.PoolSum.sum_tiles_fin 20 5000 100000 rfl (pl_T V c g f)]
  refine Finset.sum_congr rfl fun R _ => ?_
  unfold pl_T
  rw [dif_pos R.isLt]

theorem pl_flushed_eq (c : Dev nD) (t : Fin cfg2.N) (hf : (cfg2.win 9).flush t = true) :
    (dat (F := Ideal) V c).flushed 9 t = ((cfg2.win 9).blk t).view.read (Elt Ideal) (Spec.poolOf (pl_L V c) (pl_bid V c)) := by
  have hN : cfg2.N = 20 := N_2
  have h19 : t.val = 19 := by have := (flush2_9 t).mp hf; have := t.isLt; omega
  show (cfg2.win 9).cut (grid2.coords t) ((dat V c).after 9 t) = _
  rw [after_9, pl_last V c t h19]
  obtain ⟨-, -, -, -, -, -, -, -, -, -, -, -, -, -, -, -, e16, e17⟩ := pl_idx t
  have hz' : (fun a => win2_9.index t a * (Pipeline.arrRef spec2 9).ty.shape.size a) = fun _ => 0 := funext fun a => by
    match a with
    | ⟨0, _⟩ => show win2_9.index t (0 : Fin 2) * 64 = 0; rw [e16]
    | ⟨1, _⟩ => show win2_9.index t (1 : Fin 2) * 128 = 0; rw [e17]
  exact (Memref.read_access_unit_zero (Elt Ideal) (Pipeline.arrRef spec2 9) hz' (fun a => by rw [congrFun hz' a]; simp)
    (Spec.poolOf (pl_L V c) (pl_bid V c))).symm

end Array

theorem arr9_eq (c : Dev nD) :
    (dat (F := Ideal) V c).arrAt 9 cfg2.N
      = Spec.poolOf (Spec.layerH (V c (Pipeline.arrRef spec2 3) (ix2 0 0)) (V c (Pipeline.arrRef spec2 0)) (V c (Pipeline.arrRef spec2 1))
        (V c (Pipeline.arrRef spec2 4)) (fun f => V c (Pipeline.arrRef spec2 5) (ix2 0 f))
        (V c (Pipeline.arrRef spec2 6)) (fun f => V c (Pipeline.arrRef spec2 7) (ix2 0 f)))
          (fun r => V c (Pipeline.arrRef spec2 2) (ix2 r 0)) := by
  have hN : cfg2.N = 20 := N_2
  have h19 : 19 < cfg2.N := by omega
  refine (dat (F := Ideal) V c).arrAt_eq_of_cover 9 (Spec.poolOf (pl_L V c) (pl_bid V c)) (pl_flushed_eq V c) fun i => ?_
  obtain ⟨-, -, -, -, -, -, -, -, -, -, -, -, -, -, -, -, e16, e17⟩ := pl_idx ⟨19, h19⟩
  refine ⟨⟨19, h19⟩, (flush2_9 _).mpr rfl, ?_⟩
  rw [show ((cfg2.win 9).blk ⟨19, h19⟩).view.set = (win2_9.rect ⟨19, h19⟩).set from
    View.set_slice_whole (Pipeline.arrRef spec2 9) (win2_9.rect ⟨19, h19⟩), Rect.mem_set_unit]
  intro a
  have h0 : (i 0 : Nat) < 64 := (i 0).isLt
  have h1 : (i 1 : Nat) < 128 := (i 1).isLt
  match a with
  | ⟨0, _⟩ =>
    show win2_9.index ⟨19, h19⟩ (0 : Fin 2) * 64 ≤ (i 0 : Nat) ∧ (i 0 : Nat) < win2_9.index ⟨19, h19⟩ (0 : Fin 2) * 64 + 64
    rw [e16]; omega
  | ⟨1, _⟩ =>
    show win2_9.index ⟨19, h19⟩ (1 : Fin 2) * 128 ≤ (i 1 : Nat) ∧ (i 1 : Nat) < win2_9.index ⟨19, h19⟩ (1 : Fin 2) * 128 + 128
    rw [e17]; omega

end Cert.KernelIdeal.Hand.R2

end
-- ==== Proof.KIHost2.lean ====
import proofs.«421016_j46033459478730_2_alg».proof.Proof.KIRun
import proofs.«421016_j46033459478730_2_alg».proof.Proof.KIVal2H
import proofs.«421016_j46033459478730_2_alg».proof.Proof.KIVal2P
import proofs.«421016_j46033459478730_2_alg».proof.Proof.RefVal
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

namespace H2

section Stretch

variable (W : Valuation τ sig (Elt Ideal))

theorem extf_id {s : Shape} (y : FVec Ideal s .bf16) (h : FTy.bf16.bits < FTy.f32.bits) : extf .f32 y h = y := rfl

theorem cast_scalar {α : Type} (y : S_.Idx → α) (h : S_.ShapeCasts S1x1) (j : S1x1.Idx) : shapeCast S1x1 y h j = y ix0 := by
  unfold shapeCast
  exact congrArg y (eq_ix0 _)

theorem cast_column {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem kept (r : Ref sig .tc) (h : r ∉ hostOps2_W) :
    StableHlo.after hostOps2 W (Proc.devRef .tc r) = W (Proc.devRef .tc r) :=
  StableHlo.after_of_writes_sub hostOps2 W hostOps2_writes h

set_option maxHeartbeats 1000000 in
theorem sums_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128x128, .f32⟩ : BufTy).Contents (Elt Ideal)) (x10 : (⟨S3x128, .f32⟩ : BufTy).Contents (Elt Ideal)) (x11 : (⟨S3, .f32⟩ : BufTy).Contents (Elt Ideal))
    (hrows : W (Proc.devRef .tc main_v32_0) = Cert.ReferenceIdeal.Read.val_main_v46 (F := Ideal) x0 x1 x3 x4 x5 x6 x7 x8 x9 x10 x11)
    (hsrc : W (Proc.devRef .tc main_v1) = Cert.ReferenceIdeal.Read.val_main_v1 (F := Ideal) x1)
    (hdst : W (Proc.devRef .tc main_v3) = Cert.ReferenceIdeal.Read.val_main_v3 (F := Ideal) x1) :
    StableHlo.after hostOps2 W (Proc.devRef .tc main_v43) = Cert.ReferenceIdeal.Read.val_main_v59 (F := Ideal) x0 x1 x3 x4 x5 x6 x7 x8 x9 x10 x11 := by
  after_results
  rw [hrows, hsrc, hdst, extf_id]
  rfl

set_option maxHeartbeats 400000 in
theorem eps_eq (x11 : (⟨S3, .f32⟩ : BufTy).Contents (Elt Ideal)) (h11 : W (Proc.devRef .tc main_arg11) = x11) :
    (StableHlo.after hostOps2 W (Proc.devRef .tc main_v46) : S1x1.Idx → EReal) (ix2 0 0) = Cert.ReferenceIdeal.Read.val_main_v61 (F := Ideal) x11 ix0 := by
  have e : (StableHlo.after hostOps2 W (Proc.devRef .tc main_v46) : S1x1.Idx → EReal)
      = shapeCast S1x1 (Cert.ReferenceIdeal.Read.val_main_v61 (F := Ideal) x11) shapeCasts_S_S1x1 := by
    after_results
    rw [h11]
    rfl
  rw [e]
  exact cast_scalar _ _ _

set_option maxHeartbeats 400000 in
theorem wA_eq (x7 : (⟨S3x128x128, .f32⟩ : BufTy).Contents (Elt Ideal)) (h7 : W (Proc.devRef .tc main_arg7) = x7) :
    StableHlo.after hostOps2 W (Proc.devRef .tc main_v48) = Cert.ReferenceIdeal.Read.val_main_v67 (F := Ideal) x7 := by
  after_results
  rw [h7]
  rfl

set_option maxHeartbeats 400000 in
theorem wB_eq (x9 : (⟨S3x128x128, .f32⟩ : BufTy).Contents (Elt Ideal)) (h9 : W (Proc.devRef .tc main_arg9) = x9) :
    StableHlo.after hostOps2 W (Proc.devRef .tc main_v52) = Cert.ReferenceIdeal.Read.val_main_v76 (F := Ideal) x9 := by
  after_results
  rw [h9]
  rfl

set_option maxHeartbeats 400000 in
theorem bA_eq (x8 : (⟨S3x128, .f32⟩ : BufTy).Contents (Elt Ideal)) (h8 : W (Proc.devRef .tc main_arg8) = x8) (f : Fin 128) :
    (StableHlo.after hostOps2 W (Proc.devRef .tc main_v55) : S1x128.Idx → EReal) (ix2 0 f) = Cert.ReferenceIdeal.Read.val_main_v70 (F := Ideal) x8 (ix1 f) := by
  have e : (StableHlo.after hostOps2 W (Proc.devRef .tc main_v55) : S1x128.Idx → EReal)
      = shapeCast S1x128 (Cert.ReferenceIdeal.Read.val_main_v70 (F := Ideal) x8) shapeCasts_S128_S1x128 := by
    after_results
    rw [h8]
    rfl
  rw [e]
  exact shapeCast_a_1a_apply _ _ 0 f

set_option maxHeartbeats 400000 in
theorem bB_eq (x10 : (⟨S3x128, .f32⟩ : BufTy).Contents (Elt Ideal)) (h10 : W (Proc.devRef .tc main_arg10) = x10) (f : Fin 128) :
    (StableHlo.after hostOps2 W (Proc.devRef .tc main_v56) : S1x128.Idx → EReal) (ix2 0 f) = Cert.ReferenceIdeal.Read.val_main_v79 (F := Ideal) x10 (ix1 f) := by
  have e : (StableHlo.after hostOps2 W (Proc.devRef .tc main_v56) : S1x128.Idx → EReal)
      = shapeCast S1x128 (Cert.ReferenceIdeal.Read.val_main_v79 (F := Ideal) x10) shapeCasts_S128_S1x128 := by
    after_results
    rw [h10]
    rfl
  rw [e]
  exact shapeCast_a_1a_apply _ _ 0 f

end Stretch

end H2

namespace H2

section Region

variable (W : (c : Dev nD) → Valuation τ sig (Elt Ideal))

abbrev VW : (c : Dev nD) → (b : Ref sig .tc) → Buf (Elt Ideal) ((c : Thread nD τ).loc b) :=
  fun c b => StableHlo.after hostOps2 (W c) b

theorem layerH_congr {e e' : EReal} {h h' agg agg' : Spec.SN.Idx → EReal} {W1 W1' W2 W2' : Spec.SW.Idx → EReal}
    {b1 b1' b2 b2' : Fin 128 → EReal} (he : e = e') (hh : h = h') (hagg : agg = agg') (hW1 : W1 = W1') (hb1 : b1 = b1')
    (hW2 : W2 = W2') (hb2 : b2 = b2') :
    Spec.layerH e h agg W1 b1 W2 b2 = Spec.layerH e' h' agg' W1' b1' W2' b2' := by
  subst he hh hagg hW1 hb1 hW2 hb2
  rfl

set_option maxHeartbeats 1000000 in
theorem rows_of (c : Dev nD) (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128x128, .f32⟩ : BufTy).Contents (Elt Ideal)) (x10 : (⟨S3x128, .f32⟩ : BufTy).Contents (Elt Ideal)) (x11 : (⟨S3, .f32⟩ : BufTy).Contents (Elt Ideal))
    (hrows : W c (Proc.devRef .tc main_v32_0) = Cert.ReferenceIdeal.Read.val_main_v46 (F := Ideal) x0 x1 x3 x4 x5 x6 x7 x8 x9 x10 x11)
    (hsrc : W c (Proc.devRef .tc main_v1) = Cert.ReferenceIdeal.Read.val_main_v1 (F := Ideal) x1)
    (hdst : W c (Proc.devRef .tc main_v3) = Cert.ReferenceIdeal.Read.val_main_v3 (F := Ideal) x1)
    (h7 : W c (Proc.devRef .tc main_arg7) = x7) (h8 : W c (Proc.devRef .tc main_arg8) = x8)
    (h9 : W c (Proc.devRef .tc main_arg9) = x9) (h10 : W c (Proc.devRef .tc main_arg10) = x10)
    (h11 : W c (Proc.devRef .tc main_arg11) = x11) :
    (R2.dat (F := Ideal) (VW W) c).arrAt 8 cfg2.N = Cert.ReferenceIdeal.Read.val_main_v82 (F := Ideal) x0 x1 x3 x4 x5 x6 x7 x8 x9 x10 x11 := by
  refine (R2.arr8_eq (VW W) c).trans ?_
  refine Eq.trans ?_ (Cert.ReferenceIdeal.RefVal.h2_eq x0 x1 x3 x4 x5 x6 x7 x8 x9 x10 x11).symm
  exact layerH_congr (eps_eq (W c) x11 h11) ((kept (W c) main_v32_0 (by decide)).trans hrows)
    (sums_eq (W c) x0 x1 x3 x4 x5 x6 x7 x8 x9 x10 x11 hrows hsrc hdst) (wA_eq (W c) x7 h7) (funext fun f => bA_eq (W c) x8 h8 f)
    (wB_eq (W c) x9 h9) (funext fun f => bB_eq (W c) x10 h10 f)

end Region

end H2

namespace H2

section Region

variable (W : (c : Dev nD) → Valuation τ sig (Elt Ideal))

set_option maxHeartbeats 1000000 in
theorem pool_of (c : Dev nD) (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128x128, .f32⟩ : BufTy).Contents (Elt Ideal)) (x10 : (⟨S3x128, .f32⟩ : BufTy).Contents (Elt Ideal)) (x11 : (⟨S3, .f32⟩ : BufTy).Contents (Elt Ideal))
    (hrows : W c (Proc.devRef .tc main_v32_0) = Cert.ReferenceIdeal.Read.val_main_v46 (F := Ideal) x0 x1 x3 x4 x5 x6 x7 x8 x9 x10 x11)
    (hsrc : W c (Proc.devRef .tc main_v1) = Cert.ReferenceIdeal.Read.val_main_v1 (F := Ideal) x1)
    (hdst : W c (Proc.devRef .tc main_v3) = Cert.ReferenceIdeal.Read.val_main_v3 (F := Ideal) x1)
    (hid : ∀ r : Fin 100000, (W c (Proc.devRef .tc main_v4) : S100000x1.Idx → BitVec 32) (ix2 r 0) = x2 (ix1 r))
    (h7 : W c (Proc.devRef .tc main_arg7) = x7) (h8 : W c (Proc.devRef .tc main_arg8) = x8)
    (h9 : W c (Proc.devRef .tc main_arg9) = x9) (h10 : W c (Proc.devRef .tc main_arg10) = x10)
    (h11 : W c (Proc.devRef .tc main_arg11) = x11) :
    (R2.dat (F := Ideal) (VW W) c).arrAt 9 cfg2.N = Cert.ReferenceIdeal.Read.val_main_v85 (F := Ideal) x0 x1 x2 x3 x4 x5 x6 x7 x8 x9 x10 x11 := by
  refine (R2.arr9_eq (VW W) c).trans ?_
  refine Eq.trans ?_ (Cert.ReferenceIdeal.RefVal.p2_eq x0 x1 x2 x3 x4 x5 x6 x7 x8 x9 x10 x11).symm
  have eH := (R2.arr8_eq (VW W) c).symm.trans (rows_of W c x0 x1 x3 x4 x5 x6 x7 x8 x9 x10 x11 hrows hsrc hdst h7 h8 h9 h10 h11)
  have eid : (fun r : Fin 100000 => VW W c (Pipeline.arrRef spec2 2) (ix2 r 0)) = fun r => x2 (ix1 r) :=
    funext fun r => (congrFun (kept (W c) main_v4 (by decide)) (ix2 r 0)).trans (hid r)
  exact congr (congrArg Spec.poolOf eH) eid

end Region

section Leaves

variable (m : (ℓ : Loc nD τ sig) → Buf (Elt Ideal) ℓ)

theorem back (c : Dev nD) (r : Ref sig .tc) (h4 : r ∉ ([main_v32_0, main_v32_1] : List (Ref sig .tc))) (h3 : r ∉ hostOps1_W)
    (h2 : r ∉ ([main_v7] : List (Ref sig .tc))) :
    U4 m c (Proc.devRef .tc r) = Gen.V1 m c (Proc.devRef .tc r) := by
  have e4 := Gen.V4_of m (outs m) c r h4
  have e3 := Gen.V3_of m (outs m) c r h3
  have e2 := Gen.V2_of m (outs m) c r h2
  rw [V4_eq m c, V3_eq m c] at e4
  rw [V3_eq m c, V2_eq m c] at e3
  rw [V2_eq m c] at e2
  exact e4.trans (e3.trans e2)

theorem arg_kept (c : Dev nD) (r : Ref sig .tc) (h4 : r ∉ ([main_v32_0, main_v32_1] : List (Ref sig .tc))) (h3 : r ∉ hostOps1_W)
    (h2 : r ∉ ([main_v7] : List (Ref sig .tc))) (h1 : r ∉ hostOps0_W) :
    U4 m c (Proc.devRef .tc r) = m ((c.tc : Thread nD τ).loc r) :=
  (back m c r h4 h3 h2).trans ((Gen.V1_of m c r h1).trans rfl)

set_option maxHeartbeats 400000 in
theorem src_first (c : Dev nD) :
    Gen.V1 m c (Proc.devRef .tc main_v1) = Cert.ReferenceIdeal.Read.val_main_v1 (F := Ideal) (m ((c.tc : Thread nD τ).loc main_arg1)) := by
  show StableHlo.after hostOps0 (fun b => m (c, b)) (Proc.devRef .tc main_v1) = _
  after_results
  rfl

set_option maxHeartbeats 400000 in
theorem dst_first (c : Dev nD) :
    Gen.V1 m c (Proc.devRef .tc main_v3) = Cert.ReferenceIdeal.Read.val_main_v3 (F := Ideal) (m ((c.tc : Thread nD τ).loc main_arg1)) := by
  show StableHlo.after hostOps0 (fun b => m (c, b)) (Proc.devRef .tc main_v3) = _
  after_results
  rfl

set_option maxHeartbeats 400000 in
theorem ids_first (c : Dev nD) (r : Fin 100000) :
    (Gen.V1 m c (Proc.devRef .tc main_v4) : S100000x1.Idx → BitVec 32) (ix2 r 0) = (m ((c.tc : Thread nD τ).loc main_arg2)) (ix1 r) := by
  have e : (Gen.V1 m c (Proc.devRef .tc main_v4) : S100000x1.Idx → BitVec 32)
      = shapeCast S100000x1 ((m ((c.tc : Thread nD τ).loc main_arg2)) : S100000.Idx → BitVec 32) shapeCasts_S100000_S100000x1 := by
    show StableHlo.after hostOps0 (fun b => m (c, b)) (Proc.devRef .tc main_v4) = _
    after_results
    rfl
  rw [e]
  exact cast_column _ _ r 0

end Leaves

end H2

variable (m : (ℓ : Loc nD τ sig) → Buf (Elt Ideal) ℓ)

set_option maxHeartbeats 1000000 in
theorem layer2 (c : Dev nD)
    (hprev : U4 m c main_v32_0 = Cert.ReferenceIdeal.Read.val_main_v46 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    U6 m c main_v57_0 = Cert.ReferenceIdeal.Read.val_main_v82 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    ∧ U6 m c main_v57_1 = Cert.ReferenceIdeal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have hsrc : U4 m c (Proc.devRef .tc main_v1) = Cert.ReferenceIdeal.Read.val_main_v1 (F := Ideal) (m ((c.tc : Thread nD τ).loc main_arg1)) :=
    (H2.back m c main_v1 (by decide) (by decide) (by decide)).trans (H2.src_first m c)
  have hdst : U4 m c (Proc.devRef .tc main_v3) = Cert.ReferenceIdeal.Read.val_main_v3 (F := Ideal) (m ((c.tc : Thread nD τ).loc main_arg1)) :=
    (H2.back m c main_v3 (by decide) (by decide) (by decide)).trans (H2.dst_first m c)
  have hid : ∀ r : Fin 100000, (U4 m c (Proc.devRef .tc main_v4) : S100000x1.Idx → BitVec 32) (ix2 r 0) = (m ((c.tc : Thread nD τ).loc main_arg2)) (ix1 r) :=
    fun r => (congrFun (H2.back m c main_v4 (by decide) (by decide) (by decide)) (ix2 r 0)).trans (H2.ids_first m c r)
  have h7 := H2.arg_kept m c main_arg7 (by decide) (by decide) (by decide) (by decide)
  have h8 := H2.arg_kept m c main_arg8 (by decide) (by decide) (by decide) (by decide)
  have h9 := H2.arg_kept m c main_arg9 (by decide) (by decide) (by decide) (by decide)
  have h10 := H2.arg_kept m c main_arg10 (by decide) (by decide) (by decide) (by decide)
  have h11 := H2.arg_kept m c main_arg11 (by decide) (by decide) (by decide) (by decide)
  have e8 : U6 m c main_v57_0 = (R2.dat (F := Ideal) (VV5 m) c).arrAt 8 cfg2.N :=
    (Function.update_of_ne (StableHlo.devRef_ne_of_ne (by decide) : (Proc.devRef .tc main_v57_0 : DevRef τ sig) ≠ Proc.devRef .tc main_v57_1) _ _).trans
      ((Function.update_self _ _ _).trans
        (Pipeline.withArrays_arr spec2 launch2.win.arr_inj c (U5 m c) (fun w => (R2.dat (F := Ideal) (VV5 m) c).arrAt w cfg2.N) 8))
  have e9 : U6 m c main_v57_1 = (R2.dat (F := Ideal) (VV5 m) c).arrAt 9 cfg2.N :=
    (Function.update_self _ _ _).trans
      (Pipeline.withArrays_arr spec2 launch2.win.arr_inj c (U5 m c) (fun w => (R2.dat (F := Ideal) (VV5 m) c).arrAt w cfg2.N) 9)
  exact ⟨e8.trans (H2.rows_of (U4 m) c (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) hprev hsrc hdst h7 h8 h9 h10 h11),
    e9.trans (H2.pool_of (U4 m) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) hprev hsrc hdst hid h7 h8 h9 h10 h11)⟩

end Cert.KernelIdeal.Hand

end
-- ==== Proof.KIVal3H.lean ====
import proofs.«421016_j46033459478730_2_alg».proof.Proof.KIReg3
import proofs.«421016_j46033459478730_2_alg».proof.Proof.KIVal1H
import proofs.«421016_j46033459478730_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand.R3

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open R1 (out_A_8_eq out_B_8_eq tile_eq)

section Blocks

variable (V : (c : Dev nD) → (b : Ref sig .tc) → Buf (Elt Ideal) ((c : Thread nD τ).loc b))

theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

theorem rows_apply (c : Dev nD) (t : Fin cfg3.N) (r : Fin 5000) (j : Fin 128) (R : Fin 100000) (hR : R.val = t.val * 5000 + r.val) :
    (iblk V c 0 t : FVec Ideal S5000x128 .bf16) (ix2 r j) = (V c (Pipeline.arrRef spec3 0) : Spec.SN.Idx → EReal) (ix2 R j) := by
  unfold iblk
  rw [View.read_apply]
  show (V c (Pipeline.arrRef spec3 0) : Spec.SN.Idx → EReal) (((cfg3.win 0).blk t).view.emb (ix2 r j)) = _
  refine congrArg (V c (Pipeline.arrRef spec3 0) : Spec.SN.Idx → EReal) (funext fun a => Fin.ext ?_)
  obtain ⟨e00, e01, e10, e11, -⟩ := idx_facts t
  match a with
  | ⟨0, _⟩ => show win3_0.index t (0 : Fin 2) * 5000 + 1 * r.val = R.val; rw [e00, hR]; omega
  | ⟨1, _⟩ => show win3_0.index t (1 : Fin 2) * 128 + 1 * j.val = j.val; rw [e01]; omega

theorem sums_apply (c : Dev nD) (t : Fin cfg3.N) (r : Fin 5000) (j : Fin 128) (R : Fin 100000) (hR : R.val = t.val * 5000 + r.val) :
    (iblk V c 1 t : FVec Ideal S5000x128 .f32) (ix2 r j) = (V c (Pipeline.arrRef spec3 1) : Spec.SN.Idx → EReal) (ix2 R j) := by
  unfold iblk
  rw [View.read_apply]
  show (V c (Pipeline.arrRef spec3 1) : Spec.SN.Idx → EReal) (((cfg3.win 1).blk t).view.emb (ix2 r j)) = _
  refine congrArg (V c (Pipeline.arrRef spec3 1) : Spec.SN.Idx → EReal) (funext fun a => Fin.ext ?_)
  obtain ⟨e00, e01, e10, e11, -⟩ := idx_facts t
  match a with
  | ⟨0, _⟩ => show win3_1.index t (0 : Fin 2) * 5000 + 1 * r.val = R.val; rw [e10, hR]; omega
  | ⟨1, _⟩ => show win3_1.index t (1 : Fin 2) * 128 + 1 * j.val = j.val; rw [e11]; omega

theorem eps_apply (c : Dev nD) (t : Fin cfg3.N) (p : Fin 1) (q : Fin 1) :
    (iblk V c 3 t : FVec Ideal S1x1 .f32) (ix2 p q) = (V c (Pipeline.arrRef spec3 3) : S1x1.Idx → EReal) (ix2 p q) := by
  unfold iblk
  rw [View.read_apply]
  show (V c (Pipeline.arrRef spec3 3) : S1x1.Idx → EReal) (((cfg3.win 3).blk t).view.emb (ix2 p q)) = _
  refine congrArg (V c (Pipeline.arrRef spec3 3) : S1x1.Idx → EReal) (funext fun a => Fin.ext ?_)
  obtain ⟨-, -, -, -, e30, e31, e40, e41, e50, e51, e60, e61, e70, e71, -⟩ := idx_facts t
  match a with
  | ⟨0, _⟩ => show win3_3.index t (0 : Fin 2) * 1 + 1 * p.val = p.val; rw [e30]; omega
  | ⟨1, _⟩ => show win3_3.index t (1 : Fin 2) * 1 + 1 * q.val = q.val; rw [e31]; omega

theorem wA_apply (c : Dev nD) (t : Fin cfg3.N) (p : Fin 128) (q : Fin 128) :
    (iblk V c 4 t : FVec Ideal S128x128 .f32) (ix2 p q) = (V c (Pipeline.arrRef spec3 4) : S128x128.Idx → EReal) (ix2 p q) := by
  unfold iblk
  rw [View.read_apply]
  show (V c (Pipeline.arrRef spec3 4) : S128x128.Idx → EReal) (((cfg3.win 4).blk t).view.emb (ix2 p q)) = _
  refine congrArg (V c (Pipeline.arrRef spec3 4) : S128x128.Idx → EReal) (funext fun a => Fin.ext ?_)
  obtain ⟨-, -, -, -, e30, e31, e40, e41, e50, e51, e60, e61, e70, e71, -⟩ := idx_facts t
  match a with
  | ⟨0, _⟩ => show win3_4.index t (0 : Fin 2) * 128 + 1 * p.val = p.val; rw [e40]; omega
  | ⟨1, _⟩ => show win3_4.index t (1 : Fin 2) * 128 + 1 * q.val = q.val; rw [e41]; omega

theorem bA_apply (c : Dev nD) (t : Fin cfg3.N) (p : Fin 1) (q : Fin 128) :
    (iblk V c 5 t : FVec Ideal S1x128 .f32) (ix2 p q) = (V c (Pipeline.arrRef spec3 5) : S1x128.Idx → EReal) (ix2 p q) := by
  unfold iblk
  rw [View.read_apply]
  show (V c (Pipeline.arrRef spec3 5) : S1x128.Idx → EReal) (((cfg3.win 5).blk t).view.emb (ix2 p q)) = _
  refine congrArg (V c (Pipeline.arrRef spec3 5) : S1x128.Idx → EReal) (funext fun a => Fin.ext ?_)
  obtain ⟨-, -, -, -, e30, e31, e40, e41, e50, e51, e60, e61, e70, e71, -⟩ := idx_facts t
  match a with
  | ⟨0, _⟩ => show win3_5.index t (0 : Fin 2) * 1 + 1 * p.val = p.val; rw [e50]; omega
  | ⟨1, _⟩ => show win3_5.index t (1 : Fin 2) * 128 + 1 * q.val = q.val; rw [e51]; omega

theorem wB_apply (c : Dev nD) (t : Fin cfg3.N) (p : Fin 128) (q : Fin 128) :
    (iblk V c 6 t : FVec Ideal S128x128 .f32) (ix2 p q) = (V c (Pipeline.arrRef spec3 6) : S128x128.Idx → EReal) (ix2 p q) := by
  unfold iblk
  rw [View.read_apply]
  show (V c (Pipeline.arrRef spec3 6) : S128x128.Idx → EReal) (((cfg3.win 6).blk t).view.emb (ix2 p q)) = _
  refine congrArg (V c (Pipeline.arrRef spec3 6) : S128x128.Idx → EReal) (funext fun a => Fin.ext ?_)
  obtain ⟨-, -, -, -, e30, e31, e40, e41, e50, e51, e60, e61, e70, e71, -⟩ := idx_facts t
  match a with
  | ⟨0, _⟩ => show win3_6.index t (0 : Fin 2) * 128 + 1 * p.val = p.val; rw [e60]; omega
  | ⟨1, _⟩ => show win3_6.index t (1 : Fin 2) * 128 + 1 * q.val = q.val; rw [e61]; omega

theorem bB_apply (c : Dev nD) (t : Fin cfg3.N) (p : Fin 1) (q : Fin 128) :
    (iblk V c 7 t : FVec Ideal S1x128 .f32) (ix2 p q) = (V c (Pipeline.arrRef spec3 7) : S1x128.Idx → EReal) (ix2 p q) := by
  unfold iblk
  rw [View.read_apply]
  show (V c (Pipeline.arrRef spec3 7) : S1x128.Idx → EReal) (((cfg3.win 7).blk t).view.emb (ix2 p q)) = _
  refine congrArg (V c (Pipeline.arrRef spec3 7) : S1x128.Idx → EReal) (funext fun a => Fin.ext ?_)
  obtain ⟨-, -, -, -, e30, e31, e40, e41, e50, e51, e60, e61, e70, e71, -⟩ := idx_facts t
  match a with
  | ⟨0, _⟩ => show win3_7.index t (0 : Fin 2) * 1 + 1 * p.val = p.val; rw [e70]; omega
  | ⟨1, _⟩ => show win3_7.index t (1 : Fin 2) * 128 + 1 * q.val = q.val; rw [e71]; omega

abbrev layerOf (c : Dev nD) : Spec.SN.Idx → EReal :=
  Spec.layerH (V c (Pipeline.arrRef spec3 3) (ix2 0 0)) (V c (Pipeline.arrRef spec3 0)) (V c (Pipeline.arrRef spec3 1))
    (V c (Pipeline.arrRef spec3 4)) (fun f => V c (Pipeline.arrRef spec3 5) (ix2 0 f))
    (V c (Pipeline.arrRef spec3 6)) (fun f => V c (Pipeline.arrRef spec3 7) (ix2 0 f))

theorem outs_eq (c : Dev nD) (t : Fin cfg3.N) :
    (outsAt V c t.val t.isLt).1 = k1_pay4 (F := Ideal) (iblk V c 0 t) (iblk V c 1 t) (iblk V c 3 t) (iblk V c 4 t) (iblk V c 5 t) (iblk V c 6 t) (iblk V c 7 t) := by
  by_cases h0 : t.val % 20 = 0
  · rw [outsAt_A V c t h0]
    dsimp only [stepA]
    exact out_A_8_eq (F := Ideal) c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) ((hcond t).mpr h0) (iblk V c 0 t) (iblk V c 1 t) (iblk V c 2 t) (iblk V c 3 t) (iblk V c 4 t) (iblk V c 5 t) (iblk V c 6 t) (iblk V c 7 t)
  · rw [outsAt_B V c t h0]
    dsimp only [stepB]
    exact out_B_8_eq (F := Ideal) c (grid3.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (fun h => h0 ((hcond t).mp h)) (iblk V c 0 t) (iblk V c 1 t) (iblk V c 2 t) (iblk V c 3 t) (iblk V c 4 t) (iblk V c 5 t) (iblk V c 6 t) (iblk V c 7 t) (outsAt V c (t.val - 1) (Nat.lt_of_le_of_lt (Nat.sub_le _ _) t.isLt)).2

theorem flushed_eq (c : Dev nD) (t : Fin cfg3.N) :
    (dat (F := Ideal) V c).flushed 8 t = ((cfg3.win 8).blk t).view.read (Elt Ideal) (layerOf V c) := by
  show (cfg3.win 8).cut (grid3.coords t) ((dat (F := Ideal) V c).after 8 t) = _
  rw [after_8, outs_eq]
  funext y
  obtain ⟨r, f, rfl⟩ : ∃ (r : Fin 5000) (f : Fin 128), y = ix2 r f := ⟨y 0, y 1, eq_ix2 y⟩
  rw [View.read_apply]
  have hN : t.val < 20 := lt_of_lt_of_eq t.isLt (show cfg3.N = 20 from N_3)
  obtain ⟨R, hR⟩ : ∃ R : Fin 100000, R.val = t.val * 5000 + r.val := ⟨⟨t.val * 5000 + r.val, by omega⟩, rfl⟩
  obtain ⟨-, -, -, -, -, -, -, -, -, -, -, -, -, -, e80, e81⟩ := idx_facts t
  have hemb : ((cfg3.win 8).blk t).view.emb (ix2 r f) = (ix2 R f : Spec.SN.Idx) := funext fun a => Fin.ext (by
    match a with
    | ⟨0, _⟩ => show win3_8.index t (0 : Fin 2) * 5000 + 1 * r.val = R.val; rw [e80, hR]; omega
    | ⟨1, _⟩ => show win3_8.index t (1 : Fin 2) * 128 + 1 * f.val = f.val; rw [e81]; omega)
  show k1_pay4 (F := Ideal) (iblk V c 0 t) (iblk V c 1 t) (iblk V c 3 t) (iblk V c 4 t) (iblk V c 5 t) (iblk V c 6 t) (iblk V c 7 t) (ix2 r f)
    = layerOf V c (((cfg3.win 8).blk t).view.emb (ix2 r f))
  rw [hemb]
  exact tile_eq (V c (Pipeline.arrRef spec3 3) (ix2 0 0)) (V c (Pipeline.arrRef spec3 0)) (V c (Pipeline.arrRef spec3 1))
    (V c (Pipeline.arrRef spec3 4)) (fun f => V c (Pipeline.arrRef spec3 5) (ix2 0 f))
    (V c (Pipeline.arrRef spec3 6)) (fun f => V c (Pipeline.arrRef spec3 7) (ix2 0 f))
    (iblk V c 0 t) (iblk V c 1 t) (iblk V c 3 t) (iblk V c 4 t) (iblk V c 5 t) (iblk V c 6 t) (iblk V c 7 t) r f R
    (fun j => rows_apply V c t r j R hR) (fun j => sums_apply V c t r j R hR) (eps_apply V c t 0 0)
    (fun j k => wA_apply V c t j k) (fun k => bA_apply V c t 0 k) (fun j k => wB_apply V c t j k) (fun k => bB_apply V c t 0 k)

end Blocks

section Cover

variable (V : (c : Dev nD) → (b : Ref sig .tc) → Buf (Elt Ideal) ((c : Thread nD τ).loc b))

theorem mem_blk (t : Fin cfg3.N) (i : Spec.SN.Idx) :
    i ∈ ((cfg3.win 8).blk t).view.set ↔ ∀ a : Fin 2, win3_8.index t a * S5000x128.size a ≤ (i a).val ∧ (i a).val < win3_8.index t a * S5000x128.size a + S5000x128.size a := by
  show i ∈ ((View.whole (Pipeline.arrRef spec3 8)).slice (win3_8.rect t)).set ↔ _
  rw [View.set_slice_whole, Rect.mem_set_unit]
  exact Iff.rfl

theorem cover (i : Spec.SN.Idx) : ∃ t : Fin cfg3.N, (cfg3.win 8).flush t = true ∧ i ∈ ((cfg3.win 8).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  refine ⟨t, flush3_8 t, ?_⟩
  rw [mem_blk]
  obtain ⟨-, -, -, -, -, -, -, -, -, -, -, -, -, -, e80, e81⟩ := idx_facts t
  intro a
  match a with
  | ⟨0, _⟩ =>
    show win3_8.index t (0 : Fin 2) * 5000 ≤ (i 0).val ∧ (i 0).val < win3_8.index t (0 : Fin 2) * 5000 + 5000
    rw [e80, ht]; omega
  | ⟨1, _⟩ =>
    show win3_8.index t (1 : Fin 2) * 128 ≤ (i 1).val ∧ (i 1).val < win3_8.index t (1 : Fin 2) * 128 + 128
    rw [e81]; omega

end Cover

variable (V : (c : Dev nD) → (b : Ref sig .tc) → Buf (Elt Ideal) ((c : Thread nD τ).loc b))

theorem arr8_eq (c : Dev nD) :
    (dat (F := Ideal) V c).arrAt 8 cfg3.N
      = (Spec.layerH (V c (Pipeline.arrRef spec3 3) (ix2 0 0)) (V c (Pipeline.arrRef spec3 0)) (V c (Pipeline.arrRef spec3 1))
        (V c (Pipeline.arrRef spec3 4)) (fun f => V c (Pipeline.arrRef spec3 5) (ix2 0 f))
        (V c (Pipeline.arrRef spec3 6)) (fun f => V c (Pipeline.arrRef spec3 7) (ix2 0 f))) :=
  (dat (F := Ideal) V c).arrAt_eq_of_cover 8 (layerOf V c) (fun t _ => flushed_eq V c t) cover

end Cert.KernelIdeal.Hand.R3

end
-- ==== Proof.KIVal3P.lean ====
import proofs.«421016_j46033459478730_2_alg».proof.Proof.KIReg3
import proofs.«421016_j46033459478730_2_alg».proof.Proof.KIVal1P
import proofs.«421016_j46033459478730_2_alg».proof.Proof.Spec
import proofs.«421016_j46033459478730_2_alg».proof.Proof.PoolSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand.R3

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open R1 (pl_out_B_9 pl_out_A_9 pl_pay1_apply pl_pay2_apply pl_pay3_apply')

variable (V : (c : Dev nD) → (b : Ref sig .tc) → Buf (Elt Ideal) ((c : Thread nD τ).loc b))

section Blocks

theorem pl_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_9.index t (0 : Fin 2) = 0 ∧ win3_9.index t (1 : Fin 2) = 0 :=
  (by decide +kernel : ∀ t : Fin grid3.N, _)

theorem pl_b0_apply (c : Dev nD) (t : Fin cfg3.N) (r : Fin 5000) (k : Fin 128) (R : Fin 100000) (hR : R.val = 5000 * t.val + r.val) :
    (iblk V c 0 t : Vec Ideal S5000x128 .bf16) (ix2 r k) = (V c (Pipeline.arrRef spec3 0) : Vec Ideal S100000x128 .bf16) (ix2 R k) := by
  obtain ⟨e0, e1, e2, e3, e4, e5, -⟩ := pl_idx t
  unfold iblk
  rw [View.read_apply]
  show V c (Pipeline.arrRef spec3 0) (((cfg3.win 0).blk t).view.emb (ix2 r k)) = V c (Pipeline.arrRef spec3 0) (ix2 R k)
  refine congrArg (V c (Pipeline.arrRef spec3 0)) (funext fun a => Fin.ext ?_)
  match a with
  | ⟨0, _⟩ => show win3_0.index t (0 : Fin 2) * 5000 + 1 * r.val = R.val; rw [e0, hR]; omega
  | ⟨1, _⟩ => show win3_0.index t (1 : Fin 2) * 128 + 1 * k.val = k.val; rw [e1]; omega

theorem pl_b1_apply (c : Dev nD) (t : Fin cfg3.N) (r : Fin 5000) (k : Fin 128) (R : Fin 100000) (hR : R.val = 5000 * t.val + r.val) :
    (iblk V c 1 t : Vec Ideal S5000x128 .f32) (ix2 r k) = (V c (Pipeline.arrRef spec3 1) : Vec Ideal S100000x128 .f32) (ix2 R k) := by
  obtain ⟨e0, e1, e2, e3, e4, e5, -⟩ := pl_idx t
  unfold iblk
  rw [View.read_apply]
  show V c (Pipeline.arrRef spec3 1) (((cfg3.win 1).blk t).view.emb (ix2 r k)) = V c (Pipeline.arrRef spec3 1) (ix2 R k)
  refine congrArg (V c (Pipeline.arrRef spec3 1)) (funext fun a => Fin.ext ?_)
  match a with
  | ⟨0, _⟩ => show win3_1.index t (0 : Fin 2) * 5000 + 1 * r.val = R.val; rw [e2, hR]; omega
  | ⟨1, _⟩ => show win3_1.index t (1 : Fin 2) * 128 + 1 * k.val = k.val; rw [e3]; omega

theorem pl_b2_apply (c : Dev nD) (t : Fin cfg3.N) (r : Fin 5000) (k : Fin 1) (R : Fin 100000) (hR : R.val = 5000 * t.val + r.val) :
    (iblk V c 2 t : Vec Ideal S5000x1 .i32) (ix2 r k) = (V c (Pipeline.arrRef spec3 2) : Vec Ideal S100000x1 .i32) (ix2 R k) := by
  obtain ⟨e0, e1, e2, e3, e4, e5, -⟩ := pl_idx t
  unfold iblk
  rw [View.read_apply]
  show V c (Pipeline.arrRef spec3 2) (((cfg3.win 2).blk t).view.emb (ix2 r k)) = V c (Pipeline.arrRef spec3 2) (ix2 R k)
  refine congrArg (V c (Pipeline.arrRef spec3 2)) (funext fun a => Fin.ext ?_)
  match a with
  | ⟨0, _⟩ => show win3_2.index t (0 : Fin 2) * 5000 + 1 * r.val = R.val; rw [e4, hR]; omega
  | ⟨1, _⟩ => show win3_2.index t (1 : Fin 2) * 1 + 1 * k.val = k.val; rw [e5]; omega

theorem pl_b3_eq (c : Dev nD) (t : Fin cfg3.N) :
    (iblk V c 3 t : Vec Ideal S1x1 .f32) = (V c (Pipeline.arrRef spec3 3) : Vec Ideal S1x1 .f32) := by
  obtain ⟨-, -, -, -, -, -, e6, e7, e8, e9, e10, e11, e12, e13, e14, e15, -⟩ := pl_idx t
  funext j
  obtain ⟨p, q, rfl⟩ : ∃ (p : Fin 1) (q : Fin 1), j = ix2 p q := ⟨j 0, j 1, eq_ix2 j⟩
  unfold iblk
  rw [View.read_apply]
  show V c (Pipeline.arrRef spec3 3) (((cfg3.win 3).blk t).view.emb (ix2 p q)) = V c (Pipeline.arrRef spec3 3) (ix2 p q)
  refine congrArg (V c (Pipeline.arrRef spec3 3)) (funext fun a => Fin.ext ?_)
  match a with
  | ⟨0, _⟩ => show win3_3.index t (0 : Fin 2) * 1 + 1 * p.val = p.val; rw [e6]; omega
  | ⟨1, _⟩ => show win3_3.index t (1 : Fin 2) * 1 + 1 * q.val = q.val; rw [e7]; omega

theorem pl_b4_eq (c : Dev nD) (t : Fin cfg3.N) :
    (iblk V c 4 t : Vec Ideal S128x128 .f32) = (V c (Pipeline.arrRef spec3 4) : Vec Ideal S128x128 .f32) := by
  obtain ⟨-, -, -, -, -, -, e6, e7, e8, e9, e10, e11, e12, e13, e14, e15, -⟩ := pl_idx t
  funext j
  obtain ⟨p, q, rfl⟩ : ∃ (p : Fin 128) (q : Fin 128), j = ix2 p q := ⟨j 0, j 1, eq_ix2 j⟩
  unfold iblk
  rw [View.read_apply]
  show V c (Pipeline.arrRef spec3 4) (((cfg3.win 4).blk t).view.emb (ix2 p q)) = V c (Pipeline.arrRef spec3 4) (ix2 p q)
  refine congrArg (V c (Pipeline.arrRef spec3 4)) (funext fun a => Fin.ext ?_)
  match a with
  | ⟨0, _⟩ => show win3_4.index t (0 : Fin 2) * 128 + 1 * p.val = p.val; rw [e8]; omega
  | ⟨1, _⟩ => show win3_4.index t (1 : Fin 2) * 128 + 1 * q.val = q.val; rw [e9]; omega

theorem pl_b5_eq (c : Dev nD) (t : Fin cfg3.N) :
    (iblk V c 5 t : Vec Ideal S1x128 .f32) = (V c (Pipeline.arrRef spec3 5) : Vec Ideal S1x128 .f32) := by
  obtain ⟨-, -, -, -, -, -, e6, e7, e8, e9, e10, e11, e12, e13, e14, e15, -⟩ := pl_idx t
  funext j
  obtain ⟨p, q, rfl⟩ : ∃ (p : Fin 1) (q : Fin 128), j = ix2 p q := ⟨j 0, j 1, eq_ix2 j⟩
  unfold iblk
  rw [View.read_apply]
  show V c (Pipeline.arrRef spec3 5) (((cfg3.win 5).blk t).view.emb (ix2 p q)) = V c (Pipeline.arrRef spec3 5) (ix2 p q)
  refine congrArg (V c (Pipeline.arrRef spec3 5)) (funext fun a => Fin.ext ?_)
  match a with
  | ⟨0, _⟩ => show win3_5.index t (0 : Fin 2) * 1 + 1 * p.val = p.val; rw [e10]; omega
  | ⟨1, _⟩ => show win3_5.index t (1 : Fin 2) * 128 + 1 * q.val = q.val; rw [e11]; omega

theorem pl_b6_eq (c : Dev nD) (t : Fin cfg3.N) :
    (iblk V c 6 t : Vec Ideal S128x128 .f32) = (V c (Pipeline.arrRef spec3 6) : Vec Ideal S128x128 .f32) := by
  obtain ⟨-, -, -, -, -, -, e6, e7, e8, e9, e10, e11, e12, e13, e14, e15, -⟩ := pl_idx t
  funext j
  obtain ⟨p, q, rfl⟩ : ∃ (p : Fin 128) (q : Fin 128), j = ix2 p q := ⟨j 0, j 1, eq_ix2 j⟩
  unfold iblk
  rw [View.read_apply]
  show V c (Pipeline.arrRef spec3 6) (((cfg3.win 6).blk t).view.emb (ix2 p q)) = V c (Pipeline.arrRef spec3 6) (ix2 p q)
  refine congrArg (V c (Pipeline.arrRef spec3 6)) (funext fun a => Fin.ext ?_)
  match a with
  | ⟨0, _⟩ => show win3_6.index t (0 : Fin 2) * 128 + 1 * p.val = p.val; rw [e12]; omega
  | ⟨1, _⟩ => show win3_6.index t (1 : Fin 2) * 128 + 1 * q.val = q.val; rw [e13]; omega

theorem pl_b7_eq (c : Dev nD) (t : Fin cfg3.N) :
    (iblk V c 7 t : Vec Ideal S1x128 .f32) = (V c (Pipeline.arrRef spec3 7) : Vec Ideal S1x128 .f32) := by
  obtain ⟨-, -, -, -, -, -, e6, e7, e8, e9, e10, e11, e12, e13, e14, e15, -⟩ := pl_idx t
  funext j
  obtain ⟨p, q, rfl⟩ : ∃ (p : Fin 1) (q : Fin 128), j = ix2 p q := ⟨j 0, j 1, eq_ix2 j⟩
  unfold iblk
  rw [View.read_apply]
  show V c (Pipeline.arrRef spec3 7) (((cfg3.win 7).blk t).view.emb (ix2 p q)) = V c (Pipeline.arrRef spec3 7) (ix2 p q)
  refine congrArg (V c (Pipeline.arrRef spec3 7)) (funext fun a => Fin.ext ?_)
  match a with
  | ⟨0, _⟩ => show win3_7.index t (0 : Fin 2) * 1 + 1 * p.val = p.val; rw [e14]; omega
  | ⟨1, _⟩ => show win3_7.index t (1 : Fin 2) * 128 + 1 * q.val = q.val; rw [e15]; omega

end Blocks

section Invariant

abbrev pl_L (c : Dev nD) : Spec.SN.Idx → EReal :=
  Spec.layerH (V c (Pipeline.arrRef spec3 3) (ix2 0 0)) (V c (Pipeline.arrRef spec3 0)) (V c (Pipeline.arrRef spec3 1))
    (V c (Pipeline.arrRef spec3 4)) (fun f => V c (Pipeline.arrRef spec3 5) (ix2 0 f))
    (V c (Pipeline.arrRef spec3 6)) (fun f => V c (Pipeline.arrRef spec3 7) (ix2 0 f))
abbrev pl_bid (c : Dev nD) : Fin 100000 → BitVec 32 := fun r => V c (Pipeline.arrRef spec3 2) (ix2 r 0)

def pl_T (c : Dev nD) (g : Fin 64) (f : Fin 128) (R : ℕ) : EReal :=
  if h : R < 100000 then (if (pl_bid V c ⟨R, h⟩).toInt = ((g.val : Nat) : Int) then pl_L V c (ix2 ⟨R, h⟩ f) else 0) else 0

theorem pl_rows_apply (c : Dev nD) (t : Fin cfg3.N) (r : Fin 5000) (f : Fin 128) (R : Fin 100000) (hR : R.val = 5000 * t.val + r.val) :
    (k1_pay3 (F := Ideal) (iblk V c 0 t) (iblk V c 1 t) (iblk V c 3 t) (iblk V c 4 t) (iblk V c 5 t) (iblk V c 6 t) (iblk V c 7 t)) (ix2 r f) = pl_L V c (ix2 R f) :=
  pl_pay3_apply' (iblk V c 0 t) (iblk V c 1 t) (iblk V c 3 t) (iblk V c 4 t) (iblk V c 5 t) (iblk V c 6 t) (iblk V c 7 t)
    (V c (Pipeline.arrRef spec3 3) (ix2 0 0)) (V c (Pipeline.arrRef spec3 0)) (V c (Pipeline.arrRef spec3 1))
    (V c (Pipeline.arrRef spec3 4)) (fun f => V c (Pipeline.arrRef spec3 5) (ix2 0 f))
    (V c (Pipeline.arrRef spec3 6)) (fun f => V c (Pipeline.arrRef spec3 7) (ix2 0 f)) r R
    (congrFun (pl_b3_eq V c t) (ix2 0 0)) (fun k => pl_b0_apply V c t r k R hR) (fun k => pl_b1_apply V c t r k R hR)
    (pl_b4_eq V c t) (fun f => congrFun (pl_b5_eq V c t) (ix2 0 f)) (pl_b6_eq V c t) (fun f => congrFun (pl_b7_eq V c t) (ix2 0 f)) f

theorem pl_tile (c : Dev nD) (t : Fin cfg3.N) (g : Fin 64) (f : Fin 128) :
    ∑ r : Fin 5000, (if ((iblk V c 2 t : Vec Ideal S5000x1 .i32) (ix2 r 0)).toInt = ((g.val : Nat) : Int)
        then (k1_pay3 (F := Ideal) (iblk V c 0 t) (iblk V c 1 t) (iblk V c 3 t) (iblk V c 4 t) (iblk V c 5 t) (iblk V c 6 t) (iblk V c 7 t)) (ix2 r f) else 0)
      = ∑ r : Fin 5000, pl_T V c g f (5000 * t.val + r.val) := by
  have hN : t.val < 20 := lt_of_lt_of_eq t.isLt N_3
  refine Finset.sum_congr rfl fun r _ => ?_
  have hlt : 5000 * t.val + r.val < 100000 := by have := r.isLt; omega
  unfold pl_T
  rw [dif_pos hlt]
  refine if_congr ?_ (pl_rows_apply V c t r f ⟨5000 * t.val + r.val, hlt⟩ rfl) rfl
  rw [pl_b2_apply V c t r 0 ⟨5000 * t.val + r.val, hlt⟩ rfl]

theorem pl_outsAt_apply (c : Dev nD) (g : Fin 64) (f : Fin 128) : ∀ (n : ℕ) (hn : n < cfg3.N),
    (outsAt V c n hn).2 (ix2 g f) = ∑ t ∈ Finset.range (n + 1), ∑ r : Fin 5000, pl_T V c g f (5000 * t + r.val)
  | 0, hn => by
    rw [outsAt_A V c ⟨0, hn⟩ rfl]
    dsimp only [stepA]
    refine (congrFun (pl_out_A_9 (F := Ideal) c (grid3.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) ((hcond ⟨0, hn⟩).mpr rfl) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩)) (ix2 g f)).trans ?_
    refine (pl_pay1_apply (k1_pay3 (F := Ideal) (iblk V c 0 ⟨0, hn⟩) (iblk V c 1 ⟨0, hn⟩) (iblk V c 3 ⟨0, hn⟩) (iblk V c 4 ⟨0, hn⟩) (iblk V c 5 ⟨0, hn⟩) (iblk V c 6 ⟨0, hn⟩) (iblk V c 7 ⟨0, hn⟩)) (iblk V c 2 ⟨0, hn⟩) (k1_pay2 (F := Ideal)) g f).trans ?_
    rw [pl_pay2_apply, zero_add, Finset.sum_range_one]
    exact pl_tile V c ⟨0, hn⟩ g f
  | n + 1, hn => by
    have hN : cfg3.N = 20 := N_3
    have hB : ¬(⟨n + 1, hn⟩ : Fin cfg3.N).val % 20 = 0 := by dsimp only; omega
    rw [outsAt_B V c ⟨n + 1, hn⟩ hB]
    dsimp only [stepB]
    refine (congrFun (pl_out_B_9 (F := Ideal) c (grid3.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (fun h => hB ((hcond ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (outsAt V c n (Nat.lt_of_succ_lt hn)).2) (ix2 g f)).trans ?_
    refine (pl_pay1_apply (k1_pay3 (F := Ideal) (iblk V c 0 ⟨n + 1, hn⟩) (iblk V c 1 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩)) (iblk V c 2 ⟨n + 1, hn⟩) (outsAt V c n (Nat.lt_of_succ_lt hn)).2 g f).trans ?_
    rw [pl_outsAt_apply c g f n (Nat.lt_of_succ_lt hn), Finset.sum_range_succ _ (n + 1)]
    exact congrArg _ (pl_tile V c ⟨n + 1, hn⟩ g f)

end Invariant

section Array

theorem pl_last (c : Dev nD) (t : Fin cfg3.N) (h19 : t.val = 19) :
    (outsAt V c t.val t.isLt).2 = (Spec.poolOf (pl_L V c) (pl_bid V c) : Vec Ideal S64x128 .f32) := by
  funext j
  obtain ⟨g, f, rfl⟩ : ∃ (g : Fin 64) (f : Fin 128), j = ix2 g f := ⟨j 0, j 1, eq_ix2 j⟩
  rw [pl_outsAt_apply V c g f t.val t.isLt, h19, Spec.poolOf_apply,
    Cert.PoolSum.sum_tiles_fin 20 5000 100000 rfl (pl_T V c g f)]
  refine Finset.sum_congr rfl fun R _ => ?_
  unfold pl_T
  rw [dif_pos R.isLt]

theorem pl_flushed_eq (c : Dev nD) (t : Fin cfg3.N) (hf : (cfg3.win 9).flush t = true) :
    (dat (F := Ideal) V c).flushed 9 t = ((cfg3.win 9).blk t).view.read (Elt Ideal) (Spec.poolOf (pl_L V c) (pl_bid V c)) := by
  have hN : cfg3.N = 20 := N_3
  have h19 : t.val = 19 := by have := (flush3_9 t).mp hf; have := t.isLt; omega
  show (cfg3.win 9).cut (grid3.coords t) ((dat V c).after 9 t) = _
  rw [after_9, pl_last V c t h19]
  obtain ⟨-, -, -, -, -, -, -, -, -, -, -, -, -, -, -, -, e16, e17⟩ := pl_idx t
  have hz' : (fun a => win3_9.index t a * (Pipeline.arrRef spec3 9).ty.shape.size a) = fun _ => 0 := funext fun a => by
    match a with
    | ⟨0, _⟩ => show win3_9.index t (0 : Fin 2) * 64 = 0; rw [e16]
    | ⟨1, _⟩ => show win3_9.index t (1 : Fin 2) * 128 = 0; rw [e17]
  exact (Memref.read_access_unit_zero (Elt Ideal) (Pipeline.arrRef spec3 9) hz' (fun a => by rw [congrFun hz' a]; simp)
    (Spec.poolOf (pl_L V c) (pl_bid V c))).symm

end Array

theorem arr9_eq (c : Dev nD) :
    (dat (F := Ideal) V c).arrAt 9 cfg3.N
      = Spec.poolOf (Spec.layerH (V c (Pipeline.arrRef spec3 3) (ix2 0 0)) (V c (Pipeline.arrRef spec3 0)) (V c (Pipeline.arrRef spec3 1))
        (V c (Pipeline.arrRef spec3 4)) (fun f => V c (Pipeline.arrRef spec3 5) (ix2 0 f))
        (V c (Pipeline.arrRef spec3 6)) (fun f => V c (Pipeline.arrRef spec3 7) (ix2 0 f)))
          (fun r => V c (Pipeline.arrRef spec3 2) (ix2 r 0)) := by
  have hN : cfg3.N = 20 := N_3
  have h19 : 19 < cfg3.N := by omega
  refine (dat (F := Ideal) V c).arrAt_eq_of_cover 9 (Spec.poolOf (pl_L V c) (pl_bid V c)) (pl_flushed_eq V c) fun i => ?_
  obtain ⟨-, -, -, -, -, -, -, -, -, -, -, -, -, -, -, -, e16, e17⟩ := pl_idx ⟨19, h19⟩
  refine ⟨⟨19, h19⟩, (flush3_9 _).mpr rfl, ?_⟩
  rw [show ((cfg3.win 9).blk ⟨19, h19⟩).view.set = (win3_9.rect ⟨19, h19⟩).set from
    View.set_slice_whole (Pipeline.arrRef spec3 9) (win3_9.rect ⟨19, h19⟩), Rect.mem_set_unit]
  intro a
  have h0 : (i 0 : Nat) < 64 := (i 0).isLt
  have h1 : (i 1 : Nat) < 128 := (i 1).isLt
  match a with
  | ⟨0, _⟩ =>
    show win3_9.index ⟨19, h19⟩ (0 : Fin 2) * 64 ≤ (i 0 : Nat) ∧ (i 0 : Nat) < win3_9.index ⟨19, h19⟩ (0 : Fin 2) * 64 + 64
    rw [e16]; omega
  | ⟨1, _⟩ =>
    show win3_9.index ⟨19, h19⟩ (1 : Fin 2) * 128 ≤ (i 1 : Nat) ∧ (i 1 : Nat) < win3_9.index ⟨19, h19⟩ (1 : Fin 2) * 128 + 128
    rw [e17]; omega

end Cert.KernelIdeal.Hand.R3

end
-- ==== Proof.KIHost3.lean ====
import proofs.«421016_j46033459478730_2_alg».proof.Proof.KIRun
import proofs.«421016_j46033459478730_2_alg».proof.Proof.KIVal3H
import proofs.«421016_j46033459478730_2_alg».proof.Proof.KIVal3P
import proofs.«421016_j46033459478730_2_alg».proof.Proof.RefVal
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

namespace H3

section Stretch

variable (W : Valuation τ sig (Elt Ideal))

theorem extf_id {s : Shape} (y : FVec Ideal s .bf16) (h : FTy.bf16.bits < FTy.f32.bits) : extf .f32 y h = y := rfl

theorem cast_scalar {α : Type} (y : S_.Idx → α) (h : S_.ShapeCasts S1x1) (j : S1x1.Idx) : shapeCast S1x1 y h j = y ix0 := by
  unfold shapeCast
  exact congrArg y (eq_ix0 _)

theorem cast_column {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem kept (r : Ref sig .tc) (h : r ∉ hostOps3_W) :
    StableHlo.after hostOps3 W (Proc.devRef .tc r) = W (Proc.devRef .tc r) :=
  StableHlo.after_of_writes_sub hostOps3 W hostOps3_writes h

set_option maxHeartbeats 1000000 in
theorem sums_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128x128, .f32⟩ : BufTy).Contents (Elt Ideal)) (x10 : (⟨S3x128, .f32⟩ : BufTy).Contents (Elt Ideal)) (x11 : (⟨S3, .f32⟩ : BufTy).Contents (Elt Ideal))
    (hrows : W (Proc.devRef .tc main_v57_0) = Cert.ReferenceIdeal.Read.val_main_v82 (F := Ideal) x0 x1 x3 x4 x5 x6 x7 x8 x9 x10 x11)
    (hsrc : W (Proc.devRef .tc main_v1) = Cert.ReferenceIdeal.Read.val_main_v1 (F := Ideal) x1)
    (hdst : W (Proc.devRef .tc main_v3) = Cert.ReferenceIdeal.Read.val_main_v3 (F := Ideal) x1) :
    StableHlo.after hostOps3 W (Proc.devRef .tc main_v68) = Cert.ReferenceIdeal.Read.val_main_v95 (F := Ideal) x0 x1 x3 x4 x5 x6 x7 x8 x9 x10 x11 := by
  after_results
  rw [hrows, hsrc, hdst, extf_id]
  rfl

set_option maxHeartbeats 400000 in
theorem eps_eq (x11 : (⟨S3, .f32⟩ : BufTy).Contents (Elt Ideal)) (h11 : W (Proc.devRef .tc main_arg11) = x11) :
    (StableHlo.after hostOps3 W (Proc.devRef .tc main_v71) : S1x1.Idx → EReal) (ix2 0 0) = Cert.ReferenceIdeal.Read.val_main_v97 (F := Ideal) x11 ix0 := by
  have e : (StableHlo.after hostOps3 W (Proc.devRef .tc main_v71) : S1x1.Idx → EReal)
      = shapeCast S1x1 (Cert.ReferenceIdeal.Read.val_main_v97 (F := Ideal) x11) shapeCasts_S_S1x1 := by
    after_results
    rw [h11]
    rfl
  rw [e]
  exact cast_scalar _ _ _

set_option maxHeartbeats 400000 in
theorem wA_eq (x7 : (⟨S3x128x128, .f32⟩ : BufTy).Contents (Elt Ideal)) (h7 : W (Proc.devRef .tc main_arg7) = x7) :
    StableHlo.after hostOps3 W (Proc.devRef .tc main_v73) = Cert.ReferenceIdeal.Read.val_main_v103 (F := Ideal) x7 := by
  after_results
  rw [h7]
  rfl

set_option maxHeartbeats 400000 in
theorem wB_eq (x9 : (⟨S3x128x128, .f32⟩ : BufTy).Contents (Elt Ideal)) (h9 : W (Proc.devRef .tc main_arg9) = x9) :
    StableHlo.after hostOps3 W (Proc.devRef .tc main_v77) = Cert.ReferenceIdeal.Read.val_main_v112 (F := Ideal) x9 := by
  after_results
  rw [h9]
  rfl

set_option maxHeartbeats 400000 in
theorem bA_eq (x8 : (⟨S3x128, .f32⟩ : BufTy).Contents (Elt Ideal)) (h8 : W (Proc.devRef .tc main_arg8) = x8) (f : Fin 128) :
    (StableHlo.after hostOps3 W (Proc.devRef .tc main_v80) : S1x128.Idx → EReal) (ix2 0 f) = Cert.ReferenceIdeal.Read.val_main_v106 (F := Ideal) x8 (ix1 f) := by
  have e : (StableHlo.after hostOps3 W (Proc.devRef .tc main_v80) : S1x128.Idx → EReal)
      = shapeCast S1x128 (Cert.ReferenceIdeal.Read.val_main_v106 (F := Ideal) x8) shapeCasts_S128_S1x128 := by
    after_results
    rw [h8]
    rfl
  rw [e]
  exact shapeCast_a_1a_apply _ _ 0 f

set_option maxHeartbeats 400000 in
theorem bB_eq (x10 : (⟨S3x128, .f32⟩ : BufTy).Contents (Elt Ideal)) (h10 : W (Proc.devRef .tc main_arg10) = x10) (f : Fin 128) :
    (StableHlo.after hostOps3 W (Proc.devRef .tc main_v81) : S1x128.Idx → EReal) (ix2 0 f) = Cert.ReferenceIdeal.Read.val_main_v115 (F := Ideal) x10 (ix1 f) := by
  have e : (StableHlo.after hostOps3 W (Proc.devRef .tc main_v81) : S1x128.Idx → EReal)
      = shapeCast S1x128 (Cert.ReferenceIdeal.Read.val_main_v115 (F := Ideal) x10) shapeCasts_S128_S1x128 := by
    after_results
    rw [h10]
    rfl
  rw [e]
  exact shapeCast_a_1a_apply _ _ 0 f

end Stretch

end H3

namespace H3

section Region

variable (W : (c : Dev nD) → Valuation τ sig (Elt Ideal))

abbrev VW : (c : Dev nD) → (b : Ref sig .tc) → Buf (Elt Ideal) ((c : Thread nD τ).loc b) :=
  fun c b => StableHlo.after hostOps3 (W c) b

theorem layerH_congr {e e' : EReal} {h h' agg agg' : Spec.SN.Idx → EReal} {W1 W1' W2 W2' : Spec.SW.Idx → EReal}
    {b1 b1' b2 b2' : Fin 128 → EReal} (he : e = e') (hh : h = h') (hagg : agg = agg') (hW1 : W1 = W1') (hb1 : b1 = b1')
    (hW2 : W2 = W2') (hb2 : b2 = b2') :
    Spec.layerH e h agg W1 b1 W2 b2 = Spec.layerH e' h' agg' W1' b1' W2' b2' := by
  subst he hh hagg hW1 hb1 hW2 hb2
  rfl

set_option maxHeartbeats 1000000 in
theorem rows_of (c : Dev nD) (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128x128, .f32⟩ : BufTy).Contents (Elt Ideal)) (x10 : (⟨S3x128, .f32⟩ : BufTy).Contents (Elt Ideal)) (x11 : (⟨S3, .f32⟩ : BufTy).Contents (Elt Ideal))
    (hrows : W c (Proc.devRef .tc main_v57_0) = Cert.ReferenceIdeal.Read.val_main_v82 (F := Ideal) x0 x1 x3 x4 x5 x6 x7 x8 x9 x10 x11)
    (hsrc : W c (Proc.devRef .tc main_v1) = Cert.ReferenceIdeal.Read.val_main_v1 (F := Ideal) x1)
    (hdst : W c (Proc.devRef .tc main_v3) = Cert.ReferenceIdeal.Read.val_main_v3 (F := Ideal) x1)
    (h7 : W c (Proc.devRef .tc main_arg7) = x7) (h8 : W c (Proc.devRef .tc main_arg8) = x8)
    (h9 : W c (Proc.devRef .tc main_arg9) = x9) (h10 : W c (Proc.devRef .tc main_arg10) = x10)
    (h11 : W c (Proc.devRef .tc main_arg11) = x11) :
    (R3.dat (F := Ideal) (VW W) c).arrAt 8 cfg3.N = Cert.ReferenceIdeal.Read.val_main_v118 (F := Ideal) x0 x1 x3 x4 x5 x6 x7 x8 x9 x10 x11 := by
  refine (R3.arr8_eq (VW W) c).trans ?_
  refine Eq.trans ?_ (Cert.ReferenceIdeal.RefVal.h3_eq x0 x1 x3 x4 x5 x6 x7 x8 x9 x10 x11).symm
  exact layerH_congr (eps_eq (W c) x11 h11) ((kept (W c) main_v57_0 (by decide)).trans hrows)
    (sums_eq (W c) x0 x1 x3 x4 x5 x6 x7 x8 x9 x10 x11 hrows hsrc hdst) (wA_eq (W c) x7 h7) (funext fun f => bA_eq (W c) x8 h8 f)
    (wB_eq (W c) x9 h9) (funext fun f => bB_eq (W c) x10 h10 f)

end Region

end H3

namespace H3

section Region

variable (W : (c : Dev nD) → Valuation τ sig (Elt Ideal))

set_option maxHeartbeats 1000000 in
theorem pool_of (c : Dev nD) (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S3x128x128, .f32⟩ : BufTy).Contents (Elt Ideal)) (x8 : (⟨S3x128, .f32⟩ : BufTy).Contents (Elt Ideal)) (x9 : (⟨S3x128x128, .f32⟩ : BufTy).Contents (Elt Ideal)) (x10 : (⟨S3x128, .f32⟩ : BufTy).Contents (Elt Ideal)) (x11 : (⟨S3, .f32⟩ : BufTy).Contents (Elt Ideal))
    (hrows : W c (Proc.devRef .tc main_v57_0) = Cert.ReferenceIdeal.Read.val_main_v82 (F := Ideal) x0 x1 x3 x4 x5 x6 x7 x8 x9 x10 x11)
    (hsrc : W c (Proc.devRef .tc main_v1) = Cert.ReferenceIdeal.Read.val_main_v1 (F := Ideal) x1)
    (hdst : W c (Proc.devRef .tc main_v3) = Cert.ReferenceIdeal.Read.val_main_v3 (F := Ideal) x1)
    (hid : ∀ r : Fin 100000, (W c (Proc.devRef .tc main_v4) : S100000x1.Idx → BitVec 32) (ix2 r 0) = x2 (ix1 r))
    (h7 : W c (Proc.devRef .tc main_arg7) = x7) (h8 : W c (Proc.devRef .tc main_arg8) = x8)
    (h9 : W c (Proc.devRef .tc main_arg9) = x9) (h10 : W c (Proc.devRef .tc main_arg10) = x10)
    (h11 : W c (Proc.devRef .tc main_arg11) = x11) :
    (R3.dat (F := Ideal) (VW W) c).arrAt 9 cfg3.N = Cert.ReferenceIdeal.Read.val_main_v121 (F := Ideal) x0 x1 x2 x3 x4 x5 x6 x7 x8 x9 x10 x11 := by
  refine (R3.arr9_eq (VW W) c).trans ?_
  refine Eq.trans ?_ (Cert.ReferenceIdeal.RefVal.p3_eq x0 x1 x2 x3 x4 x5 x6 x7 x8 x9 x10 x11).symm
  have eH := (R3.arr8_eq (VW W) c).symm.trans (rows_of W c x0 x1 x3 x4 x5 x6 x7 x8 x9 x10 x11 hrows hsrc hdst h7 h8 h9 h10 h11)
  have eid : (fun r : Fin 100000 => VW W c (Pipeline.arrRef spec3 2) (ix2 r 0)) = fun r => x2 (ix1 r) :=
    funext fun r => (congrFun (kept (W c) main_v4 (by decide)) (ix2 r 0)).trans (hid r)
  exact congr (congrArg Spec.poolOf eH) eid

end Region

section Leaves

variable (m : (ℓ : Loc nD τ sig) → Buf (Elt Ideal) ℓ)

theorem back (c : Dev nD) (r : Ref sig .tc) (h6 : r ∉ ([main_v57_0, main_v57_1] : List (Ref sig .tc))) (h5 : r ∉ hostOps2_W)
    (h4 : r ∉ ([main_v32_0, main_v32_1] : List (Ref sig .tc))) (h3 : r ∉ hostOps1_W)
    (h2 : r ∉ ([main_v7] : List (Ref sig .tc))) :
    U6 m c (Proc.devRef .tc r) = Gen.V1 m c (Proc.devRef .tc r) := by
  have e6 := Gen.V6_of m (outs m) c r h6
  have e5 := Gen.V5_of m (outs m) c r h5
  have e4 := Gen.V4_of m (outs m) c r h4
  have e3 := Gen.V3_of m (outs m) c r h3
  have e2 := Gen.V2_of m (outs m) c r h2
  rw [V6_eq m c, V5_eq m c] at e6
  rw [V5_eq m c, V4_eq m c] at e5
  rw [V4_eq m c, V3_eq m c] at e4
  rw [V3_eq m c, V2_eq m c] at e3
  rw [V2_eq m c] at e2
  exact e6.trans (e5.trans (e4.trans (e3.trans e2)))

theorem arg_kept (c : Dev nD) (r : Ref sig .tc) (h6 : r ∉ ([main_v57_0, main_v57_1] : List (Ref sig .tc))) (h5 : r ∉ hostOps2_W)
    (h4 : r ∉ ([main_v32_0, main_v32_1] : List (Ref sig .tc))) (h3 : r ∉ hostOps1_W)
    (h2 : r ∉ ([main_v7] : List (Ref sig .tc))) (h1 : r ∉ hostOps0_W) :
    U6 m c (Proc.devRef .tc r) = m ((c.tc : Thread nD τ).loc r) :=
  (back m c r h6 h5 h4 h3 h2).trans ((Gen.V1_of m c r h1).trans rfl)

set_option maxHeartbeats 400000 in
theorem src_first (c : Dev nD) :
    Gen.V1 m c (Proc.devRef .tc main_v1) = Cert.ReferenceIdeal.Read.val_main_v1 (F := Ideal) (m ((c.tc : Thread nD τ).loc main_arg1)) := by
  show StableHlo.after hostOps0 (fun b => m (c, b)) (Proc.devRef .tc main_v1) = _
  after_results
  rfl

set_option maxHeartbeats 400000 in
theorem dst_first (c : Dev nD) :
    Gen.V1 m c (Proc.devRef .tc main_v3) = Cert.ReferenceIdeal.Read.val_main_v3 (F := Ideal) (m ((c.tc : Thread nD τ).loc main_arg1)) := by
  show StableHlo.after hostOps0 (fun b => m (c, b)) (Proc.devRef .tc main_v3) = _
  after_results
  rfl

set_option maxHeartbeats 400000 in
theorem ids_first (c : Dev nD) (r : Fin 100000) :
    (Gen.V1 m c (Proc.devRef .tc main_v4) : S100000x1.Idx → BitVec 32) (ix2 r 0) = (m ((c.tc : Thread nD τ).loc main_arg2)) (ix1 r) := by
  have e : (Gen.V1 m c (Proc.devRef .tc main_v4) : S100000x1.Idx → BitVec 32)
      = shapeCast S100000x1 ((m ((c.tc : Thread nD τ).loc main_arg2)) : S100000.Idx → BitVec 32) shapeCasts_S100000_S100000x1 := by
    show StableHlo.after hostOps0 (fun b => m (c, b)) (Proc.devRef .tc main_v4) = _
    after_results
    rfl
  rw [e]
  exact cast_column _ _ r 0

end Leaves

end H3

variable (m : (ℓ : Loc nD τ sig) → Buf (Elt Ideal) ℓ)

set_option maxHeartbeats 1000000 in
theorem layer3 (c : Dev nD)
    (hprev : U6 m c main_v57_0 = Cert.ReferenceIdeal.Read.val_main_v82 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) :
    Gen.V8 m (outs m) c main_v82_0 = Cert.ReferenceIdeal.Read.val_main_v118 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    ∧ Gen.V8 m (outs m) c main_v82_1 = Cert.ReferenceIdeal.Read.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have hsrc : U6 m c (Proc.devRef .tc main_v1) = Cert.ReferenceIdeal.Read.val_main_v1 (F := Ideal) (m ((c.tc : Thread nD τ).loc main_arg1)) :=
    (H3.back m c main_v1 (by decide) (by decide) (by decide) (by decide) (by decide)).trans (H3.src_first m c)
  have hdst : U6 m c (Proc.devRef .tc main_v3) = Cert.ReferenceIdeal.Read.val_main_v3 (F := Ideal) (m ((c.tc : Thread nD τ).loc main_arg1)) :=
    (H3.back m c main_v3 (by decide) (by decide) (by decide) (by decide) (by decide)).trans (H3.dst_first m c)
  have hid : ∀ r : Fin 100000, (U6 m c (Proc.devRef .tc main_v4) : S100000x1.Idx → BitVec 32) (ix2 r 0) = (m ((c.tc : Thread nD τ).loc main_arg2)) (ix1 r) :=
    fun r => (congrFun (H3.back m c main_v4 (by decide) (by decide) (by decide) (by decide) (by decide)) (ix2 r 0)).trans (H3.ids_first m c r)
  have h7 := H3.arg_kept m c main_arg7 (by decide) (by decide) (by decide) (by decide) (by decide) (by decide)
  have h8 := H3.arg_kept m c main_arg8 (by decide) (by decide) (by decide) (by decide) (by decide) (by decide)
  have h9 := H3.arg_kept m c main_arg9 (by decide) (by decide) (by decide) (by decide) (by decide) (by decide)
  have h10 := H3.arg_kept m c main_arg10 (by decide) (by decide) (by decide) (by decide) (by decide) (by decide)
  have h11 := H3.arg_kept m c main_arg11 (by decide) (by decide) (by decide) (by decide) (by decide) (by decide)
  have e8 : Gen.V8 m (outs m) c main_v82_0 = (R3.dat (F := Ideal) (VV7 m) c).arrAt 8 cfg3.N :=
    (Function.update_of_ne (StableHlo.devRef_ne_of_ne (by decide) : (Proc.devRef .tc main_v82_0 : DevRef τ sig) ≠ Proc.devRef .tc main_v82_1) _ _).trans
      ((Function.update_self _ _ _).trans
        (Pipeline.withArrays_arr spec3 launch3.win.arr_inj c (U7 m c) (fun w => (R3.dat (F := Ideal) (VV7 m) c).arrAt w cfg3.N) 8))
  have e9 : Gen.V8 m (outs m) c main_v82_1 = (R3.dat (F := Ideal) (VV7 m) c).arrAt 9 cfg3.N :=
    (Function.update_self _ _ _).trans
      (Pipeline.withArrays_arr spec3 launch3.win.arr_inj c (U7 m c) (fun w => (R3.dat (F := Ideal) (VV7 m) c).arrAt w cfg3.N) 9)
  exact ⟨e8.trans (H3.rows_of (U6 m) c (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) hprev hsrc hdst h7 h8 h9 h10 h11),
    e9.trans (H3.pool_of (U6 m) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) hprev hsrc hdst hid h7 h8 h9 h10 h11)⟩

end Cert.KernelIdeal.Hand

end
-- ==== Proof.KIHostFinal.lean ====
import proofs.«421016_j46033459478730_2_alg».proof.Proof.KIRun
import proofs.«421016_j46033459478730_2_alg».proof.Proof.KIHost0
import proofs.«421016_j46033459478730_2_alg».proof.Proof.KIHost1
import proofs.«421016_j46033459478730_2_alg».proof.Proof.KIHost2
import proofs.«421016_j46033459478730_2_alg».proof.Proof.KIHost3
import proofs.«421016_j46033459478730_2_alg».proof.Proof.RefVal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ)

namespace Final

theorem join_of (W : Valuation τ sig (Elt Ideal)) (P1 P2 P3 : S64x128.Idx → EReal)
    (h1 : W main_v32_1 = P1) (h2 : W main_v57_1 = P2) (h3 : W main_v82_1 = P3) :
    StableHlo.after hostOps4 W (Proc.devRef .tc main_v83)
      = concatenate S64x384 1 [⟨S64x128, P1⟩, ⟨S64x128, P2⟩, ⟨S64x128, P3⟩] concatenates_S64x128_S64x128_S64x128_S64x384_d1 := by
  after_results
  show concatenate S64x384 1 [⟨S64x128, W (Proc.devRef .tc main_v32_1)⟩, ⟨S64x128, W (Proc.devRef .tc main_v57_1)⟩,
      ⟨S64x128, W (Proc.devRef .tc main_v82_1)⟩] concatenates_S64x128_S64x128_S64x128_S64x384_d1 = _
  rw [h1, h2, h3]

theorem pool1_kept (c : Dev nD) : Gen.V8 m (outs m) c main_v32_1 = U4 m c main_v32_1 :=
  (Gen.V8_of m (outs m) c main_v32_1 (by decide)).trans <| (Gen.V7_of m (outs m) c main_v32_1 (by decide)).trans <|
    (Gen.V6_of m (outs m) c main_v32_1 (by decide)).trans <| (Gen.V5_of m (outs m) c main_v32_1 (by decide)).trans
      (congrFun (V4_eq m c) (Proc.devRef .tc main_v32_1))

theorem pool2_kept (c : Dev nD) : Gen.V8 m (outs m) c main_v57_1 = U6 m c main_v57_1 :=
  (Gen.V8_of m (outs m) c main_v57_1 (by decide)).trans <| (Gen.V7_of m (outs m) c main_v57_1 (by decide)).trans
    (congrFun (V6_eq m c) (Proc.devRef .tc main_v57_1))

theorem result_of_pools (c : Dev nD) (P1 P2 P3 : S64x128.Idx → EReal)
    (p1 : U4 m c main_v32_1 = P1) (p2 : U6 m c main_v57_1 = P2) (p3 : Gen.V8 m (outs m) c main_v82_1 = P3) :
    Gen.V9 m (outs m) c main_v83
      = concatenate S64x384 1 [⟨S64x128, P1⟩, ⟨S64x128, P2⟩, ⟨S64x128, P3⟩] concatenates_S64x128_S64x128_S64x128_S64x384_d1 := by
  have q1 : Gen.V8 m (outs m) c main_v32_1 = P1 := (pool1_kept m c).trans p1
  have q2 : Gen.V8 m (outs m) c main_v57_1 = P2 := (pool2_kept m c).trans p2
  show StableHlo.after hostOps4 (Gen.V8 m (outs m) c) (Proc.devRef .tc main_v83) = _
  generalize Gen.V8 m (outs m) c = W at q1 q2 p3 ⊢
  exact join_of W P1 P2 P3 q1 q2 p3

end Final

theorem result_eq (c : Dev nD) :
    Gen.V9 m (outs m) c main_v83 = Cert.ReferenceIdeal.Read.val_main_v122 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  have h0 := h0K m c
  obtain ⟨h1h, h1p⟩ := layer1 m c h0
  obtain ⟨h2h, h2p⟩ := layer2 m c h1h
  obtain ⟨h3h, h3p⟩ := layer3 m c h2h
  unfold Cert.ReferenceIdeal.Read.val_main_v122
  exact Final.result_of_pools m c _ _ _ h1p h2p h3p

end Cert.KernelIdeal.Hand

end
-- ==== Proof.lean ====
/- A three-layer graph network on 100000 nodes, as a tiled kernel program and as plain array code: the two agree
   over the extended reals, layer by layer, since every tile's rows depend only on the same rows of the arrays. -/
import proofs.«421016_j46033459478730_2_alg».proof.Defs
import proofs.«421016_j46033459478730_2_alg».proof.Proof.Gen.Kernel
import proofs.«421016_j46033459478730_2_alg».proof.Proof.Gen.KernelIdeal
import proofs.«421016_j46033459478730_2_alg».proof.Proof.Gen.ReferenceIdeal
import proofs.«421016_j46033459478730_2_alg».proof.Proof.Gen.Pre_finite_inputs
import proofs.«421016_j46033459478730_2_alg».proof.Proof.Gen.ReferenceIdeal.Read
import proofs.«421016_j46033459478730_2_alg».proof.Proof.KRun
import proofs.«421016_j46033459478730_2_alg».proof.Proof.KIRun
import proofs.«421016_j46033459478730_2_alg».proof.Proof.KIRunVal
import proofs.«421016_j46033459478730_2_alg».proof.Proof.KIHostFinal
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Gen.V9 m (Cert.KernelIdeal.Hand.outs m) c Cert.KernelIdeal.main_v83,
    Cert.KernelIdeal.Hand.run_val (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v122_eq, h0, h1, h2, h3, h4, h5, h6, h7, h8, h9, h10, h11]
  exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
